-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x256 : Shape := ⟨2, ![32000, 256]⟩
abbrev S2048x256 : Shape := ⟨2, ![2048, 256]⟩
abbrev S256x256 : Shape := ⟨2, ![256, 256]⟩
abbrev S256 : Shape := ⟨1, ![256]⟩
abbrev S256x32000 : Shape := ⟨2, ![256, 32000]⟩
abbrev S32000 : Shape := ⟨1, ![32000]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32000 : S_.BroadcastsInDim S256x32000 (![] : Fin 0 → Fin S256x32000.rank)
  reducesTo_S256x32000_S_d0_1 : S256x32000.ReducesTo [0, 1] S_
  bcast_S_S32000 : S_.BroadcastsInDim S32000 (![] : Fin 0 → Fin S32000.rank)
  reducesTo_S32000_S_d0 : S32000.ReducesTo [0] S_
  bcast_S_S4x2048 : S_.BroadcastsInDim S4x2048 (![] : Fin 0 → Fin S4x2048.rank)
  reducesTo_S4x2048_S_d0_1 : S4x2048.ReducesTo [0, 1] S_

variable [Facts]

def fn_part3 {F : FTy → Type} [FloatOps F] (main_arg0 : IVec S4x2048 32) (main_arg1 : IVec S4x2048 32) (main_v48 : IVec S_ 1) (main_v50 : IVec S4x2048 1) : IVec S_ 1 :=
  let main_c_19 : IVec S_ 32 := constantI S_ 32 32000#32
  let main_v51 : IVec S4x2048 32 := broadcastInDim S4x2048 ![] bcast_S_S4x2048 main_c_19
  let main_v52 : IVec S4x2048 1 := cmpi .slt main_arg0 main_v51
  let main_v53 : IVec S4x2048 1 := andi main_v50 main_v52
  let main_c_20 : IVec S_ 1 := constantI S_ 1 1#1
  let main_v54 : IVec S_ 1 := (fun x v => Host.reduce IntOp.andi x v reducesTo_S4x2048_S_d0_1 h_S_) main_v53 main_c_20
  let main_v55 : IVec S_ 1 := andi main_v48 main_v54
  let main_c_21 : IVec S_ 32 := constantI S_ 32 4294935296#32
  let main_v56 : IVec S4x2048 32 := broadcastInDim S4x2048 ![] bcast_S_S4x2048 main_c_21
  let main_v57 : IVec S4x2048 1 := cmpi .sge main_arg1 main_v56
  let main_c_22 : IVec S_ 32 := constantI S_ 32 32000#32
  let main_v58 : IVec S4x2048 32 := broadcastInDim S4x2048 ![] bcast_S_S4x2048 main_c_22
  let main_v59 : IVec S4x2048 1 := cmpi .slt main_arg1 main_v58
  let main_v60 : IVec S4x2048 1 := andi main_v57 main_v59
  let main_c_23 : IVec S_ 1 := constantI S_ 1 1#1
  let main_v61 : IVec S_ 1 := (fun x v => Host.reduce IntOp.andi x v reducesTo_S4x2048_S_d0_1 h_S_) main_v60 main_c_23
  let main_v62 : IVec S_ 1 := andi main_v55 main_v61
  main_v62

def fn_part2 {F : FTy → Type} [FloatOps F] (main_arg0 : IVec S4x2048 32) (main_arg1 : IVec S4x2048 32) (main_arg9 : FVec F S256 .f32) (main_arg10 : FVec F S256x32000 .f32) (main_arg11 : FVec F S32000 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x32000 .f32 := Host.absf main_arg10
  let main_cst_14 : FVec F S_ .f32 := constant S_ .f32 0x7F800000#32
  let main_v40 : FVec F S256x32000 .f32 := broadcastInDim S256x32000 ![] bcast_S_S256x32000 main_cst_14
  let main_v41 : IVec S256x32000 1 := cmpf .olt main_v39 main_v40
  let main_c_15 : IVec S_ 1 := constantI S_ 1 1#1
  let main_v42 : IVec S_ 1 := (fun x v => Host.reduce IntOp.andi x v reducesTo_S256x32000_S_d0_1 h_S_) main_v41 main_c_15
  let main_v43 : IVec S_ 1 := andi main_v38 main_v42
  let main_v44 : FVec F S32000 .f32 := Host.absf main_arg11
  let main_cst_16 : FVec F S_ .f32 := constant S_ .f32 0x7F800000#32
  let main_v45 : FVec F S32000 .f32 := broadcastInDim S32000 ![] bcast_S_S32000 main_cst_16
  let main_v46 : IVec S32000 1 := cmpf .olt main_v44 main_v45
  let main_c_17 : IVec S_ 1 := constantI S_ 1 1#1
  let main_v47 : IVec S_ 1 := (fun x v => Host.reduce IntOp.andi x v reducesTo_S32000_S_d0 h_S_) main_v46 main_c_17
  let main_v48 : IVec S_ 1 := andi main_v43 main_v47
  let main_c_18 : IVec S_ 32 := constantI S_ 32 4294935296#32
  let main_v49 : IVec S4x2048 32 := broadcastInDim S4x2048 ![] bcast_S_S4x2048 main_c_18
  let main_v50 : IVec S4x2048 1 := cmpi .sge main_arg0 main_v49
  fn_part3 (F := F) main_arg0 main_arg1 main_v48 main_v50

def fn_part1 {F : FTy → Type} [FloatOps F] (main_arg0 : IVec S4x2048 32) (main_arg1 : IVec S4x2048 32) (main_arg6 : FVec F S256x256 .f32) (main_arg7 : FVec F S256 .f32) (main_arg8 : FVec F S256x256 .f32) (main_arg9 : FVec F S256 .f32) (main_arg10 : FVec F S256x32000 .f32) (main_arg11 : FVec F S32000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg0 main_arg1 main_arg9 main_arg10 main_arg11 main_v33

def fn {F : FTy → Type} [FloatOps F] (main_arg0 : IVec S4x2048 32) (main_arg1 : IVec S4x2048 32) (main_arg2 : FVec F S32000x256 .f32) (main_arg3 : FVec F S2048x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x32000 .f32) (main_arg11 : FVec F S32000 .f32) : IVec S_ 1 :=
  let main_v0 : FVec F S32000x256 .f32 := Host.absf main_arg2
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S2048x256 .f32 := Host.absf main_arg3
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg6 main_arg7 main_arg8 main_arg9 main_arg10 main_arg11 main_v13 main_v16
-- ==== Kernel.lean ====
abbrev S4x2048 : Shape := ⟨2, ![4, 2048]⟩
abbrev S32000x256 : Shape := ⟨2, ![32000, 256]⟩
abbrev S2048x256 : Shape := ⟨2, ![2048, 256]⟩
abbrev S256x256 : Shape := ⟨2, ![256, 256]⟩
abbrev S256 : Shape := ⟨1, ![256]⟩
abbrev S256x32000 : Shape := ⟨2, ![256, 32000]⟩
abbrev S32000 : Shape := ⟨1, ![32000]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2048x256 : Shape := ⟨3, ![4, 2048, 256]⟩
abbrev S1x2048x256 : Shape := ⟨3, ![1, 2048, 256]⟩
abbrev S8192x256 : Shape := ⟨2, ![8192, 256]⟩
abbrev S1x256 : Shape := ⟨2, ![1, 256]⟩
abbrev S1024x256 : Shape := ⟨2, ![1024, 256]⟩
abbrev S4x512x256 : Shape := ⟨3, ![4, 512, 256]⟩
abbrev S4x512x1 : Shape := ⟨3, ![4, 512, 1]⟩
abbrev S4x512x512 : Shape := ⟨3, ![4, 512, 512]⟩
abbrev S4x512 : Shape := ⟨2, ![4, 512]⟩
abbrev S1x32000 : Shape := ⟨2, ![1, 32000]⟩
abbrev S8192x32000 : Shape := ⟨2, ![8192, 32000]⟩
abbrev S8192x1 : Shape := ⟨2, ![8192, 1]⟩
abbrev S256x640 : Shape := ⟨2, ![256, 640]⟩
abbrev S1x640 : Shape := ⟨2, ![1, 640]⟩
abbrev S2048x640 : Shape := ⟨2, ![2048, 640]⟩
abbrev S2048x1 : Shape := ⟨2, ![2048, 1]⟩
abbrev S2048 : Shape := ⟨1, ![2048]⟩
abbrev S8192x1x1 : Shape := ⟨3, ![8192, 1, 1]⟩
abbrev S8192 : Shape := ⟨1, ![8192]⟩

abbrev nBuf : Space → Nat
  | .hbm => 83
  | .vmem => 37
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S32000x256, .f32⟩
  | .hbm, ⟨3, _⟩ => ⟨S2048x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x32000, .f32⟩
  | .hbm, ⟨11, _⟩ => ⟨S32000, .f32⟩
  | .hbm, ⟨12, _⟩ => ⟨S_, .i32⟩
  | .hbm, ⟨13, _⟩ => ⟨S4x2048, .i32⟩
  | .hbm, ⟨14, _⟩ => ⟨S4x2048, .i1⟩
  | .hbm, ⟨15, _⟩ => ⟨S_, .i32⟩
  | .hbm, ⟨16, _⟩ => ⟨S4x2048, .i32⟩
  | .hbm, ⟨17, _⟩ => ⟨S4x2048, .i32⟩
  | .hbm, ⟨18, _⟩ => ⟨S4x2048, .i32⟩
  | .hbm, ⟨19, _⟩ => ⟨S4x2048x1, .i32⟩
  | .hbm, ⟨20, _⟩ => ⟨S1, .i32⟩
  | .hbm, ⟨21, _⟩ => ⟨S_, .i32⟩
  | .hbm, ⟨22, _⟩ => ⟨S4x2048x1, .i32⟩
  | .hbm, ⟨23, _⟩ => ⟨S4x2048x1, .i1⟩
  | .hbm, ⟨24, _⟩ => ⟨S1x1x1, .i32⟩
  | .hbm, ⟨25, _⟩ => ⟨S4x2048x1, .i32⟩
  | .hbm, ⟨26, _⟩ => ⟨S4x2048x1, .i1⟩
  | .hbm, ⟨27, _⟩ => ⟨S4x2048x1, .i1⟩
  | .hbm, ⟨28, _⟩ => ⟨S_, .i1⟩
  | .hbm, ⟨29, _⟩ => ⟨S4x2048, .i1⟩
  | .hbm, ⟨30, _⟩ => ⟨S4x2048x256, .f32⟩
  | .hbm, ⟨31, _⟩ => ⟨S4x2048x256, .i1⟩
  | .hbm, ⟨32, _⟩ => ⟨S_, .f32⟩
  | .hbm, ⟨33, _⟩ => ⟨S4x2048x256, .f32⟩
  | .hbm, ⟨34, _⟩ => ⟨S4x2048x256, .f32⟩
  | .hbm, ⟨35, _⟩ => ⟨S1x2048x256, .f32⟩
  | .hbm, ⟨36, _⟩ => ⟨S4x2048x256, .f32⟩
  | .hbm, ⟨37, _⟩ => ⟨S4x2048x256, .f32⟩
  | .hbm, ⟨38, _⟩ => ⟨S8192x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S8192x256, .bf16⟩
  | .hbm, ⟨43, _⟩ => ⟨S8192x256, .bf16⟩
  | .hbm, ⟨44, _⟩ => ⟨S8192x256, .bf16⟩
  | .hbm, ⟨45, _⟩ => ⟨S4x2048x256, .bf16⟩
  | .hbm, ⟨46, _⟩ => ⟨S4x2048x256, .bf16⟩
  | .hbm, ⟨47, _⟩ => ⟨S4x2048x256, .bf16⟩
  | .hbm, ⟨48, _⟩ => ⟨S4x2048x256, .bf16⟩
  | .hbm, ⟨49, _⟩ => ⟨S8192x256, .bf16⟩
  | .hbm, ⟨50, _⟩ => ⟨S256x32000, .bf16⟩
  | .hbm, ⟨51, _⟩ => ⟨S1x32000, .f32⟩
  | .hbm, ⟨52, _⟩ => ⟨S8192x32000, .f32⟩
  | .hbm, ⟨53, _⟩ => ⟨S8192x1, .f32⟩
  | .hbm, ⟨54, _⟩ => ⟨S8192x1, .i32⟩
  | .hbm, ⟨55, _⟩ => ⟨S_, .i32⟩
  | .hbm, ⟨56, _⟩ => ⟨S8192x1, .i32⟩
  | .hbm, ⟨57, _⟩ => ⟨S8192x1, .i1⟩
  | .hbm, ⟨58, _⟩ => ⟨S_, .i32⟩
  | .hbm, ⟨59, _⟩ => ⟨S8192x1, .i32⟩
  | .hbm, ⟨60, _⟩ => ⟨S8192x1, .i32⟩
  | .hbm, ⟨61, _⟩ => ⟨S8192x1, .i32⟩
  | .hbm, ⟨62, _⟩ => ⟨S8192x1x1, .i32⟩
  | .hbm, ⟨63, _⟩ => ⟨S1, .i32⟩
  | .hbm, ⟨64, _⟩ => ⟨S_, .i32⟩
  | .hbm, ⟨65, _⟩ => ⟨S8192x1x1, .i32⟩
  | .hbm, ⟨66, _⟩ => ⟨S8192x1x1, .i1⟩
  | .hbm, ⟨67, _⟩ => ⟨S1x1x1, .i32⟩
  | .hbm, ⟨68, _⟩ => ⟨S8192x1x1, .i32⟩
  | .hbm, ⟨69, _⟩ => ⟨S8192x1x1, .i1⟩
  | .hbm, ⟨70, _⟩ => ⟨S8192x1x1, .i1⟩
  | .hbm, ⟨71, _⟩ => ⟨S_, .i1⟩
  | .hbm, ⟨72, _⟩ => ⟨S8192x1, .i1⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S4x512x256, .bf16⟩
  | .local _ .vmem, ⟨15, _⟩ => ⟨S4x512x256, .bf16⟩
  | .local _ .vmem, ⟨16, _⟩ => ⟨S4x512x256, .bf16⟩
  | .local _ .vmem, ⟨17, _⟩ => ⟨S4x512x256, .bf16⟩
  | .local _ .vmem, ⟨18, _⟩ => ⟨S4x512x256, .bf16⟩
  | .local _ .vmem, ⟨19, _⟩ => ⟨S4x512x256, .bf16⟩
  | .local _ .vmem, ⟨20, _⟩ => ⟨S4x512x256, .bf16⟩
  | .local _ .vmem, ⟨21, _⟩ => ⟨S4x512x256, .bf16⟩
  | .local _ .vmem, ⟨22, _⟩ => ⟨S4x512x1, .f32⟩
  | .local _ .vmem, ⟨23, _⟩ => ⟨S4x512x1, .f32⟩
  | .local _ .vmem, ⟨24, _⟩ => ⟨S4x512x256, .f32⟩
  | .local _ .vmem, ⟨25, _⟩ => ⟨S2048x256, .bf16⟩
  | .local _ .vmem, ⟨26, _⟩ => ⟨S2048x256, .bf16⟩
  | .local _ .vmem, ⟨27, _⟩ => ⟨S256x640, .bf16⟩
  | .local _ .vmem, ⟨28, _⟩ => ⟨S256x640, .bf16⟩
  | .local _ .vmem, ⟨29, _⟩ => ⟨S1x640, .f32⟩
  | .local _ .vmem, ⟨30, _⟩ => ⟨S1x640, .f32⟩
  | .local _ .vmem, ⟨31, _⟩ => ⟨S2048x640, .f32⟩
  | .local _ .vmem, ⟨32, _⟩ => ⟨S2048x640, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | .local _ .vmem, ⟨36, _⟩ => ⟨S2048x1, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8_0 : Ref sig .tc := ⟨.hbm, 42, rfl⟩
abbrev main_v8_1 : Ref sig .tc := ⟨.hbm, 43, rfl⟩
abbrev main_v8_2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16_0 : Ref sig .tc := ⟨.hbm, 52, rfl⟩
abbrev main_v16_1 : Ref sig .tc := ⟨.hbm, 53, rfl⟩
abbrev main_v17 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst : Ref sig .tc := ⟨.hbm, 79, rfl⟩
abbrev main_v21 : Ref sig .tc := ⟨.hbm, 80, rfl⟩
abbrev main_cst_0 : Ref sig .tc := ⟨.hbm, 81, rfl⟩
abbrev main_v22 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_scratch0 : Ref sig .tc := ⟨.vmem, 35, rfl⟩
abbrev cc2_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

def k1_cond3 (i : grid1.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 50], ![false, false]⟩

def k2_cond2 (i : grid2.Coords) : BitVec 1 :=
  let arg1 : BitVec 32 := BitVec.ofNat 32 (i 1).val
  let c49_i32 : BitVec 32 := 49#32
  let v34 : BitVec 1 := Scalar.cmpi .eq arg1 c49_i32
  let v35 : BitVec 32 := Scalar.extui v34
  let c0_i32_20 : BitVec 32 := 0#32
  let v36 : BitVec 1 := Scalar.cmpi .ne v35 c0_i32_20
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x640 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  h_S_ : 0 < S_.numel
  bcast_S4x2048_S4x2048x256_0_1 : S4x2048.BroadcastsInDim S4x2048x256 (![0, 1] : Fin 2 → Fin S4x2048x256.rank)
  bcast_S_S4x2048x256 : S_.BroadcastsInDim S4x2048x256 (![] : Fin 0 → Fin S4x2048x256.rank)
  bcast_S2048x256_S1x2048x256_1_2 : S2048x256.BroadcastsInDim S1x2048x256 (![1, 2] : Fin 2 → Fin S1x2048x256.rank)
  bcast_S1x2048x256_S4x2048x256_0_1_2 : S1x2048x256.BroadcastsInDim S4x2048x256 (![0, 1, 2] : Fin 3 → Fin S4x2048x256.rank)
  shapeCasts_S4x2048x256_S8192x256 : S4x2048x256.ShapeCasts S8192x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  shapeCasts_S8192x256_S4x2048x256 : S8192x256.ShapeCasts S4x2048x256
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  iota_S4x512x512_d1_w32 : S4x512x512.Iotas .tc 32 [1]
  iota_S4x512x512_d2_w32 : S4x512x512.Iotas .tc 32 [2]
  reduces_S4x512x512_S4x512 : S4x512x512.Reduces [2] S4x512
  shapeCasts_S4x512_S4x512x1 : S4x512.ShapeCasts S4x512x1
  broadcasts_S4x512x1_S4x512x512 : S4x512x1.Broadcasts S4x512x512
  broadcasts_S4x512x1_S4x512x256 : S4x512x1.Broadcasts S4x512x256
  packedbf16_S4x512x256_S4x512x256_0_0_0 : (Rect.unit (s := S4x512x256) ![0, 0, 0] S4x512x256.size inb_S4x512x256_S4x512x256_0_0_0).PackedRows (EltTy.packing .bf16)
  shapeCasts_S32000_S1x32000 : S32000.ShapeCasts S1x32000
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  inb_S2048x640_S2048x640_0_0 : ∀ a, (![0, 0] : Fin 2 → Nat) a + S2048x640.size a ≤ S2048x640.size a
  h_S2048x640 : 0 < S2048x640.numel
  reduces_S2048x640_S2048 : S2048x640.Reduces [1] S2048
  shapeCasts_S2048_S2048x1 : S2048.ShapeCasts S2048x1
  broadcasts_S2048x1_S2048x640 : S2048x1.Broadcasts S2048x640
  shapeCasts_S4x2048_S8192x1 : S4x2048.ShapeCasts S8192x1
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S32000x256_S4x2048x1_S4x2048x256_2_0_n_n_0_2_1256_wf : GatherDims.WF S32000x256 S4x2048x1 S4x2048x256 [2] [0] [] [0] [] 2 ![1, 256]
  dot_S1024x256_S256x256_S1024x256_1_0_0_1_n_n_wf : DotDims.WF S1024x256 S256x256 S1024x256 [1] [0] [0] [1] [] []
  dot_S4x512x256_S4x512x256_S4x512x512_2_2_1_1_0_0_wf : DotDims.WF S4x512x256 S4x512x256 S4x512x512 [2] [2] [1] [1] [0] [0]
  dot_S4x512x512_S4x512x256_S4x512x256_2_1_1_2_0_0_wf : DotDims.WF S4x512x512 S4x512x256 S4x512x256 [2] [1] [1] [2] [0] [0]
  dot_S2048x256_S256x640_S2048x640_1_0_0_1_n_n_wf : DotDims.WF S2048x256 S256x640 S2048x640 [1] [0] [0] [1] [] []
  gather_S8192x32000_S8192x1x1_S8192x1_n_1_0_0_1_2_11_wf : GatherDims.WF S8192x32000 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .bf16 = 32 ∨ (Rect.block (s := S8192x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x256.size a
  hwx0_8 : ∀ i : grid0.Coords, EltTy.bits .bf16 = 32 ∨ (Rect.block (s := S8192x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x256.size a
  hwx0_9 : ∀ i : grid0.Coords, EltTy.bits .bf16 = 32 ∨ (Rect.block (s := S8192x256) S1024x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x256.size a ≤ S4x2048x256.size a
  hwx1_0 : ∀ i : grid1.Coords, EltTy.bits .bf16 = 32 ∨ (Rect.block (s := S4x2048x256) S4x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x256.size a ≤ S4x2048x256.size a
  hwx1_1 : ∀ i : grid1.Coords, EltTy.bits .bf16 = 32 ∨ (Rect.block (s := S4x2048x256) S4x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x256.size a ≤ S4x2048x256.size a
  hwx1_2 : ∀ i : grid1.Coords, EltTy.bits .bf16 = 32 ∨ (Rect.block (s := S4x2048x256) S4x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x256.size a ≤ S4x2048x256.size a
  hwx1_3 : ∀ i : grid1.Coords, EltTy.bits .bf16 = 32 ∨ (Rect.block (s := S4x2048x256) S4x512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .bf16 = 32 ∨ (Rect.block (s := S8192x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x640.size a ≤ S256x32000.size a
  hwx2_1 : ∀ i : grid2.Coords, EltTy.bits .bf16 = 32 ∨ (Rect.block (s := S256x32000) S256x640.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x32000.size a
  hwx2_2 : ∀ i : grid2.Coords, EltTy.bits .f32 = 32 ∨ (Rect.block (s := S1x32000) S1x640.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x640.size a ≤ S8192x32000.size a
  hwx2_3 : ∀ i : grid2.Coords, EltTy.bits .f32 = 32 ∨ (Rect.block (s := S8192x32000) S2048x640.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S8192x1.size a
  hwx2_4 : ∀ i : grid2.Coords, EltTy.bits .f32 = 32 ∨ (Rect.block (s := S8192x1) S2048x1.size (cc2_transform_4 i) (hinb2_4 i)).WholeWords (EltTy.packing .f32)

variable [Facts₀]

def gather_S32000x256_S4x2048x1_S4x2048x256_2_0_n_n_0_2_1256 : GatherDims S32000x256 S4x2048x1 S4x2048x256 where
  offsetDims := [2]
  collapsedSliceDims := [0]
  operandBatchingDims := []
  startIndicesBatchingDims := []
  startIndexMap := [0]
  indexVectorDim := 2
  sliceSizes := ![1, 256]
  wf := gather_S32000x256_S4x2048x1_S4x2048x256_2_0_n_n_0_2_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf
def dot_S4x512x512_S4x512x256_S4x512x256_2_1_1_2_0_0 : DotDims S4x512x512 S4x512x256 S4x512x256 where
  lhsContracting := [2]
  rhsContracting := [1]
  lhsNonContracting := [1]
  rhsNonContracting := [2]
  lhsBatch := [0]
  rhsBatch := [0]
  wf := dot_S4x512x512_S4x512x256_S4x512x256_2_1_1_2_0_0_wf
def dot_S2048x256_S256x640_S2048x640_1_0_0_1_n_n : DotDims S2048x256 S256x640 S2048x640 where
  lhsContracting := [1]
  rhsContracting := [0]
  lhsNonContracting := [0]
  rhsNonContracting := [1]
  lhsBatch := []
  rhsBatch := []
  wf := dot_S2048x256_S256x640_S2048x640_1_0_0_1_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9) S4x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v13) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S256x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x640.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_0) S2048x640.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_1) S2048x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x2048 : Shape := ⟨2, ![4, 2048]⟩
abbrev S32000x256 : Shape := ⟨2, ![32000, 256]⟩
abbrev S2048x256 : Shape := ⟨2, ![2048, 256]⟩
abbrev S256x256 : Shape := ⟨2, ![256, 256]⟩
abbrev S256 : Shape := ⟨1, ![256]⟩
abbrev S256x32000 : Shape := ⟨2, ![256, 32000]⟩
abbrev S32000 : Shape := ⟨1, ![32000]⟩
abbrev S_ : Shape := ⟨0, ![]⟩
abbrev S4x2048x1 : Shape := ⟨3, ![4, 2048, 1]⟩
abbrev S4x2048x256 : Shape := ⟨3, ![4, 2048, 256]⟩
abbrev S1x2048x256 : Shape := ⟨3, ![1, 2048, 256]⟩
abbrev S1x1x256 : Shape := ⟨3, ![1, 1, 256]⟩
abbrev S4x2048x2048 : Shape := ⟨3, ![4, 2048, 2048]⟩
abbrev S2048x2048 : Shape := ⟨2, ![2048, 2048]⟩
abbrev S4x2048x32000 : Shape := ⟨3, ![4, 2048, 32000]⟩
abbrev S1x1x32000 : Shape := ⟨3, ![1, 1, 32000]⟩
abbrev S8192x32000 : Shape := ⟨2, ![8192, 32000]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S32000x256, .f32⟩
  | .hbm, ⟨3, _⟩ => ⟨S2048x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x32000, .f32⟩
  | .hbm, ⟨11, _⟩ => ⟨S32000, .f32⟩
  | .hbm, ⟨12, _⟩ => ⟨S_, .i32⟩
  | .hbm, ⟨13, _⟩ => ⟨S4x2048, .i32⟩
  | .hbm, ⟨14, _⟩ => ⟨S4x2048, .i1⟩
  | .hbm, ⟨15, _⟩ => ⟨S_, .i32⟩
  | .hbm, ⟨16, _⟩ => ⟨S4x2048, .i32⟩
  | .hbm, ⟨17, _⟩ => ⟨S4x2048, .i32⟩
  | .hbm, ⟨18, _⟩ => ⟨S4x2048, .i32⟩
  | .hbm, ⟨19, _⟩ => ⟨S4x2048x1, .i32⟩
  | .hbm, ⟨20, _⟩ => ⟨S4x2048x256, .f32⟩
  | .hbm, ⟨21, _⟩ => ⟨S1x2048x256, .f32⟩
  | .hbm, ⟨22, _⟩ => ⟨S4x2048x256, .f32⟩
  | .hbm, ⟨23, _⟩ => ⟨S4x2048x256, .f32⟩
  | .hbm, ⟨24, _⟩ => ⟨S4x2048x256, .f32⟩
  | .hbm, ⟨25, _⟩ => ⟨S1x1x256, .f32⟩
  | .hbm, ⟨26, _⟩ => ⟨S4x2048x256, .f32⟩
  | .hbm, ⟨27, _⟩ => ⟨S4x2048x256, .f32⟩
  | .hbm, ⟨28, _⟩ => ⟨S4x2048x256, .f32⟩
  | .hbm, ⟨29, _⟩ => ⟨S1x1x256, .f32⟩
  | .hbm, ⟨30, _⟩ => ⟨S4x2048x256, .f32⟩
  | .hbm, ⟨31, _⟩ => ⟨S4x2048x256, .f32⟩
  | .hbm, ⟨32, _⟩ => ⟨S4x2048x256, .f32⟩
  | .hbm, ⟨33, _⟩ => ⟨S1x1x256, .f32⟩
  | .hbm, ⟨34, _⟩ => ⟨S4x2048x256, .f32⟩
  | .hbm, ⟨35, _⟩ => ⟨S4x2048x256, .f32⟩
  | .hbm, ⟨36, _⟩ => ⟨S4x2048x2048, .f32⟩
  | .hbm, ⟨37, _⟩ => ⟨S_, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S_, .i1⟩
  | .hbm, ⟨42, _⟩ => ⟨S2048x2048, .i1⟩
  | .hbm, ⟨43, _⟩ => ⟨S2048x2048, .i32⟩
  | .hbm, ⟨44, _⟩ => ⟨S_, .i32⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S2048x2048, .i1⟩
  | .hbm, ⟨49, _⟩ => ⟨S_, .i1⟩
  | .hbm, ⟨50, _⟩ => ⟨S2048x2048, .i1⟩
  | .hbm, ⟨51, _⟩ => ⟨S2048x2048, .i1⟩
  | .hbm, ⟨52, _⟩ => ⟨S_, .f32⟩
  | .hbm, ⟨53, _⟩ => ⟨S_, .f32⟩
  | .hbm, ⟨54, _⟩ => ⟨S4x2048x2048, .i1⟩
  | .hbm, ⟨55, _⟩ => ⟨S4x2048x2048, .f32⟩
  | .hbm, ⟨56, _⟩ => ⟨S4x2048x2048, .f32⟩
  | .hbm, ⟨57, _⟩ => ⟨S_, .f32⟩
  | .hbm, ⟨58, _⟩ => ⟨S4x2048, .f32⟩
  | .hbm, ⟨59, _⟩ => ⟨S_, .f32⟩
  | .hbm, ⟨60, _⟩ => ⟨S4x2048, .f32⟩
  | .hbm, ⟨61, _⟩ => ⟨S4x2048, .f32⟩
  | .hbm, ⟨62, _⟩ => ⟨S4x2048x1, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x2048, .f32⟩
  | .hbm, ⟨70, _⟩ => ⟨S4x2048x2048, .f32⟩
  | .hbm, ⟨71, _⟩ => ⟨S4x2048x256, .f32⟩
  | .hbm, ⟨72, _⟩ => ⟨S4x2048x32000, .f32⟩
  | .hbm, ⟨73, _⟩ => ⟨S1x1x32000, .f32⟩
  | .hbm, ⟨74, _⟩ => ⟨S4x2048x32000, .f32⟩
  | .hbm, ⟨75, _⟩ => ⟨S4x2048x32000, .f32⟩
  | .hbm, ⟨76, _⟩ => ⟨S8192x32000, .f32⟩
  | .hbm, ⟨77, _⟩ => ⟨S8192, .i32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S8192x32000, .f32⟩
  | .hbm, ⟨85, _⟩ => ⟨S8192x32000, .f32⟩
  | .hbm, ⟨86, _⟩ => ⟨S8192x32000, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1, .f32⟩
  | .hbm, ⟨91, _⟩ => ⟨S8192x32000, .f32⟩
  | .hbm, ⟨92, _⟩ => ⟨S8192x32000, .f32⟩
  | .hbm, ⟨93, _⟩ => ⟨S8192x1, .i32⟩
  | .hbm, ⟨94, _⟩ => ⟨S_, .i32⟩
  | .hbm, ⟨95, _⟩ => ⟨S8192x1, .i32⟩
  | .hbm, ⟨96, _⟩ => ⟨S8192x1, .i1⟩
  | .hbm, ⟨97, _⟩ => ⟨S_, .i32⟩
  | .hbm, ⟨98, _⟩ => ⟨S8192x1, .i32⟩
  | .hbm, ⟨99, _⟩ => ⟨S8192x1, .i32⟩
  | .hbm, ⟨100, _⟩ => ⟨S8192x1, .i32⟩
  | .hbm, ⟨101, _⟩ => ⟨S8192x1x1, .i32⟩
  | .hbm, ⟨102, _⟩ => ⟨S1, .i32⟩
  | .hbm, ⟨103, _⟩ => ⟨S_, .i32⟩
  | .hbm, ⟨104, _⟩ => ⟨S8192x1x1, .i32⟩
  | .hbm, ⟨105, _⟩ => ⟨S8192x1x1, .i1⟩
  | .hbm, ⟨106, _⟩ => ⟨S1x1x1, .i32⟩
  | .hbm, ⟨107, _⟩ => ⟨S8192x1x1, .i32⟩
  | .hbm, ⟨108, _⟩ => ⟨S8192x1x1, .i1⟩
  | .hbm, ⟨109, _⟩ => ⟨S8192x1x1, .i1⟩
  | .hbm, ⟨110, _⟩ => ⟨S_, .i1⟩
  | .hbm, ⟨111, _⟩ => ⟨S8192x1, .i1⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v27 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v47 : Ref sig .tc := ⟨.hbm, 92, rfl⟩
abbrev main_v48 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_cst : Ref sig .tc := ⟨.hbm, 113, rfl⟩
abbrev main_call3_v14 : Ref sig .tc := ⟨.hbm, 114, rfl⟩
abbrev main_v49 : Ref sig .tc := ⟨.hbm, 115, rfl⟩
abbrev main_cst_6 : Ref sig .tc := ⟨.hbm, 116, rfl⟩
abbrev main_v50 : Ref sig .tc := ⟨.hbm, 117, rfl⟩
abbrev main_cst_7 : Ref sig .tc := ⟨.hbm, 118, rfl⟩
abbrev main_v51 : Ref sig .tc := ⟨.hbm, 119, rfl⟩
abbrev main_v52 : Ref sig .tc := ⟨.hbm, 120, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S2048x256_S1x2048x256_1_2 : S2048x256.BroadcastsInDim S1x2048x256 (![1, 2] : Fin 2 → Fin S1x2048x256.rank)
  bcast_S1x2048x256_S4x2048x256_0_1_2 : S1x2048x256.BroadcastsInDim S4x2048x256 (![0, 1, 2] : Fin 3 → Fin S4x2048x256.rank)
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S4x2048x1_S4x2048x2048_0_1_2 : S4x2048x1.BroadcastsInDim S4x2048x2048 (![0, 1, 2] : Fin 3 → Fin S4x2048x2048.rank)
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  shapeCasts_S4x2048x32000_S8192x32000 : S4x2048x32000.ShapeCasts S8192x32000
  shapeCasts_S4x2048_S8192 : S4x2048.ShapeCasts S8192
  reducesTo_S8192x32000_S8192_d1 : S8192x32000.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  gather_S32000x256_S4x2048x1_S4x2048x256_2_0_n_n_0_2_1256_wf : GatherDims.WF S32000x256 S4x2048x1 S4x2048x256 [2] [0] [] [0] [] 2 ![1, 256]
  dot_S4x2048x256_S256x256_S4x2048x256_2_0_01_1_n_n_wf : DotDims.WF S4x2048x256 S256x256 S4x2048x256 [2] [0] [0, 1] [1] [] []
  dot_S4x2048x256_S4x2048x256_S4x2048x2048_2_2_1_1_0_0_wf : DotDims.WF S4x2048x256 S4x2048x256 S4x2048x2048 [2] [2] [1] [1] [0] [0]
  dot_S4x2048x2048_S4x2048x256_S4x2048x256_2_1_1_2_0_0_wf : DotDims.WF S4x2048x2048 S4x2048x256 S4x2048x256 [2] [1] [1] [2] [0] [0]
  dot_S4x2048x256_S256x32000_S4x2048x32000_2_0_01_1_n_n_wf : DotDims.WF S4x2048x256 S256x32000 S4x2048x32000 [2] [0] [0, 1] [1] [] []
  gather_S8192x32000_S8192x1x1_S8192x1_n_1_0_0_1_2_11_wf : GatherDims.WF S8192x32000 S8192x1x1 S8192x1 [] [1] [0] [1] [0] 2 ![1, 1]

variable [Facts₀]

def gather_S32000x256_S4x2048x1_S4x2048x256_2_0_n_n_0_2_1256 : GatherDims S32000x256 S4x2048x1 S4x2048x256 where
  offsetDims := [2]
  collapsedSliceDims := [0]
  operandBatchingDims := []
  startIndicesBatchingDims := []
  startIndexMap := [0]
  indexVectorDim := 2
  sliceSizes := ![1, 256]
  wf := gather_S32000x256_S4x2048x1_S4x2048x256_2_0_n_n_0_2_1256_wf
def dot_S4x2048x256_S256x256_S4x2048x256_2_0_01_1_n_n : DotDims S4x2048x256 S256x256 S4x2048x256 where
  lhsContracting := [2]
  rhsContracting := [0]
  lhsNonContracting := [0, 1]
  rhsNonContracting := [1]
  lhsBatch := []
  rhsBatch := []
  wf := dot_S4x2048x256_S256x256_S4x2048x256_2_0_01_1_n_n_wf
def dot_S4x2048x256_S4x2048x256_S4x2048x2048_2_2_1_1_0_0 : DotDims S4x2048x256 S4x2048x256 S4x2048x2048 where
  lhsContracting := [2]
  rhsContracting := [2]
  lhsNonContracting := [1]
  rhsNonContracting := [1]
  lhsBatch := [0]
  rhsBatch := [0]
  wf := dot_S4x2048x256_S4x2048x256_S4x2048x2048_2_2_1_1_0_0_wf
def dot_S4x2048x2048_S4x2048x256_S4x2048x256_2_1_1_2_0_0 : DotDims S4x2048x2048 S4x2048x256 S4x2048x256 where
  lhsContracting := [2]
  rhsContracting := [1]
  lhsNonContracting := [1]
  rhsNonContracting := [2]
  lhsBatch := [0]
  rhsBatch := [0]
  wf := dot_S4x2048x2048_S4x2048x256_S4x2048x256_2_1_1_2_0_0_wf
def dot_S4x2048x256_S256x32000_S4x2048x32000_2_0_01_1_n_n : DotDims S4x2048x256 S256x32000 S4x2048x32000 where
  lhsContracting := [2]
  rhsContracting := [0]
  lhsNonContracting := [0, 1]
  rhsNonContracting := [1]
  lhsBatch := []
  rhsBatch := []
  wf := dot_S4x2048x256_S256x32000_S4x2048x32000_2_0_01_1_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.K.Base.lean ====
import proofs.«413320_j45251775431036_3_alg».proof.Proof.Gen.Kernel.Launch
import proofs.«413320_j45251775431036_3_alg».proof.Proof.Gen.Kernel.Skeleton
import proofs.«413320_j45251775431036_3_alg».proof.Proof.Gen.Kernel.Points
import Idealize.ShloMosaic.Lib.Pipeline.FrameBody
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Stores that tile a buffer leave it at what their pieces say. -/
theorem owns_of_writes {c : Thread nD τ} {sp : Space} {sh : Shape} {e : EltTy} {M : Memref sig c.2.kind sp sh e}
    {g : Buf (Elt F) (M.view.loc c)} {L : List (View.Piece (Elt F) sh e)} {X : sh.Idx → Elt F e}
    (hX : View.canon L = X) (hL : View.Piece.tiledL L sh.size = true) :
    (M.view.loc c ↦[M.view.set]{fullShare} M.view.writes (Elt F) g L : sProp 𝕄) ⊢ owns c M fullShare X := by
  rw [← hX, ← View.read_writes_eq_canon M.view g L (View.cover_of_tiledL L _ hL)]
  exact owns_intro c M fullShare _

variable (V : (c : Dev nD) → (b : Ref sig .tc) → Buf (Elt F) ((c : Thread nD τ).loc b))

section
variable (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (t : Fin cfg0.N)

abbrev b0_0 : Vec F S1024x256 .f32 := iblk0 V c 0 t

abbrev b0_1 : Vec F S256x256 .f32 := iblk0 V c 1 t

abbrev b0_2 : Vec F S1x256 .f32 := iblk0 V c 2 t

abbrev b0_3 : Vec F S256x256 .f32 := iblk0 V c 3 t

abbrev b0_4 : Vec F S1x256 .f32 := iblk0 V c 4 t

abbrev b0_5 : Vec F S256x256 .f32 := iblk0 V c 5 t

abbrev b0_6 : Vec F S1x256 .f32 := iblk0 V c 6 t

end

abbrev b1_0 (t : Fin cfg1.N) : Vec F S4x512x256 .bf16 := iblk1 V c 0 t

abbrev b1_1 (t : Fin cfg1.N) : Vec F S4x512x256 .bf16 := iblk1 V c 1 t

abbrev b1_2 (t : Fin cfg1.N) : Vec F S4x512x256 .bf16 := iblk1 V c 2 t

abbrev b2_0 (t : Fin cfg2.N) : Vec F S2048x256 .bf16 := iblk2 V c 0 t

abbrev b2_1 (t : Fin cfg2.N) : Vec F S256x640 .bf16 := iblk2 V c 1 t

abbrev b2_2 (t : Fin cfg2.N) : Vec F S1x640 .f32 := iblk2 V c 2 t

def o0_7 (t : Fin cfg0.N) : Vec F S1024x256 .bf16 := k0_pay2 (b0_0 V c t) (b0_1 V c t) (b0_2 V c t)

def o0_8 (t : Fin cfg0.N) : Vec F S1024x256 .bf16 := k0_pay3 (b0_0 V c t) (b0_3 V c t) (b0_4 V c t)

def o0_9 (t : Fin cfg0.N) : Vec F S1024x256 .bf16 := k0_pay4 (b0_0 V c t) (b0_5 V c t) (b0_6 V c t)

end

abbrev St1 (F : FTy → Type) [FloatOps F] : Type := Vec F S4x512x1 .f32 × Vec F S4x512x1 .f32 × Vec F S4x512x256 .f32

def init1 : St1 F := (k1_pay1 (F := F), k1_pay2 (F := F), k1_pay3 (F := F))

def step1 (a0 a1 : BitVec 32) (q k v : Vec F S4x512x256 .bf16) (s : St1 F) : St1 F :=
  (k1_pay6 (k1_pay10 a0 a1 q k s.1),
   k1_pay4 (k1_pay13 a0 a1 q k s.1 s.1 s.2.1),
   k1_pay5 (k1_pay8 v) (k1_pay11 a0 a1 q k s.1 s.1) (k1_pay12 a0 a1 q k s.1) s.2.2)

def fin1 (s : St1 F) : Vec F S4x512x256 .bf16 := k1_pay7 s.2.2 s.2.1

def step1At (c : Dev nD) (t : Fin cfg1.N) (s : St1 F) : St1 F :=
  step1 (BitVec.ofNat 32 ((grid1.coords t) 0).val) (BitVec.ofNat 32 ((grid1.coords t) 1).val) (b1_0 V c t) (b1_1 V c t) (b1_2 V c t) s

def sc1 (c : Dev nD) : (n : ℕ) → n < cfg1.N → St1 F
  | 0, hn => step1At V c ⟨0, hn⟩ init1
  | n + 1, hn =>
    let s0 : St1 F := if (n + 1) % 4 = 0 then init1 else sc1 c n (Nat.lt_of_succ_lt hn)
    if (n + 1) % 4 ≤ (n + 1) / 4 then step1At V c ⟨n + 1, hn⟩ s0 else s0

def o1_3 (c : Dev nD) (t : Fin cfg1.N) : Vec F S4x512x256 .bf16 := fin1 (sc1 V c t.val t.isLt)

abbrev St2 (F : FTy → Type) [FloatOps F] : Type := Vec F S2048x1 .f32 × Vec F S2048x1 .f32

def init2 : St2 F := (k2_pay3 (F := F), k2_pay4 (F := F))

def step2 (x : Vec F S2048x256 .bf16) (w : Vec F S256x640 .bf16) (b : Vec F S1x640 .f32) (s : St2 F) : St2 F :=
  (k2_pay1 (k2_pay6 x w b s.1), k2_pay7 x w b s.1 s.1 s.2)

def fin2 (s : St2 F) : Vec F S2048x1 .f32 := k2_pay2 s.1 s.2

def step2At (c : Dev nD) (t : Fin cfg2.N) (s : St2 F) : St2 F := step2 (b2_0 V c t) (b2_1 V c t) (b2_2 V c t) s

def sc2 (c : Dev nD) : (n : ℕ) → n < cfg2.N → St2 F
  | 0, hn => step2At V c ⟨0, hn⟩ init2
  | n + 1, hn => step2At V c ⟨n + 1, hn⟩ (if (n + 1) % 50 = 0 then init2 else sc2 c n (Nat.lt_of_succ_lt hn))

def o2_3 (c : Dev nD) (t : Fin cfg2.N) : Vec F S2048x640 .f32 := k2_pay5 (b2_0 V c t) (b2_1 V c t) (b2_2 V c t)

def o2_4 (c : Dev nD) (t : Fin cfg2.N) : Vec F S2048x1 .f32 := fin2 (sc2 V c t.val t.isLt)

abbrev scM1_0 : Memref sig .tc .vmem S4x512x1 .f32 := Memref.whole cc1_scratch0

abbrev scM1_1 : Memref sig .tc .vmem S4x512x1 .f32 := Memref.whole cc1_scratch1

abbrev scM1_2 : Memref sig .tc .vmem S4x512x256 .f32 := Memref.whole cc1_scratch2

abbrev scM2_0 : Memref sig .tc .vmem S2048x1 .f32 := Memref.whole cc2_scratch0

abbrev scM2_1 : Memref sig .tc .vmem S2048x1 .f32 := Memref.whole cc2_scratch1

section
variable (c : Dev nD)

def Phi1 : (n : ℕ) → n ≤ cfg1.N → sProp 𝕄
  | 0, _ => Pipeline.ΦA spec1 c
  | n + 1, hn =>
    iprop(owns (c : Thread nD τ) scM1_0 fullShare (sc1 V c n hn).1
      ∗ owns (c : Thread nD τ) scM1_1 fullShare (sc1 V c n hn).2.1
      ∗ owns (c : Thread nD τ) scM1_2 fullShare (sc1 V c n hn).2.2
      ∗ Pipeline.scopedRestBut (Ix := Unit) (Name := ℕ) (U := UR sig nD τ) (Lvl := ℕ) (Val := Elt F) spec1 c [cc1_scratch0, cc1_scratch1, cc1_scratch2]
      ∗ (∃ r, prngReg c r))

def Phi2 : (n : ℕ) → n ≤ cfg2.N → sProp 𝕄
  | 0, _ => Pipeline.ΦA spec2 c
  | n + 1, hn =>
    iprop(owns (c : Thread nD τ) scM2_0 fullShare (sc2 V c n hn).1
      ∗ owns (c : Thread nD τ) scM2_1 fullShare (sc2 V c n hn).2
      ∗ Pipeline.scopedRestBut (Ix := Unit) (Name := ℕ) (U := UR sig nD τ) (Lvl := ℕ) (Val := Elt F) spec2 c [cc2_scratch0, cc2_scratch1]
      ∗ (∃ r, prngReg c r))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => o0_7 V c t
    | ⟨8, _⟩ => o0_8 V c t
    | ⟨9, _⟩ => o0_9 V c t
  Φ _ := Pipeline.ΦA spec0 c
  q _ := fullShare
  owed _ := 0

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => o1_3 V c t
  Φ t := Phi1 V c t.val (Nat.le_of_lt_succ t.isLt)
  q _ := fullShare
  owed _ := 0

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => o2_3 V c t
    | ⟨4, _⟩ => o2_4 V c t
  Φ t := Phi2 V c t.val (Nat.le_of_lt_succ t.isLt)
  q _ := fullShare
  owed _ := 0

theorem A_eq0 (w : Fin cfg0.W) : (dat0 V c).A w = V c (Pipeline.arrRef spec0 w) := by dsimp only [dat0]

theorem A_eq1 (w : Fin cfg1.W) : (dat1 V c).A w = V c (Pipeline.arrRef spec1 w) := by dsimp only [dat1]

theorem A_eq2 (w : Fin cfg2.W) : (dat2 V c).A w = V c (Pipeline.arrRef spec2 w) := by dsimp only [dat2]

end

end Cert.Kernel.Hand

end
-- ==== Proof.K.Body0.lean ====
import proofs.«413320_j45251775431036_3_alg».proof.Proof.K.Base
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (t : Fin cfg0.N)

theorem before0 :
    (∀ d, (dat0 V c).before 0 t d = iblk0 V c 0 t)
    ∧ (∀ d, (dat0 V c).before 1 t d = iblk0 V c 1 t)
    ∧ (∀ d, (dat0 V c).before 2 t d = iblk0 V c 2 t)
    ∧ (∀ d, (dat0 V c).before 3 t d = iblk0 V c 3 t)
    ∧ (∀ d, (dat0 V c).before 4 t d = iblk0 V c 4 t)
    ∧ (∀ d, (dat0 V c).before 5 t d = iblk0 V c 5 t)
    ∧ (∀ d, (dat0 V c).before 6 t d = iblk0 V c 6 t) := by
  refine ⟨?_, ?_, ?_, ?_, ?_, ?_, ?_⟩ <;> intro d <;>
    exact Eq.trans ((dat0 V c).before_in_eq_fetched _ rfl (fun _ => rfl) (fun _ _ _ => rfl)
      (fun t => by unfold Dat.blockOf; rw [A_eq0]; rfl) t d)
      (by unfold Dat.fetched Dat.blockOf iblk0; rw [A_eq0]; try rfl)

end

theorem zeros2 : (![0, 0] : Fin 2 → Nat) = fun _ => 0 := funext fun a => by fin_cases a <;> rfl

abbrev r0_a : Rect S1024x256 := Rect.unit (s := S1024x256) ![0, 0] S1024x256.size inb_S1024x256_S1024x256_0_0

abbrev r0_b : Rect S256x256 := Rect.unit (s := S256x256) ![0, 0] S256x256.size inb_S256x256_S256x256_0_0

abbrev r0_c : Rect S1x256 := Rect.unit (s := S1x256) ![0, 0] S1x256.size inb_S1x256_S1x256_0_0

/-- One whole-tile store of a function of three whole-block loads holds that function of the blocks. -/
theorem out0_eq (pay : Vec F S1024x256 .f32 → Vec F S256x256 .f32 → Vec F S1x256 .f32 → Vec F S1024x256 .bf16)
    (x0 : Vec F S1024x256 .f32) (x1 : Vec F S256x256 .f32) (x2 : Vec F S1x256 .f32) :
    View.canon [(⟨r0_a, pay (View.ld x0 r0_a) (View.ld x1 r0_b) (View.ld x2 r0_c)⟩ : View.Piece (Elt F) S1024x256 .bf16)] = pay x0 x1 x2 := by
  rw [View.canon_unit_zero (S := S1024x256) zeros2, View.ld_unit_zero (S := S1024x256) zeros2, View.ld_unit_zero (S := S256x256) zeros2, View.ld_unit_zero (S := S1x256) zeros2]

local instance owns_intoExists (c : Thread nD τ) {sp : Space} {sh : Shape} {e : EltTy} (m : Memref sig c.2.kind sp sh e) (q : PosShare TreeShare) (X : sh.Idx → Elt F e) :
    IntoExists (owns c m q X : sProp 𝕄) (fun f => iprop(⌜m.view.read (Elt F) f = X⌝ ∗ (m.view.loc c ↦[m.view.set]{q} f))) := ⟨.rfl⟩

set_option maxHeartbeats 4000000 in
theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  dsimp only
  obtain ⟨b0, b1, b2, b3, b4, b5, b6⟩ := before0 V c t
  simp only [b0, b1, b2, b3, b4, b5, b6]
  dsimp only [dat0, o0_7, o0_8, o0_9, b0_0, b0_1, b0_2, b0_3, b0_4, b0_5, b0_6]
  show _ ⊢ wp _ _ _ (bodyAt0 t) _
  unfold bodyAt0
  simp only [cc0__qkv_kernel_eq_skeleton]; unfold cc0__qkv_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩, ⟨%d8, %f8, -, H8⟩, ⟨%d9, %f9, -, H9⟩⟩
  sl_exec
  sl_step
  rw [← hf0, ← hf1, ← hf2, ← hf3, ← hf4, ← hf5, ← hf6]
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  isplitl [H6]; · iapply owns_intro $$ H6
  isplitl [H7]; · iapply owns_of_writes $$ H7; exact out0_eq k0_pay2 _ _ _; sl_kernel_rfl
  isplitl [H8]; · iapply owns_of_writes $$ H8; exact out0_eq k0_pay3 _ _ _; sl_kernel_rfl
  iapply owns_of_writes $$ H9; exact out0_eq k0_pay4 _ _ _; sl_kernel_rfl

end Cert.Kernel.Hand

end
-- ==== Proof.K.Chain.lean ====
import proofs.«413320_j45251775431036_3_alg».proof.Proof.K.Base
import Idealize.ShloMosaic.Lib.Pipeline.RegionsLoop
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev E2 : (c : Dev nD) → (b : Ref sig .tc) → Buf (Elt F) ((c : Thread nD τ).loc b) := fun c b => W2 m c b

def W3 (c : Dev nD) : Valuation τ sig (Elt F) :=
  Pipeline.withArrays spec0 c (W2 m c) fun w => (dat0 (E2 m) c).arrAt w cfg0.N

abbrev W4 : Dev nD → Valuation τ sig (Elt F) := fun c => StableHlo.after hostOps1 (W3 m c)

abbrev E4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (E4 m) c).arrAt w cfg1.N

abbrev W6 : Dev nD → Valuation τ sig (Elt F) := fun c => StableHlo.after hostOps2 (W5 m c)

abbrev E6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (E6 m) c).arrAt w cfg2.N

abbrev W8 : Dev nD → Valuation τ sig (Elt F) := fun c => StableHlo.after hostOps3 (W7 m c)

abbrev W9 : Dev nD → Valuation τ sig (Elt F) := fun c => StableHlo.after hostOps3_1 (W8 m c)

abbrev W10 : Dev nD → Valuation τ sig (Elt F) := fun c => StableHlo.after hostOps3_2 (W9 m c)

section
variable (c : Dev nD)

theorem W3_arr (w : Fin cfg0.W) :
    W3 m c (Proc.devRef .tc (Pipeline.arrRef spec0 w)) = (dat0 (E2 m) c).arrAt w cfg0.N := by
  unfold W3; exact Pipeline.withArrays_arr spec0 launch0.win.arr_inj c _ _ w

theorem W3_of_ne (b : Ref sig .tc) (hb : ∀ w, Pipeline.arrRef spec0 w ≠ b) :
    W3 m c (Proc.devRef .tc b) = W2 m c (Proc.devRef .tc b) := by
  unfold W3; exact Pipeline.withArrays_of_ne spec0 c _ _ b hb

theorem W5_arr (w : Fin cfg1.W) :
    W5 m c (Proc.devRef .tc (Pipeline.arrRef spec1 w)) = (dat1 (E4 m) c).arrAt w cfg1.N := by
  unfold W5; exact Pipeline.withArrays_arr spec1 launch1.win.arr_inj c _ _ w

theorem W5_of_ne (b : Ref sig .tc) (hb : ∀ w, Pipeline.arrRef spec1 w ≠ b) :
    W5 m c (Proc.devRef .tc b) = W4 m c (Proc.devRef .tc b) := by
  unfold W5; exact Pipeline.withArrays_of_ne spec1 c _ _ b hb

theorem W7_arr (w : Fin cfg2.W) :
    W7 m c (Proc.devRef .tc (Pipeline.arrRef spec2 w)) = (dat2 (E6 m) c).arrAt w cfg2.N := by
  unfold W7; exact Pipeline.withArrays_arr spec2 launch2.win.arr_inj c _ _ w

theorem W7_of_ne (b : Ref sig .tc) (hb : ∀ w, Pipeline.arrRef spec2 w ≠ b) :
    W7 m c (Proc.devRef .tc b) = W6 m c (Proc.devRef .tc b) := by
  unfold W7; exact Pipeline.withArrays_of_ne spec2 c _ _ b hb

end

end Cert.Kernel.Hand

end
-- ==== Proof.K.Run.lean ====
import proofs.«413320_j45251775431036_3_alg».proof.Proof.K.Body0
import proofs.«413320_j45251775431036_3_alg».proof.Proof.K.Chain
import proofs.«413320_j45251775431036_3_alg».proof.Proof.Gen.Kernel.Regions
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem not_arr {n : Nat} {f : Fin n → Ref sig .tc} {b : Ref sig .tc} (hb : b ∉ Finset.univ.image f) (w : Fin n) : f w ≠ b :=
  fun e => hb (Finset.mem_image.mpr ⟨w, Finset.mem_univ _, e⟩)

theorem sh_in {A B C : sProp 𝕄} : iprop(A ∗ B ∗ C) ⊢ iprop(C ∗ A) := by
  iintro ⟨Hp, -, Hr⟩
  isplitl [Hr]; · iexact Hr
  iexact Hp

theorem sh_out {A C : sProp 𝕄} : iprop(C ∗ A) ⊢ iprop(A ∗ emp ∗ C) := by
  iintro ⟨Hr, Hp⟩
  isplitl [Hp]; · iexact Hp
  isplitr; · iempintro
  iexact Hr

theorem entry_gen {Hd P O A Zr Pf Ow rest : sProp 𝕄} (hsplit : Hd ⊢ iprop(A ∗ Zr)) (hpf : (BI.emp : sProp 𝕄) ⊢ Pf) (how : O ⊢ Ow) :
    iprop((Hd ∗ P ∗ O) ∗ rest) ⊢ |={Set.univ}=> iprop(A ∗ Pf ∗ Ow ∗ P ∗ Zr) := by
  iintro ⟨⟨Hub, Hp, HO⟩, -⟩
  ihave H := hsplit $$ Hub
  icases H with ⟨Ha, Hrest⟩
  imodintro
  isplitl [Ha]; · iexact Ha
  isplitr; · iapply hpf; iempintro
  isplitl [HO]; · iapply how; iexact HO
  isplitl [Hp]; · iexact Hp
  iexact Hrest

theorem exit_gen {Arr Zr Hd Y Ow O : sProp 𝕄} (hjoin : iprop(Arr ∗ Zr) ⊢ Hd) (how : Ow ⊢ O) :
    iprop(Arr ∗ Ow ∗ Y ∗ Zr) ⊢ |={Set.univ}=> iprop(Hd ∗ Y ∗ O) := by
  iintro ⟨Ha, HO, HY, Hrest⟩
  imodintro
  isplitl [Ha Hrest]
  · iapply hjoin; isplitl [Ha] <;> iassumption
  isplitl [HY]; · iexact HY
  iapply how; iexact HO

def pdats : (p : Fin 3) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E4 m) c
  | ⟨2, _⟩ => fun c => dat2 (E6 m) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig) (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

-- A kernel region, stated once for the three: they differ in the region's number, the contents before and after, and the body's obligation.
set_option backward.isDefEq.respectTransparency.types false in
def regOf (p : Fin 3) (lch : Pipeline.LaunchFacts (nD := nD) (τ := τ) cfgs p) (Wi Wo : Dev nD → Valuation τ sig (Elt F))
    (hB : ∀ c, BodyObligation (pdats m p c) (defs₀ (F := F)) Variants.none () Set.univ)
    (hI : ∀ c, (Pipeline.ΦA (Pipeline.pin (pcfgs (F := F)) adm p).spec c : sProp 𝕄) ⊢ (pdats m p c).Φ 0)
    (hO : ∀ c, (pdats m p c).Φ (Fin.last _) ⊢ (Pipeline.ΦA (Pipeline.pin (pcfgs (F := F)) adm p).spec c : sProp 𝕄))
    (hF : ∀ c w, (pdats m p c).arrAt w (Pipeline.pin (pcfgs (F := F)) adm p).N = Wo c (Pipeline.arrRef (Pipeline.pin (pcfgs (F := F)) adm p).spec w))
    (hne : ∀ c (b : Ref sig .tc), (∀ w, Pipeline.arrRef (Pipeline.pin (pcfgs (F := F)) adm p).spec w ≠ b) → Wo c b = Wi c b)
    (hK : IsEmpty (Fin (pcfgs (F := F) p).pre.K) := by exact inferInstanceAs (IsEmpty (Fin 0)))
    (hshare : ∀ c w, (pdats m p c).share w = fullShare := by exact fun _ => Pipeline.Dat.share_full _ fun _ => rfl)
    (howed : ∀ c t, (pdats m p c).owed t = 0 := by intros; rfl) (hbound : ∀ c t x, x ∈ (pdats m p c).bound () t := by intros; exact Or.inl trivial)
    (hA : ∀ c w, (pdats m p c).A w = Wi c (Pipeline.arrRef (Pipeline.pin (pcfgs (F := F)) adm p).spec w) := by intros; rfl) :
    Pipeline.RegionSeg (pcfgs (F := F)) adm (pdats m) () defs₀ 𝒱₀ L lv p where
  win := lch.win.to₀
  block_pos := lch.block_pos
  stage_whole := lch.stage_whole
  K := PEmpty
  osem k := k.elim
  ho := Pipeline.OwnSemFacts.none _
  hbody c := (hB c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Pipeline.pin (pcfgs (F := F)) adm p).spec c fun b => Wi c b
  hentry c := entry_gen
    (by have h := Pipeline.arrays_of_unscopedBufs (p := p) (pcfgs (F := F)) adm (pdats m) lch.win lch.arr_whole c (hshare c) (fun b => Wi c b) (hA c)
        rwa [Pipeline.unscopedBufs_held] at h)
    (by haveI := hK; unfold Pipeline.prefHeld; rw [Finset.univ_eq_empty, BI.bigSep_empty])
    (by unfold Pipeline.Dat.owesAt Pipeline.owesWithin; rw [howed]
        iintro HO; icases HO with ⟨%W, HO⟩; iexists W; isplitr; · ipureintro; exact fun x _ => hbound c 0 x
        iexact HO)
  hin c := sh_in.trans (hI c)
  hout c := by rw [Pipeline.ownSems0_none]; exact (hO c).trans sh_out
  hexit c := exit_gen
    (by have h := Pipeline.unscopedBufs_of_arrays (p := p) (pcfgs (F := F)) adm (Ix := Unit) (Name := ℕ) (U := UR sig nD τ) (Lvl := ℕ)
          lch.win lch.arr_whole c (pdats m) (hshare c) (fun b => Wi c b) (fun b => Wo c b) ((pdats m p c).arrAt · (Pipeline.pin (pcfgs (F := F)) adm p).N) (hF c) fun b hb => hne c b (not_arr hb)
        rwa [Pipeline.unscopedBufs_held] at h)
    (by unfold Pipeline.Dat.owesAt Pipeline.owesWithin; rw [howed]; iintro HO; icases HO with ⟨%W, -, HO⟩; iexists W; iexact HO)

theorem last_link (c : Dev nD) :
    (iprop(StableHlo.held (c : Thread nD τ) (Pipeline.ucRefs τ sig) (W10 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
abbrev segs (r1 : Pipeline.RegionSeg (pcfgs (F := F)) adm (pdats m) () defs₀ 𝒱₀ L lv 1) (r2 : Pipeline.RegionSeg (pcfgs (F := F)) adm (pdats m) () defs₀ 𝒱₀ L lv 2) :
    List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (regOf m 0 launch0 (W2 m) (W3 m) (body_obligation0 (E2 m)) (fun _ => .rfl) (fun _ => .rfl) (fun c w => (W3_arr m c w).symm) (W3_of_ne m)),
    .host (hseg hostOps1 hostOps1_sub hostOps1_fresh (W3 m)),
    .region r1,
    .host (hseg hostOps2 hostOps2_sub hostOps2_fresh (W5 m)),
    .region r2,
    .host (hseg hostOps3 hostOps3_sub hostOps3_fresh (W7 m)),
    .host (hseg hostOps3_1 hostOps3_1_sub hostOps3_1_fresh (W8 m)),
    .host (hseg hostOps3_2 hostOps3_2_sub hostOps3_2_fresh (W9 m)) ]

set_option backward.isDefEq.respectTransparency.types false in
set_option maxHeartbeats 4000000 in
theorem run_main (B1 : ∀ (V : (c : Dev nD) → (b : Ref sig .tc) → Buf (Elt F) ((c : Thread nD τ).loc b)) (c : Dev nD), BodyObligation (dat1 (F := F) V c) (defs₀ (F := F)) Variants.none () Set.univ) (I1 : ∀ (V : (c : Dev nD) → (b : Ref sig .tc) → Buf (Elt F) ((c : Thread nD τ).loc b)) (c : Dev nD), (Pipeline.ΦA spec1 c : sProp 𝕄) ⊢ (dat1 (F := F) V c).Φ 0) (O1 : ∀ (V : (c : Dev nD) → (b : Ref sig .tc) → Buf (Elt F) ((c : Thread nD τ).loc b)) (c : Dev nD), (dat1 (F := F) V c).Φ (Fin.last cfg1.N) ⊢ (Pipeline.ΦA spec1 c : sProp 𝕄)) (B2 : ∀ (V : (c : Dev nD) → (b : Ref sig .tc) → Buf (Elt F) ((c : Thread nD τ).loc b)) (c : Dev nD), BodyObligation (dat2 (F := F) V c) (defs₀ (F := F)) Variants.none () Set.univ) (I2 : ∀ (V : (c : Dev nD) → (b : Ref sig .tc) → Buf (Elt F) ((c : Thread nD τ).loc b)) (c : Dev nD), (Pipeline.ΦA spec2 c : sProp 𝕄) ⊢ (dat2 (F := F) V c).Φ 0) (O2 : ∀ (V : (c : Dev nD) → (b : Ref sig .tc) → Buf (Elt F) ((c : Thread nD τ).loc b)) (c : Dev nD), (dat2 (F := F) V c).Φ (Fin.last cfg2.N) ⊢ (Pipeline.ΦA spec2 c : sProp 𝕄)) (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit_dev (pcfgs (F := F)) adm (pdats m) () cellOf_inj emb₁ defs₀ 𝒱₀ L lv m ρ main
    (fun _ => segs m (regOf m 1 launch1 (W4 m) (W5 m) (B1 (E4 m)) (I1 (E4 m)) (O1 (E4 m)) (fun c w => (W5_arr m c w).symm) (W5_of_ne m)) (regOf m 2 launch2 (W6 m) (W7 m) (B2 (E6 m)) (I2 (E6 m)) (O2 (E6 m)) (fun c w => (W7_arr m c w).symm) (W7_of_ne m)))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.K.Runs1.lean ====
import proofs.«413320_j45251775431036_3_alg».proof.Proof.K.Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := (Scalar.cmpi .ne (Scalar.extui (Scalar.cmpi .sle (BitVec.ofNat 32 (i 1).val) (BitVec.ofNat 32 (i 0).val))) 0#32) = 1#1

theorem hcond1_1 : ∀ t : Fin cfg1.N, cond1_1 (grid1.coords t) ↔ t.val % 4 ≤ t.val / 4 :=
  (by decide +kernel : ∀ t : Fin grid1.N, cond1_1 (grid1.coords t) ↔ t.val % 4 ≤ t.val / 4)

abbrev cond1_2 (i : grid1.Coords) : Prop := k1_cond3 i = 1#1

theorem hcond1_2 : ∀ t : Fin cfg1.N, cond1_2 (grid1.coords t) ↔ t.val % 4 = 3 :=
  (by decide +kernel : ∀ t : Fin grid1.N, cond1_2 (grid1.coords t) ↔ t.val % 4 = 3)

theorem idleAt1_3 : ∀ t : Fin cfg1.N, ¬cond1_2 (grid1.coords t) → cfg1.idle 3 (grid1.coords t) = true := by decide +kernel

theorem noFlush1_3 : ∀ t : Fin cfg1.N, ¬cond1_2 (grid1.coords t) → (cfg1.win 3).flush t = false := by decide +kernel

theorem liveAt1_3 : ∀ t : Fin cfg1.N, cond1_2 (grid1.coords t) → cfg1.idle 3 (grid1.coords t) = false := by decide +kernel

section

variable (t : Fin cfg1.N)

abbrev ms1_3 : Memref sig .tc .vmem S4x512x256 .bf16 := win1_3.stage (cfg1.slots t 3)

end

section

variable (c : Dev nD)

theorem PhiA1_eq :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

section

variable (t : Fin cfg1.N)

theorem after1_0 : (dat1 V c).after 0 t = iblk1 V c 0 t := by dsimp only [dat1]

theorem after1_1 : (dat1 V c).after 1 t = iblk1 V c 1 t := by dsimp only [dat1]

theorem after1_2 : (dat1 V c).after 2 t = iblk1 V c 2 t := by dsimp only [dat1]

theorem before1_0 (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end

theorem sc1_first (t : Fin cfg1.N) (h0 : t.val % 4 = 0) (h1 : t.val % 4 ≤ t.val / 4) :
    sc1 V c t.val t.isLt = step1At V c t init1 := by
  obtain ⟨n, hn⟩ := t
  cases n with
  | zero => rfl
  | succ n =>
    dsimp only at h0 h1
    rw [sc1]; (try dsimp only); rw [if_pos h0, if_pos h1]

theorem sc1_step (t : Fin cfg1.N) (h0 : ¬t.val % 4 = 0) (h1 : t.val % 4 ≤ t.val / 4) :
    sc1 V c t.val t.isLt = step1At V c t (sc1 V c (t.val - 1) (Nat.lt_of_le_of_lt (Nat.sub_le _ _) t.isLt)) := by
  obtain ⟨n, hn⟩ := t
  cases n with
  | zero => exact absurd (Nat.zero_mod _) h0
  | succ n =>
    dsimp only at h0 h1
    show sc1 V c (n + 1) hn = step1At V c ⟨n + 1, hn⟩ (sc1 V c n (Nat.lt_of_succ_lt hn))
    rw [sc1]; (try dsimp only); rw [if_neg h0, if_pos h1]

theorem sc1_skip (t : Fin cfg1.N) (h0 : ¬t.val % 4 = 0) (h1 : ¬t.val % 4 ≤ t.val / 4) :
    sc1 V c t.val t.isLt = sc1 V c (t.val - 1) (Nat.lt_of_le_of_lt (Nat.sub_le _ _) t.isLt) := by
  obtain ⟨n, hn⟩ := t
  cases n with
  | zero => exact absurd (Nat.zero_mod _) h0
  | succ n =>
    dsimp only at h0 h1
    show sc1 V c (n + 1) hn = sc1 V c n (Nat.lt_of_succ_lt hn)
    rw [sc1]; (try dsimp only); rw [if_neg h0, if_neg h1]

end

end Cert.Kernel.Hand

end
-- ==== Proof.K.Body1.lean ====
import proofs.«413320_j45251775431036_3_alg».proof.Proof.K.Runs1
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl

section Run

variable {c : Dev nD} {i : grid1.Coords}
    {arg2 : Memref sig .tc .vmem S4x512x256 .bf16} {harg2 : arg2.IsWhole} {arg3 : Memref sig .tc .vmem S4x512x256 .bf16} {harg3 : arg3.IsWhole}
    {arg4 : Memref sig .tc .vmem S4x512x256 .bf16} {harg4 : arg4.IsWhole} {arg5 : Memref sig .tc .vmem S4x512x256 .bf16} {harg5 : arg5.IsWhole}
    {arg6 : Memref sig .tc .vmem S4x512x1 .f32} {harg6 : arg6.IsWhole} {arg7 : Memref sig .tc .vmem S4x512x1 .f32} {harg7 : arg7.IsWhole}
    {arg8 : Memref sig .tc .vmem S4x512x256 .f32} {harg8 : arg8.IsWhole} {x0 x1 x2 : Vec F S4x512x256 .bf16}

local instance owns_intoExists (c : Thread nD τ) {sp : Space} {sh : Shape} {e : EltTy} (m : Memref sig c.2.kind sp sh e) (q : PosShare TreeShare) (X : sh.Idx → Elt F e) :
    IntoExists (owns c m q X : sProp 𝕄) (fun f => iprop(⌜m.view.read (Elt F) f = X⌝ ∗ (m.view.loc c ↦[m.view.set]{q} f))) := ⟨.rfl⟩

set_option maxHeartbeats 1000000 in
/-- One grid point, whatever its key tile: a key tile at or before the query tile is taken in (from the empty state at a first key tile), a later one leaves the triple as it was, and a last key tile writes the quotient of the state left. -/
theorem run1 (t : Fin cfg1.N) (xi3 : Vec F S4x512x256 .bf16) (s s' : St1 F)
    (hs : s' = if t.val % 4 ≤ t.val / 4 then step1 (BitVec.ofNat 32 ((grid1.coords t) 0).val) (BitVec.ofNat 32 ((grid1.coords t) 1).val) x0 x1 x2 (if t.val % 4 = 0 then init1 else s) else s)
    (E : Set ℕ) (K : PUnit → sProp 𝕄) :
    iprop(ownsTc c arg2 fullShare x0 ∗ ownsTc c arg3 fullShare x1 ∗ ownsTc c arg4 fullShare x2 ∗ ownsTc c arg5 fullShare xi3
        ∗ ownsTc c arg6 fullShare s.1 ∗ ownsTc c arg7 fullShare s.2.1 ∗ ownsTc c arg8 fullShare s.2.2
        ∗ (iprop(ownsTc c arg2 fullShare x0 ∗ ownsTc c arg3 fullShare x1 ∗ ownsTc c arg4 fullShare x2
            ∗ ownsTc c arg5 fullShare (if t.val % 4 = 3 then fin1 s' else xi3)
            ∗ ownsTc c arg6 fullShare s'.1 ∗ ownsTc c arg7 fullShare s'.2.1 ∗ ownsTc c arg8 fullShare s'.2.2) -∗ K ⟨⟩))
      ⊢ wp frame (wpE (defs₀ (F := F)) Variants.none c none) E (cc1__attn_kernel (grid1.coords t) arg2 harg2 arg3 harg3 arg4 harg4 arg5 harg5 arg6 harg6 arg7 harg7 arg8 harg8) K := by
  obtain ⟨s0, s1, s2⟩ := s
  subst hs
  dsimp only
  simp only [cc1__attn_kernel_eq_skeleton]; unfold cc1__attn_kernel_skel
  iintro ⟨⟨%f0, %hf0, H0⟩, ⟨%f1, %hf1, H1⟩, ⟨%f2, %hf2, H2⟩, ⟨%f3, %hf3, H3⟩, ⟨%f6, %hf6, HS0⟩, ⟨%f7, %hf7, HS1⟩, ⟨%f8, %hf8, HS2⟩, Hk⟩
  subst hf0 hf1 hf2 hf3 hf6 hf7 hf8
  by_cases h0 : t.val % 4 = 0
  · have h1 : t.val % 4 ≤ t.val / 4 := by omega
    have h2 : ¬t.val % 4 = 3 := by omega
    rw [if_pos h1, if_pos h0, if_neg h2]
    sl_exec (disch := first | exact (hcond1_0 t).mpr h0 | exact (hcond1_1 t).mpr h1 | exact mt (hcond1_2 t).mp h2)
    sl_step
    sl_unfold_words
    simp only [View.readAt_eq_ld, View.ld_unit_zero (S := S4x512x256) hz3, View.ld_unit_zero (S := S4x512x1) hz3, View.readCov_unit_zero (S := S4x512x1) _ hz3, View.readCov_unit_zero (S := S4x512x256) _ hz3]
    iapply Hk
    isplitl [H0]; · iapply owns_intro $$ H0
    isplitl [H1]; · iapply owns_intro $$ H1
    isplitl [H2]; · iapply owns_intro $$ H2
    isplitl [H3]; · iapply owns_intro $$ H3
    isplitl [HS0]; · iapply owns_of_writes $$ HS0; exact View.canon_cons_unit_zero hz3 _ _ _; sl_kernel_rfl
    isplitl [HS1]; · iapply owns_of_writes $$ HS1; exact View.canon_cons_unit_zero hz3 _ _ _; sl_kernel_rfl
    iapply owns_of_writes $$ HS2; exact View.canon_cons_unit_zero hz3 _ _ _; sl_kernel_rfl
  · by_cases h1 : t.val % 4 ≤ t.val / 4
    · by_cases h2 : t.val % 4 = 3
      · rw [if_pos h1, if_neg h0, if_pos h2]
        sl_exec (disch := first | exact mt (hcond1_0 t).mp h0 | exact (hcond1_1 t).mpr h1 | exact (hcond1_2 t).mpr h2)
        sl_step
        sl_unfold_words
        simp only [View.readAt_eq_ld, View.ld_unit_zero (S := S4x512x256) hz3, View.ld_unit_zero (S := S4x512x1) hz3, View.readCov_unit_zero (S := S4x512x1) _ hz3, View.readCov_unit_zero (S := S4x512x256) _ hz3]
        iapply Hk
        isplitl [H0]; · iapply owns_intro $$ H0
        isplitl [H1]; · iapply owns_intro $$ H1
        isplitl [H2]; · iapply owns_intro $$ H2
        isplitl [H3]; · iapply owns_of_writes $$ H3; exact View.canon_cons_unit_zero hz3 _ _ _; sl_kernel_rfl
        isplitl [HS0]; · iapply owns_of_writes $$ HS0; exact View.canon_cons_unit_zero hz3 _ _ _; sl_kernel_rfl
        isplitl [HS1]; · iapply owns_of_writes $$ HS1; exact View.canon_cons_unit_zero hz3 _ _ _; sl_kernel_rfl
        iapply owns_of_writes $$ HS2; exact View.canon_cons_unit_zero hz3 _ _ _; sl_kernel_rfl
      · rw [if_pos h1, if_neg h0, if_neg h2]
        sl_exec (disch := first | exact mt (hcond1_0 t).mp h0 | exact (hcond1_1 t).mpr h1 | exact mt (hcond1_2 t).mp h2)
        sl_step
        sl_unfold_words
        simp only [View.readAt_eq_ld, View.ld_unit_zero (S := S4x512x256) hz3, View.ld_unit_zero (S := S4x512x1) hz3, View.readCov_unit_zero (S := S4x512x1) _ hz3, View.readCov_unit_zero (S := S4x512x256) _ hz3]
        iapply Hk
        isplitl [H0]; · iapply owns_intro $$ H0
        isplitl [H1]; · iapply owns_intro $$ H1
        isplitl [H2]; · iapply owns_intro $$ H2
        isplitl [H3]; · iapply owns_intro $$ H3
        isplitl [HS0]; · iapply owns_of_writes $$ HS0; exact View.canon_cons_unit_zero hz3 _ _ _; sl_kernel_rfl
        isplitl [HS1]; · iapply owns_of_writes $$ HS1; exact View.canon_cons_unit_zero hz3 _ _ _; sl_kernel_rfl
        iapply owns_of_writes $$ HS2; exact View.canon_cons_unit_zero hz3 _ _ _; sl_kernel_rfl
    · by_cases h2 : t.val % 4 = 3
      · rw [if_neg h1, if_pos h2]
        dsimp only
        sl_exec (disch := first | exact mt (hcond1_0 t).mp h0 | exact mt (hcond1_1 t).mp h1 | exact (hcond1_2 t).mpr h2)
        sl_step
        sl_unfold_words
        simp only [View.readAt_eq_ld, View.ld_unit_zero (S := S4x512x256) hz3, View.ld_unit_zero (S := S4x512x1) hz3, View.readCov_unit_zero (S := S4x512x1) _ hz3, View.readCov_unit_zero (S := S4x512x256) _ hz3]
        iapply Hk
        isplitl [H0]; · iapply owns_intro $$ H0
        isplitl [H1]; · iapply owns_intro $$ H1
        isplitl [H2]; · iapply owns_intro $$ H2
        isplitl [H3]; · iapply owns_of_writes $$ H3; exact View.canon_cons_unit_zero hz3 _ _ _; sl_kernel_rfl
        isplitl [HS0]; · iapply owns_intro $$ HS0
        isplitl [HS1]; · iapply owns_intro $$ HS1
        iapply owns_intro $$ HS2
      · rw [if_neg h1, if_neg h2]
        dsimp only
        sl_exec (disch := first | exact mt (hcond1_0 t).mp h0 | exact mt (hcond1_1 t).mp h1 | exact mt (hcond1_2 t).mp h2)
        sl_step
        iapply Hk
        isplitl [H0]; · iapply owns_intro $$ H0
        isplitl [H1]; · iapply owns_intro $$ H1
        isplitl [H2]; · iapply owns_intro $$ H2
        isplitl [H3]; · iapply owns_intro $$ H3
        isplitl [HS0]; · iapply owns_intro $$ HS0
        isplitl [HS1]; · iapply owns_intro $$ HS1
        iapply owns_intro $$ HS2

end Run

/-- Before any point the invariant holds the three scratch arrays at some state: after a point, the state it left. -/
theorem Phi1_open (c : Dev nD) : ∀ (n : ℕ) (h : n ≤ cfg1.N), Phi1 V c n h ⊢ iprop(∃ s : St1 F,
      ⌜∀ hn : n ≠ 0, s = sc1 V c (n - 1) (by omega)⌝ ∗ ownsTc c scM1_0 fullShare s.1 ∗ ownsTc c scM1_1 fullShare s.2.1 ∗ ownsTc c scM1_2 fullShare s.2.2
      ∗ Pipeline.scopedRestBut (Ix := Unit) (Name := ℕ) (U := UR sig nD τ) (Lvl := ℕ) (Val := Elt F) spec1 c [cc1_scratch0, cc1_scratch1, cc1_scratch2]
      ∗ (∃ r, prngReg c r))
  | 0, _ => by
    rw [Phi1, PhiA1_eq]
    iintro ⟨⟨⟨⟨%d0, HS0⟩, ⟨%d1, HS1⟩, ⟨%d2, HS2⟩⟩, Hr⟩, Hg⟩
    iexists (d0, d1, d2)
    iframe
    ipureintro
    exact fun h => absurd rfl h
  | n + 1, h => by
    rw [Phi1]
    iintro ⟨HS0, HS1, HS2, Hr, Hg⟩
    iexists _
    iframe
    ipureintro
    exact fun _ => rfl

/-- The state after a point: a key tile at or before the query tile is taken into the state before it (the empty state at a first key tile), a later one changes nothing. -/
theorem sc1_next (c : Dev nD) (t : Fin cfg1.N) (s : St1 F)
    (hs : ∀ hn : t.val ≠ 0, s = sc1 V c (t.val - 1) (Nat.lt_of_le_of_lt (Nat.sub_le _ _) t.isLt)) :
    sc1 V c t.val t.isLt = if t.val % 4 ≤ t.val / 4 then step1At V c t (if t.val % 4 = 0 then init1 else s) else s := by
  by_cases h0 : t.val % 4 = 0
  · have h1 : t.val % 4 ≤ t.val / 4 := by omega
    rw [if_pos h1, if_pos h0]; exact sc1_first V c t h0 h1
  · rw [if_neg h0, hs fun e => h0 (by rw [e])]
    by_cases h1 : t.val % 4 ≤ t.val / 4
    · rw [if_pos h1]; exact sc1_step V c t h0 h1
    · rw [if_neg h1]; exact sc1_skip V c t h0 h1

/-- The output block after a point: the quotient of the state left at a last key tile, what it was elsewhere. -/
theorem leaves1_3 (c : Dev nD) (t : Fin cfg1.N) (d) :
    ownsTc c (ms1_3 t) fullShare (if t.val % 4 = 3 then fin1 (sc1 V c t.val t.isLt) else (dat1 V c).before 3 t d)
      ⊢ (dat1 V c).leavesExact 3 t := by
  by_cases h2 : t.val % 4 = 3
  · rw [if_pos h2]; unfold Dat.leavesExact; rw [liveAt1_3 t ((hcond1_2 t).mpr h2)]; exact Entails.refl _
  · rw [if_neg h2, Dat.leavesExact_idle (dat1 V c) 3 t (idleAt1_3 t (mt (hcond1_2 t).mp h2)) (noFlush1_3 t (mt (hcond1_2 t).mp h2))]
    iintro H; iexists _; iexact H

theorem body_obligation1 (c : Dev nD) : BodyObligation (dat1 (F := F) V c) (defs₀ (F := F)) Variants.none () Set.univ := fun t => by
  rw [bigSep_W1, bigSep_W1, show (dat1 V c).Φ t.succ = Phi1 V c (t.val + 1) t.isLt from rfl, Phi1,
    show (dat1 V c).owesAt () t.succ = (dat1 V c).owesAt () t.castSucc from rfl]
  dsimp only
  simp only [before1_0, before1_1, before1_2, after1_0, after1_1, after1_2]
  refine (sep_mono_left (Phi1_open V c t.val _)).trans ?_
  iintro ⟨⟨%s, %hs, HS0, HS1, HS2, Hr, Hg⟩, Ho, ⟨%d0, H0⟩, ⟨%d1, H1⟩, ⟨%d2, H2⟩, ⟨%d3, H3⟩⟩
  iapply run1 t ((dat1 V c).before 3 t d3) s _ (sc1_next V c t s hs) Set.univ _
  iframe H0 H1 H2 H3 HS0 HS1 HS2
  iintro ⟨H0, H1, H2, H3, HS0, HS1, HS2⟩
  iframe Ho H0 H1 H2 HS0 HS1 HS2 Hr Hg
  iapply leaves1_3 V c t d3 $$ H3

theorem hin1 (c : Dev nD) : Pipeline.ΦA spec1 c ⊢ (dat1 (F := F) V c).Φ 0 := Entails.refl _

theorem hout1 (c : Dev nD) : (dat1 (F := F) V c).Φ (Fin.last cfg1.N) ⊢ Pipeline.ΦA spec1 c := by
  refine (Phi1_open V c cfg1.N le_rfl).trans ?_
  rw [PhiA1_eq]
  iintro ⟨%s, -, HS0, HS1, HS2, Hr, Hg⟩
  iframe Hr Hg
  isplitl [HS0]; · iexists _; iexact HS0
  isplitl [HS1] <;> iexists _ <;> iassumption

end Cert.Kernel.Hand

end
-- ==== Proof.K.Runs2.lean ====
import proofs.«413320_j45251775431036_3_alg».proof.Proof.K.Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 50 = 0 :=
  (by decide +kernel : ∀ t : Fin grid2.N, cond2_0 (grid2.coords t) ↔ t.val % 50 = 0)

abbrev cond2_1 (i : grid2.Coords) : Prop := k2_cond2 i = 1#1

theorem hcond2_1 : ∀ t : Fin cfg2.N, cond2_1 (grid2.coords t) ↔ t.val % 50 = 49 :=
  (by decide +kernel : ∀ t : Fin grid2.N, cond2_1 (grid2.coords t) ↔ t.val % 50 = 49)

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

section

variable (t : Fin cfg2.N)

abbrev ms2_4 : Memref sig .tc .vmem S2048x1 .f32 := win2_4.stage (cfg2.slots t 4)

end

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

variable (V : (c : Dev nD) → (b : Ref sig .tc) → Buf (Elt F) ((c : Thread nD τ).loc b))

section

variable (c : Dev nD) (t : Fin cfg2.N)

theorem after2_0 : (dat2 V c).after 0 t = iblk2 V c 0 t := by dsimp only [dat2]

theorem after2_1 : (dat2 V c).after 1 t = iblk2 V c 1 t := by dsimp only [dat2]

theorem after2_2 : (dat2 V c).after 2 t = iblk2 V c 2 t := by dsimp only [dat2]

theorem after2_3 : (dat2 V c).after 3 t = o2_3 V c t := by dsimp only [dat2]

theorem after2_4 : (dat2 V c).after 4 t = o2_4 V c t := by dsimp only [dat2]

theorem before2_0 (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem sc2_first (h : t.val % 50 = 0) :
    sc2 V c t.val t.isLt = step2 (b2_0 V c t) (b2_1 V c t) (b2_2 V c t) init2 := by
  obtain ⟨n, hn⟩ := t
  cases n with
  | zero => rfl
  | succ n => exact congrArg (step2At V c ⟨n + 1, hn⟩) (if_pos h)

theorem sc2_later (h : ¬t.val % 50 = 0) :
    sc2 V c t.val t.isLt = step2 (b2_0 V c t) (b2_1 V c t) (b2_2 V c t)
      (sc2 V c (t.val - 1) (Nat.lt_of_le_of_lt (Nat.sub_le _ _) t.isLt)) := by
  obtain ⟨n, hn⟩ := t
  cases n with
  | zero => exact absurd (Nat.zero_mod _) h
  | succ n => exact congrArg (step2At V c ⟨n + 1, hn⟩) (if_neg h)

end

end Cert.Kernel.Hand

end
-- ==== Proof.K.Body2.lean ====
import proofs.«413320_j45251775431036_3_alg».proof.Proof.K.Runs2
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section Run

variable {c : Dev nD} {i : grid2.Coords}
    {arg2 : Memref sig .tc .vmem S2048x256 .bf16} {harg2 : arg2.IsWhole} {arg3 : Memref sig .tc .vmem S256x640 .bf16} {harg3 : arg3.IsWhole}
    {arg4 : Memref sig .tc .vmem S1x640 .f32} {harg4 : arg4.IsWhole} {arg5 : Memref sig .tc .vmem S2048x640 .f32} {harg5 : arg5.IsWhole}
    {arg6 : Memref sig .tc .vmem S2048x1 .f32} {harg6 : arg6.IsWhole} {arg7 : Memref sig .tc .vmem S2048x1 .f32} {harg7 : arg7.IsWhole}
    {arg8 : Memref sig .tc .vmem S2048x1 .f32} {harg8 : arg8.IsWhole}
    {x0 : Vec F S2048x256 .bf16} {x1 : Vec F S256x640 .bf16} {x2 : Vec F S1x640 .f32}

local instance owns_intoExists (c : Thread nD τ) {sp : Space} {sh : Shape} {e : EltTy} (m : Memref sig c.2.kind sp sh e) (q : PosShare TreeShare) (X : sh.Idx → Elt F e) :
    IntoExists (owns c m q X : sProp 𝕄) (fun f => iprop(⌜m.view.read (Elt F) f = X⌝ ∗ (m.view.loc c ↦[m.view.set]{q} f))) := ⟨.rfl⟩

/-- One grid point, whatever its column tile: the logits tile is stored, the two columns go one step on from s (from the empty state at a first column tile), and a last column tile writes the new state's log-sum-exp. -/
theorem run2 (t : Fin cfg2.N) (xi4 : Vec F S2048x1 .f32) (s s' : St2 F)
    (hs : s' = step2 x0 x1 x2 (if t.val % 50 = 0 then init2 else s)) (E : Set ℕ) (K : PUnit → sProp 𝕄) :
    iprop(ownsTc c arg2 fullShare x0 ∗ ownsTc c arg3 fullShare x1 ∗ ownsTc c arg4 fullShare x2
        ∗ (∃ d, ownsTc c arg5 fullShare d) ∗ ownsTc c arg6 fullShare xi4
        ∗ ownsTc c arg7 fullShare s.1 ∗ ownsTc c arg8 fullShare s.2
        ∗ (iprop(ownsTc c arg2 fullShare x0 ∗ ownsTc c arg3 fullShare x1 ∗ ownsTc c arg4 fullShare x2
            ∗ ownsTc c arg5 fullShare (k2_pay5 x0 x1 x2)
            ∗ ownsTc c arg6 fullShare (if t.val % 50 = 49 then fin2 s' else xi4)
            ∗ ownsTc c arg7 fullShare s'.1 ∗ ownsTc c arg8 fullShare s'.2) -∗ K ⟨⟩))
      ⊢ wp frame (wpE (defs₀ (F := F)) Variants.none c none) E (cc2__proj_loss_kernel (grid2.coords t) arg2 harg2 arg3 harg3 arg4 harg4 arg5 harg5 arg6 harg6 arg7 harg7 arg8 harg8) K := by
  obtain ⟨s0, s1⟩ := s
  subst hs
  dsimp only
  simp only [cc2__proj_loss_kernel_eq_skeleton]; unfold cc2__proj_loss_kernel_skel
  simp only [k2_part1_eq_skeleton]
  iintro ⟨⟨%f0, %hf0, H0⟩, ⟨%f1, %hf1, H1⟩, ⟨%f2, %hf2, H2⟩, ⟨%d3, %f3, -, H3⟩, ⟨%f4, %hf4, H4⟩, ⟨%f7, %hf7, HS0⟩, ⟨%f8, %hf8, HS1⟩, Hk⟩
  subst hf0 hf1 hf2 hf4 hf7 hf8
  by_cases h0 : t.val % 50 = 0
  · have h1 : ¬t.val % 50 = 49 := by omega
    rw [if_pos h0, if_neg h1]
    sl_exec (disch := first | exact (hcond2_0 t).mpr h0 | exact mt (hcond2_1 t).mp h1)
    sl_step
    sl_unfold_words
    simp only [View.readCov_unit_zero (S := S2048x1) _ hz2, View.readAt_eq_ld, View.ld_unit_zero (S := S2048x256) hz2, View.ld_unit_zero (S := S256x640) hz2, View.ld_unit_zero (S := S1x640) hz2, View.ld_unit_zero (S := S2048x1) hz2]
    iapply Hk
    isplitl [H0]; · iapply owns_intro $$ H0
    isplitl [H1]; · iapply owns_intro $$ H1
    isplitl [H2]; · iapply owns_intro $$ H2
    isplitl [H3]; · iapply owns_of_writes $$ H3; exact View.canon_cons_unit_zero hz2 _ _ _; sl_kernel_rfl
    isplitl [H4]; · iapply owns_intro $$ H4
    isplitl [HS0]; · iapply owns_of_writes $$ HS0; exact View.canon_cons_unit_zero hz2 _ _ _; sl_kernel_rfl
    iapply owns_of_writes $$ HS1; exact View.canon_cons_unit_zero hz2 _ _ _; sl_kernel_rfl
  · by_cases h1 : t.val % 50 = 49
    · rw [if_neg h0, if_pos h1]
      sl_exec (disch := first | exact mt (hcond2_0 t).mp h0 | exact (hcond2_1 t).mpr h1)
      sl_step
      sl_unfold_words
      simp only [View.readCov_unit_zero (S := S2048x1) _ hz2, View.readAt_eq_ld, View.ld_unit_zero (S := S2048x256) hz2, View.ld_unit_zero (S := S256x640) hz2, View.ld_unit_zero (S := S1x640) hz2, View.ld_unit_zero (S := S2048x1) hz2]
      iapply Hk
      isplitl [H0]; · iapply owns_intro $$ H0
      isplitl [H1]; · iapply owns_intro $$ H1
      isplitl [H2]; · iapply owns_intro $$ H2
      isplitl [H3]; · iapply owns_of_writes $$ H3; exact View.canon_cons_unit_zero hz2 _ _ _; sl_kernel_rfl
      isplitl [H4]; · iapply owns_of_writes $$ H4; exact View.canon_cons_unit_zero hz2 _ _ _; sl_kernel_rfl
      isplitl [HS0]; · iapply owns_of_writes $$ HS0; exact View.canon_cons_unit_zero hz2 _ _ _; sl_kernel_rfl
      iapply owns_of_writes $$ HS1; exact View.canon_cons_unit_zero hz2 _ _ _; sl_kernel_rfl
    · rw [if_neg h0, if_neg h1]
      sl_exec (disch := first | exact mt (hcond2_0 t).mp h0 | exact mt (hcond2_1 t).mp h1)
      sl_step
      sl_unfold_words
      simp only [View.readCov_unit_zero (S := S2048x1) _ hz2, View.readAt_eq_ld, View.ld_unit_zero (S := S2048x256) hz2, View.ld_unit_zero (S := S256x640) hz2, View.ld_unit_zero (S := S1x640) hz2, View.ld_unit_zero (S := S2048x1) hz2]
      iapply Hk
      isplitl [H0]; · iapply owns_intro $$ H0
      isplitl [H1]; · iapply owns_intro $$ H1
      isplitl [H2]; · iapply owns_intro $$ H2
      isplitl [H3]; · iapply owns_of_writes $$ H3; exact View.canon_cons_unit_zero hz2 _ _ _; sl_kernel_rfl
      isplitl [H4]; · iapply owns_intro $$ H4
      isplitl [HS0]; · iapply owns_of_writes $$ HS0; exact View.canon_cons_unit_zero hz2 _ _ _; sl_kernel_rfl
      iapply owns_of_writes $$ HS1; exact View.canon_cons_unit_zero hz2 _ _ _; sl_kernel_rfl

end Run

variable (V : (c : Dev nD) → (b : Ref sig .tc) → Buf (Elt F) ((c : Thread nD τ).loc b))

/-- Before any point the invariant holds the two scratch columns at some state: after a point, the state it left. -/
theorem Phi2_open (c : Dev nD) : ∀ (n : ℕ) (h : n ≤ cfg2.N), Phi2 V c n h ⊢ iprop(∃ s : St2 F,
      ⌜∀ hn : n ≠ 0, s = sc2 V c (n - 1) (by omega)⌝ ∗ ownsTc c scM2_0 fullShare s.1 ∗ ownsTc c scM2_1 fullShare s.2
      ∗ Pipeline.scopedRestBut (Ix := Unit) (Name := ℕ) (U := UR sig nD τ) (Lvl := ℕ) (Val := Elt F) spec2 c [cc2_scratch0, cc2_scratch1]
      ∗ (∃ r, prngReg c r))
  | 0, _ => by
    rw [Phi2, PhiA2_eq]
    iintro ⟨⟨⟨⟨%d0, HS0⟩, ⟨%d1, HS1⟩⟩, Hrest⟩, Hg⟩
    iexists (d0, d1)
    iframe
    ipureintro
    exact fun h => absurd rfl h
  | n + 1, h => by
    rw [Phi2]
    iintro ⟨HS0, HS1, Hrest, Hg⟩
    iexists _
    iframe
    ipureintro
    exact fun _ => rfl

/-- The state after a point is one step from the state before it, or from the empty state at a first column tile. -/
theorem sc2_step (c : Dev nD) (t : Fin cfg2.N) (s : St2 F)
    (hs : ∀ hn : t.val ≠ 0, s = sc2 V c (t.val - 1) (Nat.lt_of_le_of_lt (Nat.sub_le _ _) t.isLt)) :
    sc2 V c t.val t.isLt = step2 (b2_0 V c t) (b2_1 V c t) (b2_2 V c t) (if t.val % 50 = 0 then init2 else s) := by
  by_cases h : t.val % 50 = 0
  · rw [if_pos h]; exact sc2_first V c t h
  · rw [if_neg h, hs fun e => h (by rw [e])]; exact sc2_later V c t h

/-- The log-sum-exp block after a point: the new state's at a last column tile, what it was elsewhere. -/
theorem leaves2_4 (c : Dev nD) (t : Fin cfg2.N) (d) :
    ownsTc c (ms2_4 t) fullShare (if t.val % 50 = 49 then fin2 (sc2 V c t.val t.isLt) else (dat2 V c).before 4 t d)
      ⊢ (dat2 V c).leavesExact 4 t := by
  by_cases h1 : t.val % 50 = 49
  · rw [if_pos h1]; unfold Dat.leavesExact; rw [liveAt2_4 t ((hcond2_1 t).mpr h1)]; exact Entails.refl _
  · rw [if_neg h1, Dat.leavesExact_idle (dat2 V c) 4 t (idleAt2_4 t (mt (hcond2_1 t).mp h1)) (noFlush2_4 t (mt (hcond2_1 t).mp h1))]
    iintro H; iexists _; iexact H

theorem body_obligation2 (c : Dev nD) : BodyObligation (dat2 (F := F) V c) (defs₀ (F := F)) Variants.none () Set.univ := fun t => by
  rw [bigSep_W2, bigSep_W2, show (dat2 V c).Φ t.succ = Phi2 V c (t.val + 1) t.isLt from rfl, Phi2,
    show (dat2 V c).owesAt () t.succ = (dat2 V c).owesAt () t.castSucc from rfl]
  dsimp only
  simp only [before2_0, before2_1, before2_2, after2_0, after2_1, after2_2, after2_3, o2_3]
  refine (sep_mono_left (Phi2_open V c t.val _)).trans ?_
  iintro ⟨⟨%s, %hs, HS0, HS1, Hrest, Hg⟩, Ho, ⟨%d0, H0⟩, ⟨%d1, H1⟩, ⟨%d2, H2⟩, ⟨%d3, H3⟩, ⟨%d4, H4⟩⟩
  iapply run2 t ((dat2 V c).before 4 t d4) s _ (sc2_step V c t s hs) Set.univ _
  iframe H0 H1 H2 H4 HS0 HS1
  isplitl [H3]; · iexists _; iexact H3
  iintro ⟨H0, H1, H2, H3, H4, HS0, HS1⟩
  iframe Ho H0 H1 H2 H3 HS0 HS1 Hrest Hg
  iapply leaves2_4 V c t d4 $$ H4

theorem hin2 (c : Dev nD) : Pipeline.ΦA spec2 c ⊢ (dat2 (F := F) V c).Φ 0 := Entails.refl _

theorem hout2 (c : Dev nD) : (dat2 (F := F) V c).Φ (Fin.last cfg2.N) ⊢ Pipeline.ΦA spec2 c := by
  refine (Phi2_open V c cfg2.N le_rfl).trans ?_
  rw [PhiA2_eq]
  iintro ⟨%s, -, HS0, HS1, Hrest, Hg⟩
  iframe Hrest Hg
  isplitl [HS0] <;> iexists _ <;> iassumption

end Cert.Kernel.Hand

end
-- ==== Proof.K.Args.lean ====
import proofs.«413320_j45251775431036_3_alg».proof.Proof.K.Chain
import proofs.«413320_j45251775431036_3_alg».proof.Proof.Gen.Kernel.Regions
set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (c : Dev nD)

section

variable (r : Ref sig .tc)

theorem W1_of (h : r ∉ hostOps0_W) : W1 m c r = W0 m c r :=
  StableHlo.after_of_writes_sub hostOps0 _ hostOps0_writes h

theorem W2_of (h : r ∉ hostOps0_1_W) : W2 m c r = W1 m c r :=
  StableHlo.after_of_writes_sub hostOps0_1 _ hostOps0_1_writes h

theorem W4_of (h : r ∉ hostOps1_W) : W4 m c r = W3 m c r :=
  StableHlo.after_of_writes_sub hostOps1 _ hostOps1_writes h

theorem W6_of (h : r ∉ hostOps2_W) : W6 m c r = W5 m c r :=
  StableHlo.after_of_writes_sub hostOps2 _ hostOps2_writes h

theorem W8_of (h : r ∉ hostOps3_W) : W8 m c r = W7 m c r :=
  StableHlo.after_of_writes_sub hostOps3 _ hostOps3_writes h

theorem W9_of (h : r ∉ hostOps3_1_W) : W9 m c r = W8 m c r :=
  StableHlo.after_of_writes_sub hostOps3_1 _ hostOps3_1_writes h

theorem W10_of (h : r ∉ hostOps3_2_W) : W10 m c r = W9 m c r :=
  StableHlo.after_of_writes_sub hostOps3_2 _ hostOps3_2_writes h

theorem W10_of_W3 (h10 : r ∉ hostOps3_2_W) (h9 : r ∉ hostOps3_1_W) (h8 : r ∉ hostOps3_W) (h7 : ∀ w, Pipeline.arrRef spec2 w ≠ r) (h6 : r ∉ hostOps2_W) (h5 : ∀ w, Pipeline.arrRef spec1 w ≠ r) (h4 : r ∉ hostOps1_W) : W10 m c r = W3 m c r :=
  (W10_of m c r h10).trans <| (W9_of m c r h9).trans <| (W8_of m c r h8).trans <| (W7_of_ne m c r h7).trans <|
    (W6_of m c r h6).trans <| (W5_of_ne m c r h5).trans (W4_of m c r h4)

theorem W2_launch (h2 : r ∉ hostOps0_1_W) (h1 : r ∉ hostOps0_W) :
    W2 m c r = m ((c.tc : Thread nD τ).loc r) :=
  (W2_of m c r h2).trans <| (W1_of m c r h1).trans rfl

end

theorem W3_in (w : Fin cfg0.W) (hin : (cfg0.win w).isOut = false) :
    W3 m c (Proc.devRef .tc (Pipeline.arrRef spec0 w)) = W2 m c (Proc.devRef .tc (Pipeline.arrRef spec0 w)) :=
  (W3_arr m c w).trans <| ((dat0 (E2 m) c).arrAt_in w hin cfg0.N).trans (A_eq0 (E2 m) c w)

theorem W10_main_arg0 : W10 m c main_arg0 = m ((c.tc : Thread nD τ).loc main_arg0) :=
  (W10_of_W3 m c main_arg0 (by decide) (by decide) (by decide) (by decide) (by decide) (by decide) (by decide)).trans <|
    (W3_of_ne m c main_arg0 (by decide)).trans (W2_launch m c main_arg0 (by decide) (by decide))

theorem W10_main_arg1 : W10 m c main_arg1 = m ((c.tc : Thread nD τ).loc main_arg1) :=
  (W10_of_W3 m c main_arg1 (by decide) (by decide) (by decide) (by decide) (by decide) (by decide) (by decide)).trans <|
    (W3_of_ne m c main_arg1 (by decide)).trans (W2_launch m c main_arg1 (by decide) (by decide))

theorem W10_main_arg2 : W10 m c main_arg2 = m ((c.tc : Thread nD τ).loc main_arg2) :=
  (W10_of_W3 m c main_arg2 (by decide) (by decide) (by decide) (by decide) (by decide) (by decide) (by decide)).trans <|
    (W3_of_ne m c main_arg2 (by decide)).trans (W2_launch m c main_arg2 (by decide) (by decide))

theorem W10_main_arg3 : W10 m c main_arg3 = m ((c.tc : Thread nD τ).loc main_arg3) :=
  (W10_of_W3 m c main_arg3 (by decide) (by decide) (by decide) (by decide) (by decide) (by decide) (by decide)).trans <|
    (W3_of_ne m c main_arg3 (by decide)).trans (W2_launch m c main_arg3 (by decide) (by decide))

theorem W10_main_arg4 : W10 m c main_arg4 = m ((c.tc : Thread nD τ).loc main_arg4) :=
  (W10_of_W3 m c main_arg4 (by decide) (by decide) (by decide) (by decide) (by decide) (by decide) (by decide)).trans <|
    (W3_in m c 1 rfl).trans (W2_launch m c main_arg4 (by decide) (by decide))

theorem W10_main_arg5 : W10 m c main_arg5 = m ((c.tc : Thread nD τ).loc main_arg5) :=
  (W10_of_W3 m c main_arg5 (by decide) (by decide) (by decide) (by decide) (by decide) (by decide) (by decide)).trans <|
    (W3_of_ne m c main_arg5 (by decide)).trans (W2_launch m c main_arg5 (by decide) (by decide))

theorem W10_main_arg6 : W10 m c main_arg6 = m ((c.tc : Thread nD τ).loc main_arg6) :=
  (W10_of_W3 m c main_arg6 (by decide) (by decide) (by decide) (by decide) (by decide) (by decide) (by decide)).trans <|
    (W3_in m c 3 rfl).trans (W2_launch m c main_arg6 (by decide) (by decide))

theorem W10_main_arg7 : W10 m c main_arg7 = m ((c.tc : Thread nD τ).loc main_arg7) :=
  (W10_of_W3 m c main_arg7 (by decide) (by decide) (by decide) (by decide) (by decide) (by decide) (by decide)).trans <|
    (W3_of_ne m c main_arg7 (by decide)).trans (W2_launch m c main_arg7 (by decide) (by decide))

theorem W10_main_arg8 : W10 m c main_arg8 = m ((c.tc : Thread nD τ).loc main_arg8) :=
  (W10_of_W3 m c main_arg8 (by decide) (by decide) (by decide) (by decide) (by decide) (by decide) (by decide)).trans <|
    (W3_in m c 5 rfl).trans (W2_launch m c main_arg8 (by decide) (by decide))

theorem W10_main_arg9 : W10 m c main_arg9 = m ((c.tc : Thread nD τ).loc main_arg9) :=
  (W10_of_W3 m c main_arg9 (by decide) (by decide) (by decide) (by decide) (by decide) (by decide) (by decide)).trans <|
    (W3_of_ne m c main_arg9 (by decide)).trans (W2_launch m c main_arg9 (by decide) (by decide))

theorem W10_main_arg10 : W10 m c main_arg10 = m ((c.tc : Thread nD τ).loc main_arg10) :=
  (W10_of_W3 m c main_arg10 (by decide) (by decide) (by decide) (by decide) (by decide) (by decide) (by decide)).trans <|
    (W3_of_ne m c main_arg10 (by decide)).trans (W2_launch m c main_arg10 (by decide) (by decide))

theorem W10_main_arg11 : W10 m c main_arg11 = m ((c.tc : Thread nD τ).loc main_arg11) :=
  (W10_of_W3 m c main_arg11 (by decide) (by decide) (by decide) (by decide) (by decide) (by decide) (by decide)).trans <|
    (W3_of_ne m c main_arg11 (by decide)).trans (W2_launch m c main_arg11 (by decide) (by decide))

theorem W10_logits : W10 m c main_v16_0 = W7 m c main_v16_0 :=
  (W10_of m c main_v16_0 (by decide)).trans <| (W9_of m c main_v16_0 (by decide)).trans (W8_of m c main_v16_0 (by decide))

theorem W5_launch (r : Ref sig .tc) (h5 : ∀ w, Pipeline.arrRef spec1 w ≠ r) (h4 : r ∉ hostOps1_W) (h3 : ∀ w, Pipeline.arrRef spec0 w ≠ r) (h2 : r ∉ hostOps0_1_W) (h1 : r ∉ hostOps0_W) :
    W5 m c r = m ((c.tc : Thread nD τ).loc r) :=
  (W5_of_ne m c r h5).trans <| (W4_of m c r h4).trans <| (W3_of_ne m c r h3).trans <| (W2_of m c r h2).trans <|
    (W1_of m c r h1).trans rfl

end Cert.Kernel.Hand

end
-- ==== Proof.K.Frame.lean ====
import proofs.«413320_j45251775431036_3_alg».proof.Proof.K.Run
import proofs.«413320_j45251775431036_3_alg».proof.Proof.K.Body1
import proofs.«413320_j45251775431036_3_alg».proof.Proof.K.Body2
import proofs.«413320_j45251775431036_3_alg».proof.Proof.K.Args
set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  run_main body_obligation1 hin1 hout1 body_obligation2 hin2 hout2 m ρ

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c),
     (h c _ (mem_uc main_arg11 (by decide))).trans (W10_main_arg11 m c)⟩) (run_all m ρ)

end Cert.Kernel.Hand

end
-- ==== Proof.KI.Base.lean ====
import proofs.«413320_j45251775431036_3_alg».proof.Proof.Gen.KernelIdeal.Launch
import proofs.«413320_j45251775431036_3_alg».proof.Proof.Gen.KernelIdeal.Skeleton
import proofs.«413320_j45251775431036_3_alg».proof.Proof.Gen.KernelIdeal.Points
import Idealize.ShloMosaic.Lib.Pipeline.FrameBody
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Stores that tile a buffer leave it at what their pieces say. -/
theorem owns_of_writes {c : Thread nD τ} {sp : Space} {sh : Shape} {e : EltTy} {M : Memref sig c.2.kind sp sh e}
    {g : Buf (Elt F) (M.view.loc c)} {L : List (View.Piece (Elt F) sh e)} {X : sh.Idx → Elt F e}
    (hX : View.canon L = X) (hL : View.Piece.tiledL L sh.size = true) :
    (M.view.loc c ↦[M.view.set]{fullShare} M.view.writes (Elt F) g L : sProp 𝕄) ⊢ owns c M fullShare X := by
  rw [← hX, ← View.read_writes_eq_canon M.view g L (View.cover_of_tiledL L _ hL)]
  exact owns_intro c M fullShare _

variable (V : (c : Dev nD) → (b : Ref sig .tc) → Buf (Elt F) ((c : Thread nD τ).loc b))

section
variable (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (t : Fin cfg0.N)

abbrev b0_0 : Vec F S1024x256 .f32 := iblk0 V c 0 t

abbrev b0_1 : Vec F S256x256 .f32 := iblk0 V c 1 t

abbrev b0_2 : Vec F S1x256 .f32 := iblk0 V c 2 t

abbrev b0_3 : Vec F S256x256 .f32 := iblk0 V c 3 t

abbrev b0_4 : Vec F S1x256 .f32 := iblk0 V c 4 t

abbrev b0_5 : Vec F S256x256 .f32 := iblk0 V c 5 t

abbrev b0_6 : Vec F S1x256 .f32 := iblk0 V c 6 t

end

abbrev b1_0 (t : Fin cfg1.N) : Vec F S4x512x256 .bf16 := iblk1 V c 0 t

abbrev b1_1 (t : Fin cfg1.N) : Vec F S4x512x256 .bf16 := iblk1 V c 1 t

abbrev b1_2 (t : Fin cfg1.N) : Vec F S4x512x256 .bf16 := iblk1 V c 2 t

abbrev b2_0 (t : Fin cfg2.N) : Vec F S2048x256 .bf16 := iblk2 V c 0 t

abbrev b2_1 (t : Fin cfg2.N) : Vec F S256x640 .bf16 := iblk2 V c 1 t

abbrev b2_2 (t : Fin cfg2.N) : Vec F S1x640 .f32 := iblk2 V c 2 t

def o0_7 (t : Fin cfg0.N) : Vec F S1024x256 .bf16 := k0_pay2 (b0_0 V c t) (b0_1 V c t) (b0_2 V c t)

def o0_8 (t : Fin cfg0.N) : Vec F S1024x256 .bf16 := k0_pay3 (b0_0 V c t) (b0_3 V c t) (b0_4 V c t)

def o0_9 (t : Fin cfg0.N) : Vec F S1024x256 .bf16 := k0_pay4 (b0_0 V c t) (b0_5 V c t) (b0_6 V c t)

end

abbrev St1 (F : FTy → Type) [FloatOps F] : Type := Vec F S4x512x1 .f32 × Vec F S4x512x1 .f32 × Vec F S4x512x256 .f32

def init1 : St1 F := (k1_pay1 (F := F), k1_pay2 (F := F), k1_pay3 (F := F))

def step1 (a0 a1 : BitVec 32) (q k v : Vec F S4x512x256 .bf16) (s : St1 F) : St1 F :=
  (k1_pay6 (k1_pay10 a0 a1 q k s.1),
   k1_pay4 (k1_pay13 a0 a1 q k s.1 s.1 s.2.1),
   k1_pay5 (k1_pay8 v) (k1_pay11 a0 a1 q k s.1 s.1) (k1_pay12 a0 a1 q k s.1) s.2.2)

def fin1 (s : St1 F) : Vec F S4x512x256 .bf16 := k1_pay7 s.2.2 s.2.1

def step1At (c : Dev nD) (t : Fin cfg1.N) (s : St1 F) : St1 F :=
  step1 (BitVec.ofNat 32 ((grid1.coords t) 0).val) (BitVec.ofNat 32 ((grid1.coords t) 1).val) (b1_0 V c t) (b1_1 V c t) (b1_2 V c t) s

def sc1 (c : Dev nD) : (n : ℕ) → n < cfg1.N → St1 F
  | 0, hn => step1At V c ⟨0, hn⟩ init1
  | n + 1, hn =>
    let s0 : St1 F := if (n + 1) % 4 = 0 then init1 else sc1 c n (Nat.lt_of_succ_lt hn)
    if (n + 1) % 4 ≤ (n + 1) / 4 then step1At V c ⟨n + 1, hn⟩ s0 else s0

def o1_3 (c : Dev nD) (t : Fin cfg1.N) : Vec F S4x512x256 .bf16 := fin1 (sc1 V c t.val t.isLt)

abbrev St2 (F : FTy → Type) [FloatOps F] : Type := Vec F S2048x1 .f32 × Vec F S2048x1 .f32

def init2 : St2 F := (k2_pay3 (F := F), k2_pay4 (F := F))

def step2 (x : Vec F S2048x256 .bf16) (w : Vec F S256x640 .bf16) (b : Vec F S1x640 .f32) (s : St2 F) : St2 F :=
  (k2_pay1 (k2_pay6 x w b s.1), k2_pay7 x w b s.1 s.1 s.2)

def fin2 (s : St2 F) : Vec F S2048x1 .f32 := k2_pay2 s.1 s.2

def step2At (c : Dev nD) (t : Fin cfg2.N) (s : St2 F) : St2 F := step2 (b2_0 V c t) (b2_1 V c t) (b2_2 V c t) s

def sc2 (c : Dev nD) : (n : ℕ) → n < cfg2.N → St2 F
  | 0, hn => step2At V c ⟨0, hn⟩ init2
  | n + 1, hn => step2At V c ⟨n + 1, hn⟩ (if (n + 1) % 50 = 0 then init2 else sc2 c n (Nat.lt_of_succ_lt hn))

def o2_3 (c : Dev nD) (t : Fin cfg2.N) : Vec F S2048x640 .f32 := k2_pay5 (b2_0 V c t) (b2_1 V c t) (b2_2 V c t)

def o2_4 (c : Dev nD) (t : Fin cfg2.N) : Vec F S2048x1 .f32 := fin2 (sc2 V c t.val t.isLt)

abbrev scM1_0 : Memref sig .tc .vmem S4x512x1 .f32 := Memref.whole cc1_scratch0

abbrev scM1_1 : Memref sig .tc .vmem S4x512x1 .f32 := Memref.whole cc1_scratch1

abbrev scM1_2 : Memref sig .tc .vmem S4x512x256 .f32 := Memref.whole cc1_scratch2

abbrev scM2_0 : Memref sig .tc .vmem S2048x1 .f32 := Memref.whole cc2_scratch0

abbrev scM2_1 : Memref sig .tc .vmem S2048x1 .f32 := Memref.whole cc2_scratch1

section
variable (c : Dev nD)

def Phi1 : (n : ℕ) → n ≤ cfg1.N → sProp 𝕄
  | 0, _ => Pipeline.ΦA spec1 c
  | n + 1, hn =>
    iprop(owns (c : Thread nD τ) scM1_0 fullShare (sc1 V c n hn).1
      ∗ owns (c : Thread nD τ) scM1_1 fullShare (sc1 V c n hn).2.1
      ∗ owns (c : Thread nD τ) scM1_2 fullShare (sc1 V c n hn).2.2
      ∗ Pipeline.scopedRestBut (Ix := Unit) (Name := ℕ) (U := UR sig nD τ) (Lvl := ℕ) (Val := Elt F) spec1 c [cc1_scratch0, cc1_scratch1, cc1_scratch2]
      ∗ (∃ r, prngReg c r))

def Phi2 : (n : ℕ) → n ≤ cfg2.N → sProp 𝕄
  | 0, _ => Pipeline.ΦA spec2 c
  | n + 1, hn =>
    iprop(owns (c : Thread nD τ) scM2_0 fullShare (sc2 V c n hn).1
      ∗ owns (c : Thread nD τ) scM2_1 fullShare (sc2 V c n hn).2
      ∗ Pipeline.scopedRestBut (Ix := Unit) (Name := ℕ) (U := UR sig nD τ) (Lvl := ℕ) (Val := Elt F) spec2 c [cc2_scratch0, cc2_scratch1]
      ∗ (∃ r, prngReg c r))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => o0_7 V c t
    | ⟨8, _⟩ => o0_8 V c t
    | ⟨9, _⟩ => o0_9 V c t
  Φ _ := Pipeline.ΦA spec0 c
  q _ := fullShare
  owed _ := 0

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => o1_3 V c t
  Φ t := Phi1 V c t.val (Nat.le_of_lt_succ t.isLt)
  q _ := fullShare
  owed _ := 0

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => o2_3 V c t
    | ⟨4, _⟩ => o2_4 V c t
  Φ t := Phi2 V c t.val (Nat.le_of_lt_succ t.isLt)
  q _ := fullShare
  owed _ := 0

theorem A_eq0 (w : Fin cfg0.W) : (dat0 V c).A w = V c (Pipeline.arrRef spec0 w) := by dsimp only [dat0]

theorem A_eq1 (w : Fin cfg1.W) : (dat1 V c).A w = V c (Pipeline.arrRef spec1 w) := by dsimp only [dat1]

theorem A_eq2 (w : Fin cfg2.W) : (dat2 V c).A w = V c (Pipeline.arrRef spec2 w) := by dsimp only [dat2]

end

end Cert.KernelIdeal.Hand

end
-- ==== Proof.KI.Body0.lean ====
import proofs.«413320_j45251775431036_3_alg».proof.Proof.KI.Base
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (t : Fin cfg0.N)

theorem before0 :
    (∀ d, (dat0 V c).before 0 t d = iblk0 V c 0 t)
    ∧ (∀ d, (dat0 V c).before 1 t d = iblk0 V c 1 t)
    ∧ (∀ d, (dat0 V c).before 2 t d = iblk0 V c 2 t)
    ∧ (∀ d, (dat0 V c).before 3 t d = iblk0 V c 3 t)
    ∧ (∀ d, (dat0 V c).before 4 t d = iblk0 V c 4 t)
    ∧ (∀ d, (dat0 V c).before 5 t d = iblk0 V c 5 t)
    ∧ (∀ d, (dat0 V c).before 6 t d = iblk0 V c 6 t) := by
  refine ⟨?_, ?_, ?_, ?_, ?_, ?_, ?_⟩ <;> intro d <;>
    exact Eq.trans ((dat0 V c).before_in_eq_fetched _ rfl (fun _ => rfl) (fun _ _ _ => rfl)
      (fun t => by unfold Dat.blockOf; rw [A_eq0]; rfl) t d)
      (by unfold Dat.fetched Dat.blockOf iblk0; rw [A_eq0]; try rfl)

end

theorem zeros2 : (![0, 0] : Fin 2 → Nat) = fun _ => 0 := funext fun a => by fin_cases a <;> rfl

abbrev r0_a : Rect S1024x256 := Rect.unit (s := S1024x256) ![0, 0] S1024x256.size inb_S1024x256_S1024x256_0_0

abbrev r0_b : Rect S256x256 := Rect.unit (s := S256x256) ![0, 0] S256x256.size inb_S256x256_S256x256_0_0

abbrev r0_c : Rect S1x256 := Rect.unit (s := S1x256) ![0, 0] S1x256.size inb_S1x256_S1x256_0_0

/-- One whole-tile store of a function of three whole-block loads holds that function of the blocks. -/
theorem out0_eq (pay : Vec F S1024x256 .f32 → Vec F S256x256 .f32 → Vec F S1x256 .f32 → Vec F S1024x256 .bf16)
    (x0 : Vec F S1024x256 .f32) (x1 : Vec F S256x256 .f32) (x2 : Vec F S1x256 .f32) :
    View.canon [(⟨r0_a, pay (View.ld x0 r0_a) (View.ld x1 r0_b) (View.ld x2 r0_c)⟩ : View.Piece (Elt F) S1024x256 .bf16)] = pay x0 x1 x2 := by
  rw [View.canon_unit_zero (S := S1024x256) zeros2, View.ld_unit_zero (S := S1024x256) zeros2, View.ld_unit_zero (S := S256x256) zeros2, View.ld_unit_zero (S := S1x256) zeros2]

local instance owns_intoExists (c : Thread nD τ) {sp : Space} {sh : Shape} {e : EltTy} (m : Memref sig c.2.kind sp sh e) (q : PosShare TreeShare) (X : sh.Idx → Elt F e) :
    IntoExists (owns c m q X : sProp 𝕄) (fun f => iprop(⌜m.view.read (Elt F) f = X⌝ ∗ (m.view.loc c ↦[m.view.set]{q} f))) := ⟨.rfl⟩

set_option maxHeartbeats 4000000 in
theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  dsimp only
  obtain ⟨b0, b1, b2, b3, b4, b5, b6⟩ := before0 V c t
  simp only [b0, b1, b2, b3, b4, b5, b6]
  dsimp only [dat0, o0_7, o0_8, o0_9, b0_0, b0_1, b0_2, b0_3, b0_4, b0_5, b0_6]
  show _ ⊢ wp _ _ _ (bodyAt0 t) _
  unfold bodyAt0
  simp only [cc0__qkv_kernel_eq_skeleton]; unfold cc0__qkv_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩, ⟨%d8, %f8, -, H8⟩, ⟨%d9, %f9, -, H9⟩⟩
  sl_exec
  sl_step
  rw [← hf0, ← hf1, ← hf2, ← hf3, ← hf4, ← hf5, ← hf6]
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  isplitl [H6]; · iapply owns_intro $$ H6
  isplitl [H7]; · iapply owns_of_writes $$ H7; exact out0_eq k0_pay2 _ _ _; sl_kernel_rfl
  isplitl [H8]; · iapply owns_of_writes $$ H8; exact out0_eq k0_pay3 _ _ _; sl_kernel_rfl
  iapply owns_of_writes $$ H9; exact out0_eq k0_pay4 _ _ _; sl_kernel_rfl

end Cert.KernelIdeal.Hand

end
-- ==== Proof.KI.Chain.lean ====
import proofs.«413320_j45251775431036_3_alg».proof.Proof.KI.Base
import Idealize.ShloMosaic.Lib.Pipeline.RegionsLoop
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev E2 : (c : Dev nD) → (b : Ref sig .tc) → Buf (Elt F) ((c : Thread nD τ).loc b) := fun c b => W2 m c b

def W3 (c : Dev nD) : Valuation τ sig (Elt F) :=
  Pipeline.withArrays spec0 c (W2 m c) fun w => (dat0 (E2 m) c).arrAt w cfg0.N

abbrev W4 : Dev nD → Valuation τ sig (Elt F) := fun c => StableHlo.after hostOps1 (W3 m c)

abbrev E4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (E4 m) c).arrAt w cfg1.N

abbrev W6 : Dev nD → Valuation τ sig (Elt F) := fun c => StableHlo.after hostOps2 (W5 m c)

abbrev E6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (E6 m) c).arrAt w cfg2.N

abbrev W8 : Dev nD → Valuation τ sig (Elt F) := fun c => StableHlo.after hostOps3 (W7 m c)

abbrev W9 : Dev nD → Valuation τ sig (Elt F) := fun c => StableHlo.after hostOps3_1 (W8 m c)

abbrev W10 : Dev nD → Valuation τ sig (Elt F) := fun c => StableHlo.after hostOps3_2 (W9 m c)

section
variable (c : Dev nD)

theorem W3_arr (w : Fin cfg0.W) :
    W3 m c (Proc.devRef .tc (Pipeline.arrRef spec0 w)) = (dat0 (E2 m) c).arrAt w cfg0.N := by
  unfold W3; exact Pipeline.withArrays_arr spec0 launch0.win.arr_inj c _ _ w

theorem W3_of_ne (b : Ref sig .tc) (hb : ∀ w, Pipeline.arrRef spec0 w ≠ b) :
    W3 m c (Proc.devRef .tc b) = W2 m c (Proc.devRef .tc b) := by
  unfold W3; exact Pipeline.withArrays_of_ne spec0 c _ _ b hb

theorem W5_arr (w : Fin cfg1.W) :
    W5 m c (Proc.devRef .tc (Pipeline.arrRef spec1 w)) = (dat1 (E4 m) c).arrAt w cfg1.N := by
  unfold W5; exact Pipeline.withArrays_arr spec1 launch1.win.arr_inj c _ _ w

theorem W5_of_ne (b : Ref sig .tc) (hb : ∀ w, Pipeline.arrRef spec1 w ≠ b) :
    W5 m c (Proc.devRef .tc b) = W4 m c (Proc.devRef .tc b) := by
  unfold W5; exact Pipeline.withArrays_of_ne spec1 c _ _ b hb

theorem W7_arr (w : Fin cfg2.W) :
    W7 m c (Proc.devRef .tc (Pipeline.arrRef spec2 w)) = (dat2 (E6 m) c).arrAt w cfg2.N := by
  unfold W7; exact Pipeline.withArrays_arr spec2 launch2.win.arr_inj c _ _ w

theorem W7_of_ne (b : Ref sig .tc) (hb : ∀ w, Pipeline.arrRef spec2 w ≠ b) :
    W7 m c (Proc.devRef .tc b) = W6 m c (Proc.devRef .tc b) := by
  unfold W7; exact Pipeline.withArrays_of_ne spec2 c _ _ b hb

end

end Cert.KernelIdeal.Hand

end
-- ==== Proof.KI.Run.lean ====
import proofs.«413320_j45251775431036_3_alg».proof.Proof.KI.Body0
import proofs.«413320_j45251775431036_3_alg».proof.Proof.KI.Chain
import proofs.«413320_j45251775431036_3_alg».proof.Proof.Gen.KernelIdeal.Regions
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem not_arr {n : Nat} {f : Fin n → Ref sig .tc} {b : Ref sig .tc} (hb : b ∉ Finset.univ.image f) (w : Fin n) : f w ≠ b :=
  fun e => hb (Finset.mem_image.mpr ⟨w, Finset.mem_univ _, e⟩)

theorem sh_in {A B C : sProp 𝕄} : iprop(A ∗ B ∗ C) ⊢ iprop(C ∗ A) := by
  iintro ⟨Hp, -, Hr⟩
  isplitl [Hr]; · iexact Hr
  iexact Hp

theorem sh_out {A C : sProp 𝕄} : iprop(C ∗ A) ⊢ iprop(A ∗ emp ∗ C) := by
  iintro ⟨Hr, Hp⟩
  isplitl [Hp]; · iexact Hp
  isplitr; · iempintro
  iexact Hr

theorem entry_gen {Hd P O A Zr Pf Ow rest : sProp 𝕄} (hsplit : Hd ⊢ iprop(A ∗ Zr)) (hpf : (BI.emp : sProp 𝕄) ⊢ Pf) (how : O ⊢ Ow) :
    iprop((Hd ∗ P ∗ O) ∗ rest) ⊢ |={Set.univ}=> iprop(A ∗ Pf ∗ Ow ∗ P ∗ Zr) := by
  iintro ⟨⟨Hub, Hp, HO⟩, -⟩
  ihave H := hsplit $$ Hub
  icases H with ⟨Ha, Hrest⟩
  imodintro
  isplitl [Ha]; · iexact Ha
  isplitr; · iapply hpf; iempintro
  isplitl [HO]; · iapply how; iexact HO
  isplitl [Hp]; · iexact Hp
  iexact Hrest

theorem exit_gen {Arr Zr Hd Y Ow O : sProp 𝕄} (hjoin : iprop(Arr ∗ Zr) ⊢ Hd) (how : Ow ⊢ O) :
    iprop(Arr ∗ Ow ∗ Y ∗ Zr) ⊢ |={Set.univ}=> iprop(Hd ∗ Y ∗ O) := by
  iintro ⟨Ha, HO, HY, Hrest⟩
  imodintro
  isplitl [Ha Hrest]
  · iapply hjoin; isplitl [Ha] <;> iassumption
  isplitl [HY]; · iexact HY
  iapply how; iexact HO

def pdats : (p : Fin 3) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E4 m) c
  | ⟨2, _⟩ => fun c => dat2 (E6 m) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig) (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

-- A kernel region, stated once for the three: they differ in the region's number, the contents before and after, and the body's obligation.
set_option backward.isDefEq.respectTransparency.types false in
def regOf (p : Fin 3) (lch : Pipeline.LaunchFacts (nD := nD) (τ := τ) cfgs p) (Wi Wo : Dev nD → Valuation τ sig (Elt F))
    (hB : ∀ c, BodyObligation (pdats m p c) (defs₀ (F := F)) Variants.none () Set.univ)
    (hI : ∀ c, (Pipeline.ΦA (Pipeline.pin (pcfgs (F := F)) adm p).spec c : sProp 𝕄) ⊢ (pdats m p c).Φ 0)
    (hO : ∀ c, (pdats m p c).Φ (Fin.last _) ⊢ (Pipeline.ΦA (Pipeline.pin (pcfgs (F := F)) adm p).spec c : sProp 𝕄))
    (hF : ∀ c w, (pdats m p c).arrAt w (Pipeline.pin (pcfgs (F := F)) adm p).N = Wo c (Pipeline.arrRef (Pipeline.pin (pcfgs (F := F)) adm p).spec w))
    (hne : ∀ c (b : Ref sig .tc), (∀ w, Pipeline.arrRef (Pipeline.pin (pcfgs (F := F)) adm p).spec w ≠ b) → Wo c b = Wi c b)
    (hK : IsEmpty (Fin (pcfgs (F := F) p).pre.K) := by exact inferInstanceAs (IsEmpty (Fin 0)))
    (hshare : ∀ c w, (pdats m p c).share w = fullShare := by exact fun _ => Pipeline.Dat.share_full _ fun _ => rfl)
    (howed : ∀ c t, (pdats m p c).owed t = 0 := by intros; rfl) (hbound : ∀ c t x, x ∈ (pdats m p c).bound () t := by intros; exact Or.inl trivial)
    (hA : ∀ c w, (pdats m p c).A w = Wi c (Pipeline.arrRef (Pipeline.pin (pcfgs (F := F)) adm p).spec w) := by intros; rfl) :
    Pipeline.RegionSeg (pcfgs (F := F)) adm (pdats m) () defs₀ 𝒱₀ L lv p where
  win := lch.win.to₀
  block_pos := lch.block_pos
  stage_whole := lch.stage_whole
  K := PEmpty
  osem k := k.elim
  ho := Pipeline.OwnSemFacts.none _
  hbody c := (hB c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Pipeline.pin (pcfgs (F := F)) adm p).spec c fun b => Wi c b
  hentry c := entry_gen
    (by have h := Pipeline.arrays_of_unscopedBufs (p := p) (pcfgs (F := F)) adm (pdats m) lch.win lch.arr_whole c (hshare c) (fun b => Wi c b) (hA c)
        rwa [Pipeline.unscopedBufs_held] at h)
    (by haveI := hK; unfold Pipeline.prefHeld; rw [Finset.univ_eq_empty, BI.bigSep_empty])
    (by unfold Pipeline.Dat.owesAt Pipeline.owesWithin; rw [howed]
        iintro HO; icases HO with ⟨%W, HO⟩; iexists W; isplitr; · ipureintro; exact fun x _ => hbound c 0 x
        iexact HO)
  hin c := sh_in.trans (hI c)
  hout c := by rw [Pipeline.ownSems0_none]; exact (hO c).trans sh_out
  hexit c := exit_gen
    (by have h := Pipeline.unscopedBufs_of_arrays (p := p) (pcfgs (F := F)) adm (Ix := Unit) (Name := ℕ) (U := UR sig nD τ) (Lvl := ℕ)
          lch.win lch.arr_whole c (pdats m) (hshare c) (fun b => Wi c b) (fun b => Wo c b) ((pdats m p c).arrAt · (Pipeline.pin (pcfgs (F := F)) adm p).N) (hF c) fun b hb => hne c b (not_arr hb)
        rwa [Pipeline.unscopedBufs_held] at h)
    (by unfold Pipeline.Dat.owesAt Pipeline.owesWithin; rw [howed]; iintro HO; icases HO with ⟨%W, -, HO⟩; iexists W; iexact HO)

theorem last_link (c : Dev nD) :
    (iprop(StableHlo.held (c : Thread nD τ) (Pipeline.ucRefs τ sig) (W10 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
abbrev segs (r1 : Pipeline.RegionSeg (pcfgs (F := F)) adm (pdats m) () defs₀ 𝒱₀ L lv 1) (r2 : Pipeline.RegionSeg (pcfgs (F := F)) adm (pdats m) () defs₀ 𝒱₀ L lv 2) :
    List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (regOf m 0 launch0 (W2 m) (W3 m) (body_obligation0 (E2 m)) (fun _ => .rfl) (fun _ => .rfl) (fun c w => (W3_arr m c w).symm) (W3_of_ne m)),
    .host (hseg hostOps1 hostOps1_sub hostOps1_fresh (W3 m)),
    .region r1,
    .host (hseg hostOps2 hostOps2_sub hostOps2_fresh (W5 m)),
    .region r2,
    .host (hseg hostOps3 hostOps3_sub hostOps3_fresh (W7 m)),
    .host (hseg hostOps3_1 hostOps3_1_sub hostOps3_1_fresh (W8 m)),
    .host (hseg hostOps3_2 hostOps3_2_sub hostOps3_2_fresh (W9 m)) ]

set_option backward.isDefEq.respectTransparency.types false in
set_option maxHeartbeats 4000000 in
theorem run_main (B1 : ∀ (V : (c : Dev nD) → (b : Ref sig .tc) → Buf (Elt F) ((c : Thread nD τ).loc b)) (c : Dev nD), BodyObligation (dat1 (F := F) V c) (defs₀ (F := F)) Variants.none () Set.univ) (I1 : ∀ (V : (c : Dev nD) → (b : Ref sig .tc) → Buf (Elt F) ((c : Thread nD τ).loc b)) (c : Dev nD), (Pipeline.ΦA spec1 c : sProp 𝕄) ⊢ (dat1 (F := F) V c).Φ 0) (O1 : ∀ (V : (c : Dev nD) → (b : Ref sig .tc) → Buf (Elt F) ((c : Thread nD τ).loc b)) (c : Dev nD), (dat1 (F := F) V c).Φ (Fin.last cfg1.N) ⊢ (Pipeline.ΦA spec1 c : sProp 𝕄)) (B2 : ∀ (V : (c : Dev nD) → (b : Ref sig .tc) → Buf (Elt F) ((c : Thread nD τ).loc b)) (c : Dev nD), BodyObligation (dat2 (F := F) V c) (defs₀ (F := F)) Variants.none () Set.univ) (I2 : ∀ (V : (c : Dev nD) → (b : Ref sig .tc) → Buf (Elt F) ((c : Thread nD τ).loc b)) (c : Dev nD), (Pipeline.ΦA spec2 c : sProp 𝕄) ⊢ (dat2 (F := F) V c).Φ 0) (O2 : ∀ (V : (c : Dev nD) → (b : Ref sig .tc) → Buf (Elt F) ((c : Thread nD τ).loc b)) (c : Dev nD), (dat2 (F := F) V c).Φ (Fin.last cfg2.N) ⊢ (Pipeline.ΦA spec2 c : sProp 𝕄)) (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit_dev (pcfgs (F := F)) adm (pdats m) () cellOf_inj emb₁ defs₀ 𝒱₀ L lv m ρ main
    (fun _ => segs m (regOf m 1 launch1 (W4 m) (W5 m) (B1 (E4 m)) (I1 (E4 m)) (O1 (E4 m)) (fun c w => (W5_arr m c w).symm) (W5_of_ne m)) (regOf m 2 launch2 (W6 m) (W7 m) (B2 (E6 m)) (I2 (E6 m)) (O2 (E6 m)) (fun c w => (W7_arr m c w).symm) (W7_of_ne m)))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KI.Runs1.lean ====
import proofs.«413320_j45251775431036_3_alg».proof.Proof.KI.Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := (Scalar.cmpi .ne (Scalar.extui (Scalar.cmpi .sle (BitVec.ofNat 32 (i 1).val) (BitVec.ofNat 32 (i 0).val))) 0#32) = 1#1

theorem hcond1_1 : ∀ t : Fin cfg1.N, cond1_1 (grid1.coords t) ↔ t.val % 4 ≤ t.val / 4 :=
  (by decide +kernel : ∀ t : Fin grid1.N, cond1_1 (grid1.coords t) ↔ t.val % 4 ≤ t.val / 4)

abbrev cond1_2 (i : grid1.Coords) : Prop := k1_cond3 i = 1#1

theorem hcond1_2 : ∀ t : Fin cfg1.N, cond1_2 (grid1.coords t) ↔ t.val % 4 = 3 :=
  (by decide +kernel : ∀ t : Fin grid1.N, cond1_2 (grid1.coords t) ↔ t.val % 4 = 3)

theorem idleAt1_3 : ∀ t : Fin cfg1.N, ¬cond1_2 (grid1.coords t) → cfg1.idle 3 (grid1.coords t) = true := by decide +kernel

theorem noFlush1_3 : ∀ t : Fin cfg1.N, ¬cond1_2 (grid1.coords t) → (cfg1.win 3).flush t = false := by decide +kernel

theorem liveAt1_3 : ∀ t : Fin cfg1.N, cond1_2 (grid1.coords t) → cfg1.idle 3 (grid1.coords t) = false := by decide +kernel

section

variable (t : Fin cfg1.N)

abbrev ms1_3 : Memref sig .tc .vmem S4x512x256 .bf16 := win1_3.stage (cfg1.slots t 3)

end

section

variable (c : Dev nD)

theorem PhiA1_eq :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

section

variable (t : Fin cfg1.N)

theorem after1_0 : (dat1 V c).after 0 t = iblk1 V c 0 t := by dsimp only [dat1]

theorem after1_1 : (dat1 V c).after 1 t = iblk1 V c 1 t := by dsimp only [dat1]

theorem after1_2 : (dat1 V c).after 2 t = iblk1 V c 2 t := by dsimp only [dat1]

theorem before1_0 (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end

theorem sc1_first (t : Fin cfg1.N) (h0 : t.val % 4 = 0) (h1 : t.val % 4 ≤ t.val / 4) :
    sc1 V c t.val t.isLt = step1At V c t init1 := by
  obtain ⟨n, hn⟩ := t
  cases n with
  | zero => rfl
  | succ n =>
    dsimp only at h0 h1
    rw [sc1]; (try dsimp only); rw [if_pos h0, if_pos h1]

theorem sc1_step (t : Fin cfg1.N) (h0 : ¬t.val % 4 = 0) (h1 : t.val % 4 ≤ t.val / 4) :
    sc1 V c t.val t.isLt = step1At V c t (sc1 V c (t.val - 1) (Nat.lt_of_le_of_lt (Nat.sub_le _ _) t.isLt)) := by
  obtain ⟨n, hn⟩ := t
  cases n with
  | zero => exact absurd (Nat.zero_mod _) h0
  | succ n =>
    dsimp only at h0 h1
    show sc1 V c (n + 1) hn = step1At V c ⟨n + 1, hn⟩ (sc1 V c n (Nat.lt_of_succ_lt hn))
    rw [sc1]; (try dsimp only); rw [if_neg h0, if_pos h1]

theorem sc1_skip (t : Fin cfg1.N) (h0 : ¬t.val % 4 = 0) (h1 : ¬t.val % 4 ≤ t.val / 4) :
    sc1 V c t.val t.isLt = sc1 V c (t.val - 1) (Nat.lt_of_le_of_lt (Nat.sub_le _ _) t.isLt) := by
  obtain ⟨n, hn⟩ := t
  cases n with
  | zero => exact absurd (Nat.zero_mod _) h0
  | succ n =>
    dsimp only at h0 h1
    show sc1 V c (n + 1) hn = sc1 V c n (Nat.lt_of_succ_lt hn)
    rw [sc1]; (try dsimp only); rw [if_neg h0, if_neg h1]

end

end Cert.KernelIdeal.Hand

end
-- ==== Proof.KI.Body1.lean ====
import proofs.«413320_j45251775431036_3_alg».proof.Proof.KI.Runs1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl

section Run

variable {c : Dev nD} {i : grid1.Coords}
    {arg2 : Memref sig .tc .vmem S4x512x256 .bf16} {harg2 : arg2.IsWhole} {arg3 : Memref sig .tc .vmem S4x512x256 .bf16} {harg3 : arg3.IsWhole}
    {arg4 : Memref sig .tc .vmem S4x512x256 .bf16} {harg4 : arg4.IsWhole} {arg5 : Memref sig .tc .vmem S4x512x256 .bf16} {harg5 : arg5.IsWhole}
    {arg6 : Memref sig .tc .vmem S4x512x1 .f32} {harg6 : arg6.IsWhole} {arg7 : Memref sig .tc .vmem S4x512x1 .f32} {harg7 : arg7.IsWhole}
    {arg8 : Memref sig .tc .vmem S4x512x256 .f32} {harg8 : arg8.IsWhole} {x0 x1 x2 : Vec F S4x512x256 .bf16}

local instance owns_intoExists (c : Thread nD τ) {sp : Space} {sh : Shape} {e : EltTy} (m : Memref sig c.2.kind sp sh e) (q : PosShare TreeShare) (X : sh.Idx → Elt F e) :
    IntoExists (owns c m q X : sProp 𝕄) (fun f => iprop(⌜m.view.read (Elt F) f = X⌝ ∗ (m.view.loc c ↦[m.view.set]{q} f))) := ⟨.rfl⟩

set_option maxHeartbeats 1000000 in
/-- One grid point, whatever its key tile: a key tile at or before the query tile is taken in (from the empty state at a first key tile), a later one leaves the triple as it was, and a last key tile writes the quotient of the state left. -/
theorem run1 (t : Fin cfg1.N) (xi3 : Vec F S4x512x256 .bf16) (s s' : St1 F)
    (hs : s' = if t.val % 4 ≤ t.val / 4 then step1 (BitVec.ofNat 32 ((grid1.coords t) 0).val) (BitVec.ofNat 32 ((grid1.coords t) 1).val) x0 x1 x2 (if t.val % 4 = 0 then init1 else s) else s)
    (E : Set ℕ) (K : PUnit → sProp 𝕄) :
    iprop(ownsTc c arg2 fullShare x0 ∗ ownsTc c arg3 fullShare x1 ∗ ownsTc c arg4 fullShare x2 ∗ ownsTc c arg5 fullShare xi3
        ∗ ownsTc c arg6 fullShare s.1 ∗ ownsTc c arg7 fullShare s.2.1 ∗ ownsTc c arg8 fullShare s.2.2
        ∗ (iprop(ownsTc c arg2 fullShare x0 ∗ ownsTc c arg3 fullShare x1 ∗ ownsTc c arg4 fullShare x2
            ∗ ownsTc c arg5 fullShare (if t.val % 4 = 3 then fin1 s' else xi3)
            ∗ ownsTc c arg6 fullShare s'.1 ∗ ownsTc c arg7 fullShare s'.2.1 ∗ ownsTc c arg8 fullShare s'.2.2) -∗ K ⟨⟩))
      ⊢ wp frame (wpE (defs₀ (F := F)) Variants.none c none) E (cc1__attn_kernel (grid1.coords t) arg2 harg2 arg3 harg3 arg4 harg4 arg5 harg5 arg6 harg6 arg7 harg7 arg8 harg8) K := by
  obtain ⟨s0, s1, s2⟩ := s
  subst hs
  dsimp only
  simp only [cc1__attn_kernel_eq_skeleton]; unfold cc1__attn_kernel_skel
  iintro ⟨⟨%f0, %hf0, H0⟩, ⟨%f1, %hf1, H1⟩, ⟨%f2, %hf2, H2⟩, ⟨%f3, %hf3, H3⟩, ⟨%f6, %hf6, HS0⟩, ⟨%f7, %hf7, HS1⟩, ⟨%f8, %hf8, HS2⟩, Hk⟩
  subst hf0 hf1 hf2 hf3 hf6 hf7 hf8
  by_cases h0 : t.val % 4 = 0
  · have h1 : t.val % 4 ≤ t.val / 4 := by omega
    have h2 : ¬t.val % 4 = 3 := by omega
    rw [if_pos h1, if_pos h0, if_neg h2]
    sl_exec (disch := first | exact (hcond1_0 t).mpr h0 | exact (hcond1_1 t).mpr h1 | exact mt (hcond1_2 t).mp h2)
    sl_step
    sl_unfold_words
    simp only [View.readAt_eq_ld, View.ld_unit_zero (S := S4x512x256) hz3, View.ld_unit_zero (S := S4x512x1) hz3, View.readCov_unit_zero (S := S4x512x1) _ hz3, View.readCov_unit_zero (S := S4x512x256) _ hz3]
    iapply Hk
    isplitl [H0]; · iapply owns_intro $$ H0
    isplitl [H1]; · iapply owns_intro $$ H1
    isplitl [H2]; · iapply owns_intro $$ H2
    isplitl [H3]; · iapply owns_intro $$ H3
    isplitl [HS0]; · iapply owns_of_writes $$ HS0; exact View.canon_cons_unit_zero hz3 _ _ _; sl_kernel_rfl
    isplitl [HS1]; · iapply owns_of_writes $$ HS1; exact View.canon_cons_unit_zero hz3 _ _ _; sl_kernel_rfl
    iapply owns_of_writes $$ HS2; exact View.canon_cons_unit_zero hz3 _ _ _; sl_kernel_rfl
  · by_cases h1 : t.val % 4 ≤ t.val / 4
    · by_cases h2 : t.val % 4 = 3
      · rw [if_pos h1, if_neg h0, if_pos h2]
        sl_exec (disch := first | exact mt (hcond1_0 t).mp h0 | exact (hcond1_1 t).mpr h1 | exact (hcond1_2 t).mpr h2)
        sl_step
        sl_unfold_words
        simp only [View.readAt_eq_ld, View.ld_unit_zero (S := S4x512x256) hz3, View.ld_unit_zero (S := S4x512x1) hz3, View.readCov_unit_zero (S := S4x512x1) _ hz3, View.readCov_unit_zero (S := S4x512x256) _ hz3]
        iapply Hk
        isplitl [H0]; · iapply owns_intro $$ H0
        isplitl [H1]; · iapply owns_intro $$ H1
        isplitl [H2]; · iapply owns_intro $$ H2
        isplitl [H3]; · iapply owns_of_writes $$ H3; exact View.canon_cons_unit_zero hz3 _ _ _; sl_kernel_rfl
        isplitl [HS0]; · iapply owns_of_writes $$ HS0; exact View.canon_cons_unit_zero hz3 _ _ _; sl_kernel_rfl
        isplitl [HS1]; · iapply owns_of_writes $$ HS1; exact View.canon_cons_unit_zero hz3 _ _ _; sl_kernel_rfl
        iapply owns_of_writes $$ HS2; exact View.canon_cons_unit_zero hz3 _ _ _; sl_kernel_rfl
      · rw [if_pos h1, if_neg h0, if_neg h2]
        sl_exec (disch := first | exact mt (hcond1_0 t).mp h0 | exact (hcond1_1 t).mpr h1 | exact mt (hcond1_2 t).mp h2)
        sl_step
        sl_unfold_words
        simp only [View.readAt_eq_ld, View.ld_unit_zero (S := S4x512x256) hz3, View.ld_unit_zero (S := S4x512x1) hz3, View.readCov_unit_zero (S := S4x512x1) _ hz3, View.readCov_unit_zero (S := S4x512x256) _ hz3]
        iapply Hk
        isplitl [H0]; · iapply owns_intro $$ H0
        isplitl [H1]; · iapply owns_intro $$ H1
        isplitl [H2]; · iapply owns_intro $$ H2
        isplitl [H3]; · iapply owns_intro $$ H3
        isplitl [HS0]; · iapply owns_of_writes $$ HS0; exact View.canon_cons_unit_zero hz3 _ _ _; sl_kernel_rfl
        isplitl [HS1]; · iapply owns_of_writes $$ HS1; exact View.canon_cons_unit_zero hz3 _ _ _; sl_kernel_rfl
        iapply owns_of_writes $$ HS2; exact View.canon_cons_unit_zero hz3 _ _ _; sl_kernel_rfl
    · by_cases h2 : t.val % 4 = 3
      · rw [if_neg h1, if_pos h2]
        dsimp only
        sl_exec (disch := first | exact mt (hcond1_0 t).mp h0 | exact mt (hcond1_1 t).mp h1 | exact (hcond1_2 t).mpr h2)
        sl_step
        sl_unfold_words
        simp only [View.readAt_eq_ld, View.ld_unit_zero (S := S4x512x256) hz3, View.ld_unit_zero (S := S4x512x1) hz3, View.readCov_unit_zero (S := S4x512x1) _ hz3, View.readCov_unit_zero (S := S4x512x256) _ hz3]
        iapply Hk
        isplitl [H0]; · iapply owns_intro $$ H0
        isplitl [H1]; · iapply owns_intro $$ H1
        isplitl [H2]; · iapply owns_intro $$ H2
        isplitl [H3]; · iapply owns_of_writes $$ H3; exact View.canon_cons_unit_zero hz3 _ _ _; sl_kernel_rfl
        isplitl [HS0]; · iapply owns_intro $$ HS0
        isplitl [HS1]; · iapply owns_intro $$ HS1
        iapply owns_intro $$ HS2
      · rw [if_neg h1, if_neg h2]
        dsimp only
        sl_exec (disch := first | exact mt (hcond1_0 t).mp h0 | exact mt (hcond1_1 t).mp h1 | exact mt (hcond1_2 t).mp h2)
        sl_step
        iapply Hk
        isplitl [H0]; · iapply owns_intro $$ H0
        isplitl [H1]; · iapply owns_intro $$ H1
        isplitl [H2]; · iapply owns_intro $$ H2
        isplitl [H3]; · iapply owns_intro $$ H3
        isplitl [HS0]; · iapply owns_intro $$ HS0
        isplitl [HS1]; · iapply owns_intro $$ HS1
        iapply owns_intro $$ HS2

end Run

/-- Before any point the invariant holds the three scratch arrays at some state: after a point, the state it left. -/
theorem Phi1_open (c : Dev nD) : ∀ (n : ℕ) (h : n ≤ cfg1.N), Phi1 V c n h ⊢ iprop(∃ s : St1 F,
      ⌜∀ hn : n ≠ 0, s = sc1 V c (n - 1) (by omega)⌝ ∗ ownsTc c scM1_0 fullShare s.1 ∗ ownsTc c scM1_1 fullShare s.2.1 ∗ ownsTc c scM1_2 fullShare s.2.2
      ∗ Pipeline.scopedRestBut (Ix := Unit) (Name := ℕ) (U := UR sig nD τ) (Lvl := ℕ) (Val := Elt F) spec1 c [cc1_scratch0, cc1_scratch1, cc1_scratch2]
      ∗ (∃ r, prngReg c r))
  | 0, _ => by
    rw [Phi1, PhiA1_eq]
    iintro ⟨⟨⟨⟨%d0, HS0⟩, ⟨%d1, HS1⟩, ⟨%d2, HS2⟩⟩, Hr⟩, Hg⟩
    iexists (d0, d1, d2)
    iframe
    ipureintro
    exact fun h => absurd rfl h
  | n + 1, h => by
    rw [Phi1]
    iintro ⟨HS0, HS1, HS2, Hr, Hg⟩
    iexists _
    iframe
    ipureintro
    exact fun _ => rfl

/-- The state after a point: a key tile at or before the query tile is taken into the state before it (the empty state at a first key tile), a later one changes nothing. -/
theorem sc1_next (c : Dev nD) (t : Fin cfg1.N) (s : St1 F)
    (hs : ∀ hn : t.val ≠ 0, s = sc1 V c (t.val - 1) (Nat.lt_of_le_of_lt (Nat.sub_le _ _) t.isLt)) :
    sc1 V c t.val t.isLt = if t.val % 4 ≤ t.val / 4 then step1At V c t (if t.val % 4 = 0 then init1 else s) else s := by
  by_cases h0 : t.val % 4 = 0
  · have h1 : t.val % 4 ≤ t.val / 4 := by omega
    rw [if_pos h1, if_pos h0]; exact sc1_first V c t h0 h1
  · rw [if_neg h0, hs fun e => h0 (by rw [e])]
    by_cases h1 : t.val % 4 ≤ t.val / 4
    · rw [if_pos h1]; exact sc1_step V c t h0 h1
    · rw [if_neg h1]; exact sc1_skip V c t h0 h1

/-- The output block after a point: the quotient of the state left at a last key tile, what it was elsewhere. -/
theorem leaves1_3 (c : Dev nD) (t : Fin cfg1.N) (d) :
    ownsTc c (ms1_3 t) fullShare (if t.val % 4 = 3 then fin1 (sc1 V c t.val t.isLt) else (dat1 V c).before 3 t d)
      ⊢ (dat1 V c).leavesExact 3 t := by
  by_cases h2 : t.val % 4 = 3
  · rw [if_pos h2]; unfold Dat.leavesExact; rw [liveAt1_3 t ((hcond1_2 t).mpr h2)]; exact Entails.refl _
  · rw [if_neg h2, Dat.leavesExact_idle (dat1 V c) 3 t (idleAt1_3 t (mt (hcond1_2 t).mp h2)) (noFlush1_3 t (mt (hcond1_2 t).mp h2))]
    iintro H; iexists _; iexact H

theorem body_obligation1 (c : Dev nD) : BodyObligation (dat1 (F := F) V c) (defs₀ (F := F)) Variants.none () Set.univ := fun t => by
  rw [bigSep_W1, bigSep_W1, show (dat1 V c).Φ t.succ = Phi1 V c (t.val + 1) t.isLt from rfl, Phi1,
    show (dat1 V c).owesAt () t.succ = (dat1 V c).owesAt () t.castSucc from rfl]
  dsimp only
  simp only [before1_0, before1_1, before1_2, after1_0, after1_1, after1_2]
  refine (sep_mono_left (Phi1_open V c t.val _)).trans ?_
  iintro ⟨⟨%s, %hs, HS0, HS1, HS2, Hr, Hg⟩, Ho, ⟨%d0, H0⟩, ⟨%d1, H1⟩, ⟨%d2, H2⟩, ⟨%d3, H3⟩⟩
  iapply run1 t ((dat1 V c).before 3 t d3) s _ (sc1_next V c t s hs) Set.univ _
  iframe H0 H1 H2 H3 HS0 HS1 HS2
  iintro ⟨H0, H1, H2, H3, HS0, HS1, HS2⟩
  iframe Ho H0 H1 H2 HS0 HS1 HS2 Hr Hg
  iapply leaves1_3 V c t d3 $$ H3

theorem hin1 (c : Dev nD) : Pipeline.ΦA spec1 c ⊢ (dat1 (F := F) V c).Φ 0 := Entails.refl _

theorem hout1 (c : Dev nD) : (dat1 (F := F) V c).Φ (Fin.last cfg1.N) ⊢ Pipeline.ΦA spec1 c := by
  refine (Phi1_open V c cfg1.N le_rfl).trans ?_
  rw [PhiA1_eq]
  iintro ⟨%s, -, HS0, HS1, HS2, Hr, Hg⟩
  iframe Hr Hg
  isplitl [HS0]; · iexists _; iexact HS0
  isplitl [HS1] <;> iexists _ <;> iassumption

end Cert.KernelIdeal.Hand

end
-- ==== Proof.KI.Runs2.lean ====
import proofs.«413320_j45251775431036_3_alg».proof.Proof.KI.Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 50 = 0 :=
  (by decide +kernel : ∀ t : Fin grid2.N, cond2_0 (grid2.coords t) ↔ t.val % 50 = 0)

abbrev cond2_1 (i : grid2.Coords) : Prop := k2_cond2 i = 1#1

theorem hcond2_1 : ∀ t : Fin cfg2.N, cond2_1 (grid2.coords t) ↔ t.val % 50 = 49 :=
  (by decide +kernel : ∀ t : Fin grid2.N, cond2_1 (grid2.coords t) ↔ t.val % 50 = 49)

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

section

variable (t : Fin cfg2.N)

abbrev ms2_4 : Memref sig .tc .vmem S2048x1 .f32 := win2_4.stage (cfg2.slots t 4)

end

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

variable (V : (c : Dev nD) → (b : Ref sig .tc) → Buf (Elt F) ((c : Thread nD τ).loc b))

section

variable (c : Dev nD) (t : Fin cfg2.N)

theorem after2_0 : (dat2 V c).after 0 t = iblk2 V c 0 t := by dsimp only [dat2]

theorem after2_1 : (dat2 V c).after 1 t = iblk2 V c 1 t := by dsimp only [dat2]

theorem after2_2 : (dat2 V c).after 2 t = iblk2 V c 2 t := by dsimp only [dat2]

theorem after2_3 : (dat2 V c).after 3 t = o2_3 V c t := by dsimp only [dat2]

theorem after2_4 : (dat2 V c).after 4 t = o2_4 V c t := by dsimp only [dat2]

theorem before2_0 (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem sc2_first (h : t.val % 50 = 0) :
    sc2 V c t.val t.isLt = step2 (b2_0 V c t) (b2_1 V c t) (b2_2 V c t) init2 := by
  obtain ⟨n, hn⟩ := t
  cases n with
  | zero => rfl
  | succ n => exact congrArg (step2At V c ⟨n + 1, hn⟩) (if_pos h)

theorem sc2_later (h : ¬t.val % 50 = 0) :
    sc2 V c t.val t.isLt = step2 (b2_0 V c t) (b2_1 V c t) (b2_2 V c t)
      (sc2 V c (t.val - 1) (Nat.lt_of_le_of_lt (Nat.sub_le _ _) t.isLt)) := by
  obtain ⟨n, hn⟩ := t
  cases n with
  | zero => exact absurd (Nat.zero_mod _) h
  | succ n => exact congrArg (step2At V c ⟨n + 1, hn⟩) (if_neg h)

end

end Cert.KernelIdeal.Hand

end
-- ==== Proof.KI.Body2.lean ====
import proofs.«413320_j45251775431036_3_alg».proof.Proof.KI.Runs2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

section Run

variable {c : Dev nD} {i : grid2.Coords}
    {arg2 : Memref sig .tc .vmem S2048x256 .bf16} {harg2 : arg2.IsWhole} {arg3 : Memref sig .tc .vmem S256x640 .bf16} {harg3 : arg3.IsWhole}
    {arg4 : Memref sig .tc .vmem S1x640 .f32} {harg4 : arg4.IsWhole} {arg5 : Memref sig .tc .vmem S2048x640 .f32} {harg5 : arg5.IsWhole}
    {arg6 : Memref sig .tc .vmem S2048x1 .f32} {harg6 : arg6.IsWhole} {arg7 : Memref sig .tc .vmem S2048x1 .f32} {harg7 : arg7.IsWhole}
    {arg8 : Memref sig .tc .vmem S2048x1 .f32} {harg8 : arg8.IsWhole}
    {x0 : Vec F S2048x256 .bf16} {x1 : Vec F S256x640 .bf16} {x2 : Vec F S1x640 .f32}

local instance owns_intoExists (c : Thread nD τ) {sp : Space} {sh : Shape} {e : EltTy} (m : Memref sig c.2.kind sp sh e) (q : PosShare TreeShare) (X : sh.Idx → Elt F e) :
    IntoExists (owns c m q X : sProp 𝕄) (fun f => iprop(⌜m.view.read (Elt F) f = X⌝ ∗ (m.view.loc c ↦[m.view.set]{q} f))) := ⟨.rfl⟩

/-- One grid point, whatever its column tile: the logits tile is stored, the two columns go one step on from s (from the empty state at a first column tile), and a last column tile writes the new state's log-sum-exp. -/
theorem run2 (t : Fin cfg2.N) (xi4 : Vec F S2048x1 .f32) (s s' : St2 F)
    (hs : s' = step2 x0 x1 x2 (if t.val % 50 = 0 then init2 else s)) (E : Set ℕ) (K : PUnit → sProp 𝕄) :
    iprop(ownsTc c arg2 fullShare x0 ∗ ownsTc c arg3 fullShare x1 ∗ ownsTc c arg4 fullShare x2
        ∗ (∃ d, ownsTc c arg5 fullShare d) ∗ ownsTc c arg6 fullShare xi4
        ∗ ownsTc c arg7 fullShare s.1 ∗ ownsTc c arg8 fullShare s.2
        ∗ (iprop(ownsTc c arg2 fullShare x0 ∗ ownsTc c arg3 fullShare x1 ∗ ownsTc c arg4 fullShare x2
            ∗ ownsTc c arg5 fullShare (k2_pay5 x0 x1 x2)
            ∗ ownsTc c arg6 fullShare (if t.val % 50 = 49 then fin2 s' else xi4)
            ∗ ownsTc c arg7 fullShare s'.1 ∗ ownsTc c arg8 fullShare s'.2) -∗ K ⟨⟩))
      ⊢ wp frame (wpE (defs₀ (F := F)) Variants.none c none) E (cc2__proj_loss_kernel (grid2.coords t) arg2 harg2 arg3 harg3 arg4 harg4 arg5 harg5 arg6 harg6 arg7 harg7 arg8 harg8) K := by
  obtain ⟨s0, s1⟩ := s
  subst hs
  dsimp only
  simp only [cc2__proj_loss_kernel_eq_skeleton]; unfold cc2__proj_loss_kernel_skel
  simp only [k2_part1_eq_skeleton]
  iintro ⟨⟨%f0, %hf0, H0⟩, ⟨%f1, %hf1, H1⟩, ⟨%f2, %hf2, H2⟩, ⟨%d3, %f3, -, H3⟩, ⟨%f4, %hf4, H4⟩, ⟨%f7, %hf7, HS0⟩, ⟨%f8, %hf8, HS1⟩, Hk⟩
  subst hf0 hf1 hf2 hf4 hf7 hf8
  by_cases h0 : t.val % 50 = 0
  · have h1 : ¬t.val % 50 = 49 := by omega
    rw [if_pos h0, if_neg h1]
    sl_exec (disch := first | exact (hcond2_0 t).mpr h0 | exact mt (hcond2_1 t).mp h1)
    sl_step
    sl_unfold_words
    simp only [View.readCov_unit_zero (S := S2048x1) _ hz2, View.readAt_eq_ld, View.ld_unit_zero (S := S2048x256) hz2, View.ld_unit_zero (S := S256x640) hz2, View.ld_unit_zero (S := S1x640) hz2, View.ld_unit_zero (S := S2048x1) hz2]
    iapply Hk
    isplitl [H0]; · iapply owns_intro $$ H0
    isplitl [H1]; · iapply owns_intro $$ H1
    isplitl [H2]; · iapply owns_intro $$ H2
    isplitl [H3]; · iapply owns_of_writes $$ H3; exact View.canon_cons_unit_zero hz2 _ _ _; sl_kernel_rfl
    isplitl [H4]; · iapply owns_intro $$ H4
    isplitl [HS0]; · iapply owns_of_writes $$ HS0; exact View.canon_cons_unit_zero hz2 _ _ _; sl_kernel_rfl
    iapply owns_of_writes $$ HS1; exact View.canon_cons_unit_zero hz2 _ _ _; sl_kernel_rfl
  · by_cases h1 : t.val % 50 = 49
    · rw [if_neg h0, if_pos h1]
      sl_exec (disch := first | exact mt (hcond2_0 t).mp h0 | exact (hcond2_1 t).mpr h1)
      sl_step
      sl_unfold_words
      simp only [View.readCov_unit_zero (S := S2048x1) _ hz2, View.readAt_eq_ld, View.ld_unit_zero (S := S2048x256) hz2, View.ld_unit_zero (S := S256x640) hz2, View.ld_unit_zero (S := S1x640) hz2, View.ld_unit_zero (S := S2048x1) hz2]
      iapply Hk
      isplitl [H0]; · iapply owns_intro $$ H0
      isplitl [H1]; · iapply owns_intro $$ H1
      isplitl [H2]; · iapply owns_intro $$ H2
      isplitl [H3]; · iapply owns_of_writes $$ H3; exact View.canon_cons_unit_zero hz2 _ _ _; sl_kernel_rfl
      isplitl [H4]; · iapply owns_of_writes $$ H4; exact View.canon_cons_unit_zero hz2 _ _ _; sl_kernel_rfl
      isplitl [HS0]; · iapply owns_of_writes $$ HS0; exact View.canon_cons_unit_zero hz2 _ _ _; sl_kernel_rfl
      iapply owns_of_writes $$ HS1; exact View.canon_cons_unit_zero hz2 _ _ _; sl_kernel_rfl
    · rw [if_neg h0, if_neg h1]
      sl_exec (disch := first | exact mt (hcond2_0 t).mp h0 | exact mt (hcond2_1 t).mp h1)
      sl_step
      sl_unfold_words
      simp only [View.readCov_unit_zero (S := S2048x1) _ hz2, View.readAt_eq_ld, View.ld_unit_zero (S := S2048x256) hz2, View.ld_unit_zero (S := S256x640) hz2, View.ld_unit_zero (S := S1x640) hz2, View.ld_unit_zero (S := S2048x1) hz2]
      iapply Hk
      isplitl [H0]; · iapply owns_intro $$ H0
      isplitl [H1]; · iapply owns_intro $$ H1
      isplitl [H2]; · iapply owns_intro $$ H2
      isplitl [H3]; · iapply owns_of_writes $$ H3; exact View.canon_cons_unit_zero hz2 _ _ _; sl_kernel_rfl
      isplitl [H4]; · iapply owns_intro $$ H4
      isplitl [HS0]; · iapply owns_of_writes $$ HS0; exact View.canon_cons_unit_zero hz2 _ _ _; sl_kernel_rfl
      iapply owns_of_writes $$ HS1; exact View.canon_cons_unit_zero hz2 _ _ _; sl_kernel_rfl

end Run

variable (V : (c : Dev nD) → (b : Ref sig .tc) → Buf (Elt F) ((c : Thread nD τ).loc b))

/-- Before any point the invariant holds the two scratch columns at some state: after a point, the state it left. -/
theorem Phi2_open (c : Dev nD) : ∀ (n : ℕ) (h : n ≤ cfg2.N), Phi2 V c n h ⊢ iprop(∃ s : St2 F,
      ⌜∀ hn : n ≠ 0, s = sc2 V c (n - 1) (by omega)⌝ ∗ ownsTc c scM2_0 fullShare s.1 ∗ ownsTc c scM2_1 fullShare s.2
      ∗ Pipeline.scopedRestBut (Ix := Unit) (Name := ℕ) (U := UR sig nD τ) (Lvl := ℕ) (Val := Elt F) spec2 c [cc2_scratch0, cc2_scratch1]
      ∗ (∃ r, prngReg c r))
  | 0, _ => by
    rw [Phi2, PhiA2_eq]
    iintro ⟨⟨⟨⟨%d0, HS0⟩, ⟨%d1, HS1⟩⟩, Hrest⟩, Hg⟩
    iexists (d0, d1)
    iframe
    ipureintro
    exact fun h => absurd rfl h
  | n + 1, h => by
    rw [Phi2]
    iintro ⟨HS0, HS1, Hrest, Hg⟩
    iexists _
    iframe
    ipureintro
    exact fun _ => rfl

/-- The state after a point is one step from the state before it, or from the empty state at a first column tile. -/
theorem sc2_step (c : Dev nD) (t : Fin cfg2.N) (s : St2 F)
    (hs : ∀ hn : t.val ≠ 0, s = sc2 V c (t.val - 1) (Nat.lt_of_le_of_lt (Nat.sub_le _ _) t.isLt)) :
    sc2 V c t.val t.isLt = step2 (b2_0 V c t) (b2_1 V c t) (b2_2 V c t) (if t.val % 50 = 0 then init2 else s) := by
  by_cases h : t.val % 50 = 0
  · rw [if_pos h]; exact sc2_first V c t h
  · rw [if_neg h, hs fun e => h (by rw [e])]; exact sc2_later V c t h

/-- The log-sum-exp block after a point: the new state's at a last column tile, what it was elsewhere. -/
theorem leaves2_4 (c : Dev nD) (t : Fin cfg2.N) (d) :
    ownsTc c (ms2_4 t) fullShare (if t.val % 50 = 49 then fin2 (sc2 V c t.val t.isLt) else (dat2 V c).before 4 t d)
      ⊢ (dat2 V c).leavesExact 4 t := by
  by_cases h1 : t.val % 50 = 49
  · rw [if_pos h1]; unfold Dat.leavesExact; rw [liveAt2_4 t ((hcond2_1 t).mpr h1)]; exact Entails.refl _
  · rw [if_neg h1, Dat.leavesExact_idle (dat2 V c) 4 t (idleAt2_4 t (mt (hcond2_1 t).mp h1)) (noFlush2_4 t (mt (hcond2_1 t).mp h1))]
    iintro H; iexists _; iexact H

theorem body_obligation2 (c : Dev nD) : BodyObligation (dat2 (F := F) V c) (defs₀ (F := F)) Variants.none () Set.univ := fun t => by
  rw [bigSep_W2, bigSep_W2, show (dat2 V c).Φ t.succ = Phi2 V c (t.val + 1) t.isLt from rfl, Phi2,
    show (dat2 V c).owesAt () t.succ = (dat2 V c).owesAt () t.castSucc from rfl]
  dsimp only
  simp only [before2_0, before2_1, before2_2, after2_0, after2_1, after2_2, after2_3, o2_3]
  refine (sep_mono_left (Phi2_open V c t.val _)).trans ?_
  iintro ⟨⟨%s, %hs, HS0, HS1, Hrest, Hg⟩, Ho, ⟨%d0, H0⟩, ⟨%d1, H1⟩, ⟨%d2, H2⟩, ⟨%d3, H3⟩, ⟨%d4, H4⟩⟩
  iapply run2 t ((dat2 V c).before 4 t d4) s _ (sc2_step V c t s hs) Set.univ _
  iframe H0 H1 H2 H4 HS0 HS1
  isplitl [H3]; · iexists _; iexact H3
  iintro ⟨H0, H1, H2, H3, H4, HS0, HS1⟩
  iframe Ho H0 H1 H2 H3 HS0 HS1 Hrest Hg
  iapply leaves2_4 V c t d4 $$ H4

theorem hin2 (c : Dev nD) : Pipeline.ΦA spec2 c ⊢ (dat2 (F := F) V c).Φ 0 := Entails.refl _

theorem hout2 (c : Dev nD) : (dat2 (F := F) V c).Φ (Fin.last cfg2.N) ⊢ Pipeline.ΦA spec2 c := by
  refine (Phi2_open V c cfg2.N le_rfl).trans ?_
  rw [PhiA2_eq]
  iintro ⟨%s, -, HS0, HS1, Hrest, Hg⟩
  iframe Hrest Hg
  isplitl [HS0] <;> iexists _ <;> iassumption

end Cert.KernelIdeal.Hand

end
-- ==== Proof.KI.Args.lean ====
import proofs.«413320_j45251775431036_3_alg».proof.Proof.KI.Chain
import proofs.«413320_j45251775431036_3_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

variable (m : (ℓ : Loc nD τ sig) → Buf (Elt F) ℓ) (c : Dev nD)

section

variable (r : Ref sig .tc)

theorem W1_of (h : r ∉ hostOps0_W) : W1 m c r = W0 m c r :=
  StableHlo.after_of_writes_sub hostOps0 _ hostOps0_writes h

theorem W2_of (h : r ∉ hostOps0_1_W) : W2 m c r = W1 m c r :=
  StableHlo.after_of_writes_sub hostOps0_1 _ hostOps0_1_writes h

theorem W4_of (h : r ∉ hostOps1_W) : W4 m c r = W3 m c r :=
  StableHlo.after_of_writes_sub hostOps1 _ hostOps1_writes h

theorem W6_of (h : r ∉ hostOps2_W) : W6 m c r = W5 m c r :=
  StableHlo.after_of_writes_sub hostOps2 _ hostOps2_writes h

theorem W8_of (h : r ∉ hostOps3_W) : W8 m c r = W7 m c r :=
  StableHlo.after_of_writes_sub hostOps3 _ hostOps3_writes h

theorem W9_of (h : r ∉ hostOps3_1_W) : W9 m c r = W8 m c r :=
  StableHlo.after_of_writes_sub hostOps3_1 _ hostOps3_1_writes h

theorem W10_of (h : r ∉ hostOps3_2_W) : W10 m c r = W9 m c r :=
  StableHlo.after_of_writes_sub hostOps3_2 _ hostOps3_2_writes h

theorem W10_of_W3 (h10 : r ∉ hostOps3_2_W) (h9 : r ∉ hostOps3_1_W) (h8 : r ∉ hostOps3_W) (h7 : ∀ w, Pipeline.arrRef spec2 w ≠ r) (h6 : r ∉ hostOps2_W) (h5 : ∀ w, Pipeline.arrRef spec1 w ≠ r) (h4 : r ∉ hostOps1_W) : W10 m c r = W3 m c r :=
  (W10_of m c r h10).trans <| (W9_of m c r h9).trans <| (W8_of m c r h8).trans <| (W7_of_ne m c r h7).trans <|
    (W6_of m c r h6).trans <| (W5_of_ne m c r h5).trans (W4_of m c r h4)

theorem W2_launch (h2 : r ∉ hostOps0_1_W) (h1 : r ∉ hostOps0_W) :
    W2 m c r = m ((c.tc : Thread nD τ).loc r) :=
  (W2_of m c r h2).trans <| (W1_of m c r h1).trans rfl

end

theorem W3_in (w : Fin cfg0.W) (hin : (cfg0.win w).isOut = false) :
    W3 m c (Proc.devRef .tc (Pipeline.arrRef spec0 w)) = W2 m c (Proc.devRef .tc (Pipeline.arrRef spec0 w)) :=
  (W3_arr m c w).trans <| ((dat0 (E2 m) c).arrAt_in w hin cfg0.N).trans (A_eq0 (E2 m) c w)

theorem W10_main_arg0 : W10 m c main_arg0 = m ((c.tc : Thread nD τ).loc main_arg0) :=
  (W10_of_W3 m c main_arg0 (by decide) (by decide) (by decide) (by decide) (by decide) (by decide) (by decide)).trans <|
    (W3_of_ne m c main_arg0 (by decide)).trans (W2_launch m c main_arg0 (by decide) (by decide))

theorem W10_main_arg1 : W10 m c main_arg1 = m ((c.tc : Thread nD τ).loc main_arg1) :=
  (W10_of_W3 m c main_arg1 (by decide) (by decide) (by decide) (by decide) (by decide) (by decide) (by decide)).trans <|
    (W3_of_ne m c main_arg1 (by decide)).trans (W2_launch m c main_arg1 (by decide) (by decide))

theorem W10_main_arg2 : W10 m c main_arg2 = m ((c.tc : Thread nD τ).loc main_arg2) :=
  (W10_of_W3 m c main_arg2 (by decide) (by decide) (by decide) (by decide) (by decide) (by decide) (by decide)).trans <|
    (W3_of_ne m c main_arg2 (by decide)).trans (W2_launch m c main_arg2 (by decide) (by decide))

theorem W10_main_arg3 : W10 m c main_arg3 = m ((c.tc : Thread nD τ).loc main_arg3) :=
  (W10_of_W3 m c main_arg3 (by decide) (by decide) (by decide) (by decide) (by decide) (by decide) (by decide)).trans <|
    (W3_of_ne m c main_arg3 (by decide)).trans (W2_launch m c main_arg3 (by decide) (by decide))

theorem W10_main_arg4 : W10 m c main_arg4 = m ((c.tc : Thread nD τ).loc main_arg4) :=
  (W10_of_W3 m c main_arg4 (by decide) (by decide) (by decide) (by decide) (by decide) (by decide) (by decide)).trans <|
    (W3_in m c 1 rfl).trans (W2_launch m c main_arg4 (by decide) (by decide))

theorem W10_main_arg5 : W10 m c main_arg5 = m ((c.tc : Thread nD τ).loc main_arg5) :=
  (W10_of_W3 m c main_arg5 (by decide) (by decide) (by decide) (by decide) (by decide) (by decide) (by decide)).trans <|
    (W3_of_ne m c main_arg5 (by decide)).trans (W2_launch m c main_arg5 (by decide) (by decide))

theorem W10_main_arg6 : W10 m c main_arg6 = m ((c.tc : Thread nD τ).loc main_arg6) :=
  (W10_of_W3 m c main_arg6 (by decide) (by decide) (by decide) (by decide) (by decide) (by decide) (by decide)).trans <|
    (W3_in m c 3 rfl).trans (W2_launch m c main_arg6 (by decide) (by decide))

theorem W10_main_arg7 : W10 m c main_arg7 = m ((c.tc : Thread nD τ).loc main_arg7) :=
  (W10_of_W3 m c main_arg7 (by decide) (by decide) (by decide) (by decide) (by decide) (by decide) (by decide)).trans <|
    (W3_of_ne m c main_arg7 (by decide)).trans (W2_launch m c main_arg7 (by decide) (by decide))

theorem W10_main_arg8 : W10 m c main_arg8 = m ((c.tc : Thread nD τ).loc main_arg8) :=
  (W10_of_W3 m c main_arg8 (by decide) (by decide) (by decide) (by decide) (by decide) (by decide) (by decide)).trans <|
    (W3_in m c 5 rfl).trans (W2_launch m c main_arg8 (by decide) (by decide))

theorem W10_main_arg9 : W10 m c main_arg9 = m ((c.tc : Thread nD τ).loc main_arg9) :=
  (W10_of_W3 m c main_arg9 (by decide) (by decide) (by decide) (by decide) (by decide) (by decide) (by decide)).trans <|
    (W3_of_ne m c main_arg9 (by decide)).trans (W2_launch m c main_arg9 (by decide) (by decide))

theorem W10_main_arg10 : W10 m c main_arg10 = m ((c.tc : Thread nD τ).loc main_arg10) :=
  (W10_of_W3 m c main_arg10 (by decide) (by decide) (by decide) (by decide) (by decide) (by decide) (by decide)).trans <|
    (W3_of_ne m c main_arg10 (by decide)).trans (W2_launch m c main_arg10 (by decide) (by decide))

theorem W10_main_arg11 : W10 m c main_arg11 = m ((c.tc : Thread nD τ).loc main_arg11) :=
  (W10_of_W3 m c main_arg11 (by decide) (by decide) (by decide) (by decide) (by decide) (by decide) (by decide)).trans <|
    (W3_of_ne m c main_arg11 (by decide)).trans (W2_launch m c main_arg11 (by decide) (by decide))

theorem W10_logits : W10 m c main_v16_0 = W7 m c main_v16_0 :=
  (W10_of m c main_v16_0 (by decide)).trans <| (W9_of m c main_v16_0 (by decide)).trans (W8_of m c main_v16_0 (by decide))

theorem W5_launch (r : Ref sig .tc) (h5 : ∀ w, Pipeline.arrRef spec1 w ≠ r) (h4 : r ∉ hostOps1_W) (h3 : ∀ w, Pipeline.arrRef spec0 w ≠ r) (h2 : r ∉ hostOps0_1_W) (h1 : r ∉ hostOps0_W) :
    W5 m c r = m ((c.tc : Thread nD τ).loc r) :=
  (W5_of_ne m c r h5).trans <| (W4_of m c r h4).trans <| (W3_of_ne m c r h3).trans <| (W2_of m c r h2).trans <|
    (W1_of m c r h1).trans rfl

end Cert.KernelIdeal.Hand

end
-- ==== Proof.KI.Frame.lean ====
import proofs.«413320_j45251775431036_3_alg».proof.Proof.KI.Run
import proofs.«413320_j45251775431036_3_alg».proof.Proof.KI.Body1
import proofs.«413320_j45251775431036_3_alg».proof.Proof.KI.Body2
import proofs.«413320_j45251775431036_3_alg».proof.Proof.KI.Args
set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ) (ρ : Dev nD → PrngReg)

theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  run_main body_obligation1 hin1 hout1 body_obligation2 hin2 hout2 m ρ

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c),
     (h c _ (mem_uc main_arg11 (by decide))).trans (W10_main_arg11 m c)⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev T4x2048 : Shape := ⟨2, ![4, 2048]⟩

abbrev T32000x256 : Shape := ⟨2, ![32000, 256]⟩

abbrev T2048x256 : Shape := ⟨2, ![2048, 256]⟩

abbrev T256x256 : Shape := ⟨2, ![256, 256]⟩

abbrev T256 : Shape := ⟨1, ![256]⟩

abbrev T256x32000 : Shape := ⟨2, ![256, 32000]⟩

abbrev T32000 : Shape := ⟨1, ![32000]⟩

def rowB (r : Fin 8192) : Fin 4 := ⟨r.val / 2048, by omega⟩

def rowT (r : Fin 8192) : Fin 2048 := ⟨r.val % 2048, by omega⟩

section

variable (b : Fin 4) (t : Fin 2048)

def rowOf : Fin 8192 := ⟨b.val * 2048 + t.val, by omega⟩

theorem rowB_rowOf : rowB (rowOf b t) = b := by
  apply Fin.ext; show (b.val * 2048 + t.val) / 2048 = b.val; omega

theorem rowT_rowOf : rowT (rowOf b t) = t := by
  apply Fin.ext; show (b.val * 2048 + t.val) % 2048 = t.val; omega

end

def wrapIdx (N : Nat) (hN : 0 < N) (w : BitVec 32) : Fin N :=
  ⟨min (Scalar.select (IntOp.cmpi .slt w 0#32) (IntOp.addi w (BitVec.ofNat 32 N)) w).toInt.toNat (N - 1), by omega⟩

structure Inp where
  xi : Fin 4 → Fin 2048 → Fin 32000
  ti : Fin 8192 → Fin 32000
  tok : Fin 32000 → Fin 256 → ℝ
  pos : Fin 2048 → Fin 256 → ℝ
  Wq : Fin 256 → Fin 256 → ℝ
  bq : Fin 256 → ℝ
  Wk : Fin 256 → Fin 256 → ℝ
  bk : Fin 256 → ℝ
  Wv : Fin 256 → Fin 256 → ℝ
  bv : Fin 256 → ℝ
  Wp : Fin 256 → Fin 32000 → ℝ
  bp : Fin 32000 → ℝ

def Inp.of (x tg : T4x2048.Idx → BitVec 32) (tok : T32000x256.Idx → EReal) (pos : T2048x256.Idx → EReal) (Wq : T256x256.Idx → EReal) (bq : T256.Idx → EReal) (Wk : T256x256.Idx → EReal) (bk : T256.Idx → EReal) (Wv : T256x256.Idx → EReal) (bv : T256.Idx → EReal) (Wp : T256x32000.Idx → EReal) (bp : T32000.Idx → EReal) : Inp where
  xi b t := wrapIdx 32000 (by decide) (x (ix2 b t))
  ti r := wrapIdx 32000 (by decide) (tg (ix2 (rowB r) (rowT r)))
  tok i j := (tok (ix2 i j)).toReal
  pos i j := (pos (ix2 i j)).toReal
  Wq i j := (Wq (ix2 i j)).toReal
  bq j := (bq (ix1 j)).toReal
  Wk i j := (Wk (ix2 i j)).toReal
  bk j := (bk (ix1 j)).toReal
  Wv i j := (Wv (ix2 i j)).toReal
  bv j := (bv (ix1 j)).toReal
  Wp i j := (Wp (ix2 i j)).toReal
  bp j := (bp (ix1 j)).toReal

structure Good (x tg : T4x2048.Idx → BitVec 32) (tok : T32000x256.Idx → EReal) (pos : T2048x256.Idx → EReal)
    (Wq : T256x256.Idx → EReal) (bq : T256.Idx → EReal) (Wk : T256x256.Idx → EReal) (bk : T256.Idx → EReal)
    (Wv : T256x256.Idx → EReal) (bv : T256.Idx → EReal) (Wp : T256x32000.Idx → EReal) (bp : T32000.Idx → EReal) : Prop where
  x_lo : ∀ i, -(32000 : Int) ≤ (x i).toInt
  x_hi : ∀ i, (x i).toInt < 32000
  tg_lo : ∀ i, -(32000 : Int) ≤ (tg i).toInt
  tg_hi : ∀ i, (tg i).toInt < 32000
  tok_real : ∀ i, tok i = ((tok i).toReal : EReal)
  pos_real : ∀ i, pos i = ((pos i).toReal : EReal)
  Wq_real : ∀ i, Wq i = ((Wq i).toReal : EReal)
  bq_real : ∀ i, bq i = ((bq i).toReal : EReal)
  Wk_real : ∀ i, Wk i = ((Wk i).toReal : EReal)
  bk_real : ∀ i, bk i = ((bk i).toReal : EReal)
  Wv_real : ∀ i, Wv i = ((Wv i).toReal : EReal)
  bv_real : ∀ i, bv i = ((bv i).toReal : EReal)
  Wp_real : ∀ i, Wp i = ((Wp i).toReal : EReal)
  bp_real : ∀ i, bp i = ((bp i).toReal : EReal)

variable (I : Inp)

section

variable (b : Fin 4)

section

variable (t : Fin 2048)

def emb (c : Fin 256) : ℝ := I.tok (I.xi b t) c + I.pos t c

def qv (d : Fin 256) : ℝ := (∑ c : Fin 256, emb I b t c * I.Wq c d) + I.bq d

def kv (d : Fin 256) : ℝ := (∑ c : Fin 256, emb I b t c * I.Wk c d) + I.bk d

def vv (d : Fin 256) : ℝ := (∑ c : Fin 256, emb I b t c * I.Wv c d) + I.bv d

end

def score (t u : Fin 2048) : ℝ := (∑ d : Fin 256, qv I b t d * kv I b u d) / 16

end

def vis (t : Fin 2048) : Finset (Fin 2048) := Finset.univ.filter fun u => u.val ≤ t.val

theorem vis_nonempty (t : Fin 2048) : (vis t).Nonempty := ⟨t, by simp [vis]⟩

section

variable (b : Fin 4)

def rowMax (t : Fin 2048) : ℝ := (vis t).sup' (vis_nonempty t) (score I b t)

def wgt (t u : Fin 2048) : ℝ := Real.exp (score I b t u - rowMax I b t)

section

variable (t : Fin 2048)

def den : ℝ := ∑ u ∈ vis t, wgt I b t u

def ctx (d : Fin 256) : ℝ := ∑ u ∈ vis t, wgt I b t u / den I b t * vv I b u d

def logit (v : Fin 32000) : ℝ := (∑ c : Fin 256, ctx I b t c * I.Wp c v) + I.bp v

def lmax : ℝ := Finset.univ.sup' ⟨(0 : Fin 32000), Finset.mem_univ _⟩ (logit I b t)

def lsum : ℝ := ∑ v : Fin 32000, Real.exp (logit I b t v - lmax I b t)

def logp (v : Fin 32000) : ℝ := logit I b t v - lmax I b t - Real.log (lsum I b t)

end

end

def logitsOut (r : Fin 8192) (v : Fin 32000) : ℝ := logit I (rowB r) (rowT r) v

def loss : ℝ := -((∑ r : Fin 8192, logp I (rowB r) (rowT r) (I.ti r)) / 8192)

theorem den_pos (b : Fin 4) (t : Fin 2048) : 0 < den I b t :=
  Finset.sum_pos (fun u _ => Real.exp_pos _) (vis_nonempty t)

theorem lsum_pos (b : Fin 4) (t : Fin 2048) : 0 < lsum I b t :=
  Finset.sum_pos (fun v _ => Real.exp_pos _) ⟨(0 : Fin 32000), Finset.mem_univ _⟩

end Cert.Spec

end
-- ==== Proof.KI.Inputs.lean ====
import proofs.«413320_j45251775431036_3_alg».proof.Proof.KI.Chain
import proofs.«413320_j45251775431036_3_alg».proof.Proof.Spec

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

abbrev kI : Cert.Spec.Inp :=
  Cert.Spec.Inp.of (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

abbrev kGood : Prop :=
  Cert.Spec.Good (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

end Cert.KernelIdeal.Val

end
-- ==== Proof.LibDense.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

abbrev Mat (n m : Nat) : Type := (⟨2, ![n, m]⟩ : Shape).Idx → EReal

section Layers

variable {n k m : Nat}

section

variable (x : Mat n k) (w : Mat k m) (β : Fin m → EReal)

def aff : Mat n m :=
  fun i => ∑ j : Fin k, x (ix2 (i 0) j) * w (ix2 j (i 1)) + β (i 1)

theorem aff_apply (a : Fin n) (c : Fin m) :
    aff x w β (ix2 a c) = ∑ j : Fin k, x (ix2 a j) * w (ix2 j c) + β c := rfl

end

def relu (y : Mat n m) : Mat n m := fun i => max (y i) 0

theorem relu_apply (y : Mat n m) (i : (⟨2, ![n, m]⟩ : Shape).Idx) : relu y i = max (y i) 0 := rfl

section

variable {φ₁ φ₂ : FTy} (d : DotDims ⟨2, ![n, k]⟩ ⟨2, ![k, m]⟩ ⟨2, ![n, m]⟩)

theorem kernel_layer (hd : d = DotDims.plain n k m) (x : FVec Ideal ⟨2, ![n, k]⟩ φ₁) (w : FVec Ideal ⟨2, ![k, m]⟩ φ₂) (brow : FVec Ideal ⟨2, ![1, m]⟩ .f32) (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

end

end Layers

section Split

variable {n k₁ k₂ k₃ K m : Nat}

section

variable (x₁ : Mat n k₁) (x₂ : Mat n k₂) (x₃ : Mat n k₃) (w₁ : Mat k₁ m) (w₂ : Mat k₂ m) (w₃ : Mat k₃ m) (β : Fin m → EReal)

def aff3 : Mat n m :=
  fun i => (∑ j : Fin k₁, x₁ (ix2 (i 0) j) * w₁ (ix2 j (i 1)) + ∑ j : Fin k₂, x₂ (ix2 (i 0) j) * w₂ (ix2 j (i 1)))
    + ∑ j : Fin k₃, x₃ (ix2 (i 0) j) * w₃ (ix2 j (i 1)) + β (i 1)

theorem aff3_apply (a : Fin n) (c : Fin m) :
    aff3 x₁ x₂ x₃ w₁ w₂ w₃ β (ix2 a c)
      = (∑ j : Fin k₁, x₁ (ix2 a j) * w₁ (ix2 j c) + ∑ j : Fin k₂, x₂ (ix2 a j) * w₂ (ix2 j c))
        + ∑ j : Fin k₃, x₃ (ix2 a j) * w₃ (ix2 j c) + β c := rfl

end

end Split

section Rows

variable {n n' k m : Nat}

def RowEq (x' : Mat n' k) (x : Mat n k) (p : Fin n') (r : Fin n) : Prop := ∀ j : Fin k, x' (ix2 p j) = x (ix2 r j)

section

variable {x' : Mat n' k} {x : Mat n k} {p : Fin n'} {r : Fin n}

theorem RowEq.aff (h : RowEq x' x p r) (w : Mat k m) (β : Fin m → EReal) : RowEq (aff x' w β) (aff x w β) p r := fun c => by
  rw [aff_apply, aff_apply]
  exact congrArg (· + β c) (Finset.sum_congr rfl fun j _ => by rw [h j])

theorem RowEq.relu (h : RowEq x' x p r) :
    RowEq (relu x') (relu x) p r := fun c => by
  rw [relu_apply, relu_apply, h c]

end

theorem RowEq.aff3 {k₁ k₂ k₃ : Nat} {x₁' : Mat n' k₁} {x₁ : Mat n k₁} {x₂' : Mat n' k₂} {x₂ : Mat n k₂} {x₃' : Mat n' k₃} {x₃ : Mat n k₃} {p : Fin n'} {r : Fin n} (h₁ : RowEq x₁' x₁ p r) (h₂ : RowEq x₂' x₂ p r) (h₃ : RowEq x₃' x₃ p r) (w₁ : Mat k₁ m) (w₂ : Mat k₂ m) (w₃ : Mat k₃ m) (β : Fin m → EReal) :
    RowEq (aff3 x₁' x₂' x₃' w₁ w₂ w₃ β) (aff3 x₁ x₂ x₃ w₁ w₂ w₃ β) p r := fun c => by
  rw [aff3_apply, aff3_apply]
  have e₁ : ∑ j : Fin k₁, x₁' (ix2 p j) * w₁ (ix2 j c) = ∑ j : Fin k₁, x₁ (ix2 r j) * w₁ (ix2 j c) :=
    Finset.sum_congr rfl fun j _ => by rw [h₁ j]
  have e₂ : ∑ j : Fin k₂, x₂' (ix2 p j) * w₂ (ix2 j c) = ∑ j : Fin k₂, x₂ (ix2 r j) * w₂ (ix2 j c) :=
    Finset.sum_congr rfl fun j _ => by rw [h₂ j]
  have e₃ : ∑ j : Fin k₃, x₃' (ix2 p j) * w₃ (ix2 j c) = ∑ j : Fin k₃, x₃ (ix2 r j) * w₃ (ix2 j c) :=
    Finset.sum_congr rfl fun j _ => by rw [h₃ j]
  rw [e₁, e₂, e₃]

end Rows

end Cert.LibDense

end
-- ==== Proof.LibOnlineSoftmax.lean ====
import Idealize.ShloMosaic.PureOps.Ideal

noncomputable section

open scoped BigOperators

namespace Cert.Lib.OnlineSoftmax

open Idealize.ShloMosaic

def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

section

variable {ι : Type*} (s : Finset ι)

theorem coe_finset_sum (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_bot_eq_sup (f : ι → EReal) : s.fold max ⊥ f = s.sup f := by
  classical
  induction s using Finset.induction_on with
  | empty => simp
  | insert a s ha ih => rw [Finset.fold_insert ha, Finset.sup_insert, ih]

end

variable {P : Type*} [DecidableEq P]

theorem sup_isReal (x : P → EReal) (hx : ∀ p, IsReal (x p)) (S : Finset P) (hS : S.Nonempty) : IsReal (S.sup x) := by
  obtain ⟨p, _, hp⟩ := Finset.exists_mem_eq_sup S hS x
  rw [hp]
  exact hx p

def wt (x w : P → EReal) (M : EReal) (p : P) : EReal := Ideal.exp (x p + w p - M)

theorem step_max (x : P → EReal) (S T : Finset P) : max (S.sup x) (T.sup x) = (S ∪ T).sup x := by
  exact Finset.sup_union.symm

theorem step_acc (x w v : P → EReal) (hx : ∀ p, IsReal (x p)) (hw : ∀ p, IsReal (w p)) (hv : ∀ p, IsReal (v p)) (S T : Finset P) (hST : Disjoint S T) (hT : T.Nonempty) :
    Ideal.exp (S.sup x - (S ∪ T).sup x) * (∑ p ∈ S, wt x w (S.sup x) p * v p)
        + ∑ p ∈ T, wt x w ((S ∪ T).sup x) p * v p
      = ∑ p ∈ S ∪ T, wt x w ((S ∪ T).sup x) p * v p := by
  classical

  choose xr hxr using hx
  choose wr hwr using hw
  choose vr hvr using hv
  obtain rfl : x = fun p => (xr p : EReal) := funext hxr
  obtain rfl : w = fun p => (wr p : EReal) := funext hwr
  obtain rfl : v = fun p => (vr p : EReal) := funext hvr
  rcases S.eq_empty_or_nonempty with rfl | hS
  ·
    simp
  ·
    obtain ⟨M, hM⟩ := sup_isReal (fun p => (xr p : EReal)) (fun p => ⟨xr p, rfl⟩) S hS
    obtain ⟨M', hM'⟩ := sup_isReal (fun p => (xr p : EReal)) (fun p => ⟨xr p, rfl⟩) (S ∪ T)
      (hS.mono Finset.subset_union_left)
    simp only [wt, hM, hM', ← EReal.coe_add, ← EReal.coe_sub, Ideal.exp_coe, ← EReal.coe_mul,
      ← coe_finset_sum]
    congr 1
    rw [Finset.sum_union hST, Finset.mul_sum]
    congr 1
    refine Finset.sum_congr rfl (fun p _ => ?_)

    rw [← mul_assoc, ← Real.exp_add]
    congr 2
    ring

theorem step_sum (x w : P → EReal) (hx : ∀ p, IsReal (x p)) (hw : ∀ p, IsReal (w p)) (S T : Finset P) (hST : Disjoint S T) (hT : T.Nonempty) :
    Ideal.exp (S.sup x - (S ∪ T).sup x) * (∑ p ∈ S, wt x w (S.sup x) p)
        + ∑ p ∈ T, wt x w ((S ∪ T).sup x) p
      = ∑ p ∈ S ∪ T, wt x w ((S ∪ T).sup x) p := by

  have h := step_acc x w (fun _ => (1 : EReal)) hx hw (fun _ => ⟨1, EReal.coe_one.symm⟩) S T hST hT
  simp only [mul_one] at h
  exact h

end Cert.Lib.OnlineSoftmax

end
-- ==== Proof.KI.Val0.lean ====
import proofs.«413320_j45251775431036_3_alg».proof.Proof.KI.Base
import proofs.«413320_j45251775431036_3_alg».proof.Proof.Spec
import proofs.«413320_j45251775431036_3_alg».proof.Proof.LibDense
import proofs.«413320_j45251775431036_3_alg».proof.Proof.LibOnlineSoftmax
import Idealize.ShloMosaic.Lib.Pipeline.Value
import Idealize.ShloMosaic.Lib.ValueIdx
set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

theorem dot_plain : dot_S1024x256_S256x256_S1024x256_1_0_0_1_n_n = DotDims.plain 1024 256 256 := rfl

section
variable (x : Vec Ideal S1024x256 .f32) (w : Vec Ideal S256x256 .f32) (b : Vec Ideal S1x256 .f32) (r : Fin 1024) (d : Fin 256)

theorem pay2_apply :
    (k0_pay2 x w b : S1024x256.Idx → EReal) (ix2 r d)
      = (∑ k : Fin 256, (x : S1024x256.Idx → EReal) (ix2 r k) * (w : S256x256.Idx → EReal) (ix2 k d)) + (b : S1x256.Idx → EReal) (ix2 (0 : Fin 1) d) := by
  have e := congrFun (Cert.LibDense.kernel_layer (n := 1024) (k := 256) (m := 256) dot_S1024x256_S256x256_S1024x256_1_0_0_1_n_n dot_plain
    (φ₁ := .f32) (φ₂ := .f32) x w b broadcasts_S1x256_S1024x256) (ix2 r d)
  rw [Cert.LibDense.aff_apply] at e
  refine Eq.trans ?_ e
  unfold k0_pay2 k0_pay1
  simp only [shapeCast_self]
  rfl

theorem pay3_apply :
    (k0_pay3 x w b : S1024x256.Idx → EReal) (ix2 r d)
      = (∑ k : Fin 256, (x : S1024x256.Idx → EReal) (ix2 r k) * (w : S256x256.Idx → EReal) (ix2 k d)) + (b : S1x256.Idx → EReal) (ix2 (0 : Fin 1) d) := by
  have e := congrFun (Cert.LibDense.kernel_layer (n := 1024) (k := 256) (m := 256) dot_S1024x256_S256x256_S1024x256_1_0_0_1_n_n dot_plain
    (φ₁ := .f32) (φ₂ := .f32) x w b broadcasts_S1x256_S1024x256) (ix2 r d)
  rw [Cert.LibDense.aff_apply] at e
  refine Eq.trans ?_ e
  unfold k0_pay3 k0_pay1
  simp only [shapeCast_self]
  rfl

theorem pay4_apply :
    (k0_pay4 x w b : S1024x256.Idx → EReal) (ix2 r d)
      = (∑ k : Fin 256, (x : S1024x256.Idx → EReal) (ix2 r k) * (w : S256x256.Idx → EReal) (ix2 k d)) + (b : S1x256.Idx → EReal) (ix2 (0 : Fin 1) d) := by
  have e := congrFun (Cert.LibDense.kernel_layer (n := 1024) (k := 256) (m := 256) dot_S1024x256_S256x256_S1024x256_1_0_0_1_n_n dot_plain
    (φ₁ := .f32) (φ₂ := .f32) x w b broadcasts_S1x256_S1024x256) (ix2 r d)
  rw [Cert.LibDense.aff_apply] at e
  refine Eq.trans ?_ e
  unfold k0_pay4 k0_pay1
  simp only [shapeCast_self]
  rfl

end

variable (V : (c : Dev nD) → (b : Ref sig .tc) → Buf (Elt Ideal) ((c : Thread nD τ).loc b))

theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem idx_out : ∀ t : Fin cfg0.N, win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

section
variable (c : Dev nD) (t : Fin cfg0.N)

theorem b0_0_apply (y : S1024x256.Idx) (i : S8192x256.Idx) (h0 : (i 0).val = 1024 * t.val + (y 0).val) (h1 : (i 1).val = (y 1).val) :
    (b0_0 V c t : S1024x256.Idx → EReal) y = (V c main_v4 : S8192x256.Idx → EReal) i := by
  obtain ⟨e0, e1, -⟩ := idx_in t
  unfold b0_0 iblk0
  rw [View.read_apply]
  show V c main_v4 _ = V c main_v4 _
  congr 1
  funext a
  apply Fin.ext
  match a with
  | ⟨0, _⟩ => show win0_0.index t 0 * 1024 + 1 * (y 0).val = (i 0).val; rw [e0, h0]; omega
  | ⟨1, _⟩ => show win0_0.index t 1 * 256 + 1 * (y 1).val = (i 1).val; rw [e1, h1]; omega

theorem b0_1_apply (y : S256x256.Idx) :
    (b0_1 V c t : S256x256.Idx → EReal) y = (V c main_arg4 : S256x256.Idx → EReal) y := by
  obtain ⟨-, -, e0, e1, -⟩ := idx_in t
  unfold b0_1 iblk0
  rw [View.read_apply]
  show V c main_arg4 _ = V c main_arg4 _
  congr 1
  funext a
  apply Fin.ext
  match a with
  | ⟨0, _⟩ => show win0_1.index t 0 * 256 + 1 * (y 0).val = (y 0).val; rw [e0]; omega
  | ⟨1, _⟩ => show win0_1.index t 1 * 256 + 1 * (y 1).val = (y 1).val; rw [e1]; omega

theorem b0_2_apply (y : S1x256.Idx) :
    (b0_2 V c t : S1x256.Idx → EReal) y = (V c main_v5 : S1x256.Idx → EReal) y := by
  obtain ⟨-, -, -, -, e0, e1, -⟩ := idx_in t
  unfold b0_2 iblk0
  rw [View.read_apply]
  show V c main_v5 _ = V c main_v5 _
  congr 1
  funext a
  apply Fin.ext
  match a with
  | ⟨0, _⟩ => show win0_2.index t 0 * 1 + 1 * (y 0).val = (y 0).val; rw [e0]; omega
  | ⟨1, _⟩ => show win0_2.index t 1 * 256 + 1 * (y 1).val = (y 1).val; rw [e1]; omega

theorem b0_3_apply (y : S256x256.Idx) :
    (b0_3 V c t : S256x256.Idx → EReal) y = (V c main_arg6 : S256x256.Idx → EReal) y := by
  obtain ⟨-, -, -, -, -, -, e0, e1, -⟩ := idx_in t
  unfold b0_3 iblk0
  rw [View.read_apply]
  show V c main_arg6 _ = V c main_arg6 _
  congr 1
  funext a
  apply Fin.ext
  match a with
  | ⟨0, _⟩ => show win0_3.index t 0 * 256 + 1 * (y 0).val = (y 0).val; rw [e0]; omega
  | ⟨1, _⟩ => show win0_3.index t 1 * 256 + 1 * (y 1).val = (y 1).val; rw [e1]; omega

theorem b0_4_apply (y : S1x256.Idx) :
    (b0_4 V c t : S1x256.Idx → EReal) y = (V c main_v6 : S1x256.Idx → EReal) y := by
  obtain ⟨-, -, -, -, -, -, -, -, e0, e1, -⟩ := idx_in t
  unfold b0_4 iblk0
  rw [View.read_apply]
  show V c main_v6 _ = V c main_v6 _
  congr 1
  funext a
  apply Fin.ext
  match a with
  | ⟨0, _⟩ => show win0_4.index t 0 * 1 + 1 * (y 0).val = (y 0).val; rw [e0]; omega
  | ⟨1, _⟩ => show win0_4.index t 1 * 256 + 1 * (y 1).val = (y 1).val; rw [e1]; omega

theorem b0_5_apply (y : S256x256.Idx) :
    (b0_5 V c t : S256x256.Idx → EReal) y = (V c main_arg8 : S256x256.Idx → EReal) y := by
  obtain ⟨-, -, -, -, -, -, -, -, -, -, e0, e1, -⟩ := idx_in t
  unfold b0_5 iblk0
  rw [View.read_apply]
  show V c main_arg8 _ = V c main_arg8 _
  congr 1
  funext a
  apply Fin.ext
  match a with
  | ⟨0, _⟩ => show win0_5.index t 0 * 256 + 1 * (y 0).val = (y 0).val; rw [e0]; omega
  | ⟨1, _⟩ => show win0_5.index t 1 * 256 + 1 * (y 1).val = (y 1).val; rw [e1]; omega

theorem b0_6_apply (y : S1x256.Idx) :
    (b0_6 V c t : S1x256.Idx → EReal) y = (V c main_v7 : S1x256.Idx → EReal) y := by
  obtain ⟨-, -, -, -, -, -, -, -, -, -, -, -, e0, e1⟩ := idx_in t
  unfold b0_6 iblk0
  rw [View.read_apply]
  show V c main_v7 _ = V c main_v7 _
  congr 1
  funext a
  apply Fin.ext
  match a with
  | ⟨0, _⟩ => show win0_6.index t 0 * 1 + 1 * (y 0).val = (y 0).val; rw [e0]; omega
  | ⟨1, _⟩ => show win0_6.index t 1 * 256 + 1 * (y 1).val = (y 1).val; rw [e1]; omega

end

section
variable (X : S8192x256.Idx → EReal) (W : S256x256.Idx → EReal) (B : S1x256.Idx → EReal)

def lay : S8192x256.Idx → EReal :=
  fun i => (∑ k : Fin 256, X (ix2 (i 0 : Fin 8192) k) * W (ix2 k (i 1 : Fin 256))) + B (ix2 (0 : Fin 1) (i 1 : Fin 256))

theorem lay_real (x : Fin 8192 → Fin 256 → ℝ) (w : Fin 256 → Fin 256 → ℝ) (b : Fin 256 → ℝ) (hX : ∀ (r : Fin 8192) (k : Fin 256), X (ix2 r k) = ((x r k : ℝ) : EReal)) (hW : ∀ k d : Fin 256, W (ix2 k d) = ((w k d : ℝ) : EReal)) (hB : ∀ d : Fin 256, B (ix2 (0 : Fin 1) d) = ((b d : ℝ) : EReal)) (r : Fin 8192) (d : Fin 256) :
    lay X W B (ix2 r d) = (((∑ k : Fin 256, x r k * w k d) + b d : ℝ) : EReal) := by
  show (∑ k : Fin 256, X (ix2 r k) * W (ix2 k d)) + B (ix2 (0 : Fin 1) d) = _
  rw [EReal.coe_add, Cert.Lib.OnlineSoftmax.coe_finset_sum, hB]
  congr 1
  refine Finset.sum_congr rfl fun k _ => ?_
  rw [hX, hW, EReal.coe_mul]

end

theorem tile7 (c : Dev nD) (t : Fin cfg0.N) (r : Fin 1024) (d : Fin 256) (i : S8192x256.Idx) (h0 : (i 0).val = 1024 * t.val + r.val) (h1 : (i 1).val = d.val) :
    (o0_7 V c t : S1024x256.Idx → EReal) (ix2 r d) = lay (V c main_v4) (V c main_arg4) (V c main_v5) i := by
  unfold o0_7
  refine (pay2_apply _ _ _ r d).trans ?_
  have hd : (i 1 : Fin 256) = d := Fin.ext h1
  unfold lay
  rw [hd]
  congr 1
  · refine Finset.sum_congr rfl fun k _ => ?_
    rw [b0_0_apply V c t (ix2 r k) (ix2 (i 0 : Fin 8192) k) h0 rfl, b0_1_apply]
  · exact b0_2_apply V c t _

theorem flushed7_eq (c : Dev nD) (t : Fin cfg0.N) :
    (dat0 V c).flushed 7 t = ((cfg0.win 7).blk t).view.read (Elt Ideal) (lay (V c main_v4) (V c main_arg4) (V c main_v5)) := by
  obtain ⟨e0, e1, -⟩ := idx_out t
  show o0_7 V c t = _
  funext y
  rw [View.read_apply]
  obtain ⟨r, d, rfl⟩ : ∃ (r : Fin 1024) (d : Fin 256), y = ix2 r d := ⟨y 0, y 1, eq_ix2 y⟩
  refine tile7 V c t r d _ ?_ ?_
  · show win0_7.index t 0 * 1024 + 1 * r.val = _
    rw [e0]; omega
  · show win0_7.index t 1 * 256 + 1 * d.val = _
    rw [e1]; omega

theorem mem_blk7 (t : Fin cfg0.N) (i : S8192x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v8_0).slice (win0_7.rect t)).set ↔ _
  rw [View.set_slice_whole, Rect.mem_set_unit]
  exact Iff.rfl

theorem cover7 (i : S8192x256.Idx) : ∃ t : Fin cfg0.N, (cfg0.win 7).flush t = true ∧ i ∈ ((cfg0.win 7).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  obtain ⟨e0, e1, -⟩ := idx_out t
  refine ⟨t, flush0_7 t, ?_⟩
  rw [mem_blk7]
  intro a
  match a with
  | ⟨0, _⟩ =>
    show win0_7.index t 0 * 1024 ≤ (i 0).val ∧ (i 0).val < win0_7.index t 0 * 1024 + 1024
    rw [e0, ht]; omega
  | ⟨1, _⟩ =>
    show win0_7.index t 1 * 256 ≤ (i 1).val ∧ (i 1).val < win0_7.index t 1 * 256 + 256
    rw [e1]; omega

theorem arr7 (c : Dev nD) : (dat0 V c).arrAt 7 cfg0.N = lay (V c main_v4) (V c main_arg4) (V c main_v5) :=
  (dat0 V c).arrAt_eq_of_cover 7 _ (fun t _ => flushed7_eq V c t) cover7

theorem tile8 (c : Dev nD) (t : Fin cfg0.N) (r : Fin 1024) (d : Fin 256) (i : S8192x256.Idx) (h0 : (i 0).val = 1024 * t.val + r.val) (h1 : (i 1).val = d.val) :
    (o0_8 V c t : S1024x256.Idx → EReal) (ix2 r d) = lay (V c main_v4) (V c main_arg6) (V c main_v6) i := by
  unfold o0_8
  refine (pay3_apply _ _ _ r d).trans ?_
  have hd : (i 1 : Fin 256) = d := Fin.ext h1
  unfold lay
  rw [hd]
  congr 1
  · refine Finset.sum_congr rfl fun k _ => ?_
    rw [b0_0_apply V c t (ix2 r k) (ix2 (i 0 : Fin 8192) k) h0 rfl, b0_3_apply]
  · exact b0_4_apply V c t _

theorem flushed8_eq (c : Dev nD) (t : Fin cfg0.N) :
    (dat0 V c).flushed 8 t = ((cfg0.win 8).blk t).view.read (Elt Ideal) (lay (V c main_v4) (V c main_arg6) (V c main_v6)) := by
  obtain ⟨-, -, e0, e1, -⟩ := idx_out t
  show o0_8 V c t = _
  funext y
  rw [View.read_apply]
  obtain ⟨r, d, rfl⟩ : ∃ (r : Fin 1024) (d : Fin 256), y = ix2 r d := ⟨y 0, y 1, eq_ix2 y⟩
  refine tile8 V c t r d _ ?_ ?_
  · show win0_8.index t 0 * 1024 + 1 * r.val = _
    rw [e0]; omega
  · show win0_8.index t 1 * 256 + 1 * d.val = _
    rw [e1]; omega

theorem mem_blk8 (t : Fin cfg0.N) (i : S8192x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v8_1).slice (win0_8.rect t)).set ↔ _
  rw [View.set_slice_whole, Rect.mem_set_unit]
  exact Iff.rfl

theorem cover8 (i : S8192x256.Idx) : ∃ t : Fin cfg0.N, (cfg0.win 8).flush t = true ∧ i ∈ ((cfg0.win 8).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  obtain ⟨-, -, e0, e1, -⟩ := idx_out t
  refine ⟨t, flush0_8 t, ?_⟩
  rw [mem_blk8]
  intro a
  match a with
  | ⟨0, _⟩ =>
    show win0_8.index t 0 * 1024 ≤ (i 0).val ∧ (i 0).val < win0_8.index t 0 * 1024 + 1024
    rw [e0, ht]; omega
  | ⟨1, _⟩ =>
    show win0_8.index t 1 * 256 ≤ (i 1).val ∧ (i 1).val < win0_8.index t 1 * 256 + 256
    rw [e1]; omega

theorem arr8 (c : Dev nD) : (dat0 V c).arrAt 8 cfg0.N = lay (V c main_v4) (V c main_arg6) (V c main_v6) :=
  (dat0 V c).arrAt_eq_of_cover 8 _ (fun t _ => flushed8_eq V c t) cover8

theorem tile9 (c : Dev nD) (t : Fin cfg0.N) (r : Fin 1024) (d : Fin 256) (i : S8192x256.Idx) (h0 : (i 0).val = 1024 * t.val + r.val) (h1 : (i 1).val = d.val) :
    (o0_9 V c t : S1024x256.Idx → EReal) (ix2 r d) = lay (V c main_v4) (V c main_arg8) (V c main_v7) i := by
  unfold o0_9
  refine (pay4_apply _ _ _ r d).trans ?_
  have hd : (i 1 : Fin 256) = d := Fin.ext h1
  unfold lay
  rw [hd]
  congr 1
  · refine Finset.sum_congr rfl fun k _ => ?_
    rw [b0_0_apply V c t (ix2 r k) (ix2 (i 0 : Fin 8192) k) h0 rfl, b0_5_apply]
  · exact b0_6_apply V c t _

theorem flushed9_eq (c : Dev nD) (t : Fin cfg0.N) :
    (dat0 V c).flushed 9 t = ((cfg0.win 9).blk t).view.read (Elt Ideal) (lay (V c main_v4) (V c main_arg8) (V c main_v7)) := by
  obtain ⟨-, -, -, -, e0, e1⟩ := idx_out t
  show o0_9 V c t = _
  funext y
  rw [View.read_apply]
  obtain ⟨r, d, rfl⟩ : ∃ (r : Fin 1024) (d : Fin 256), y = ix2 r d := ⟨y 0, y 1, eq_ix2 y⟩
  refine tile9 V c t r d _ ?_ ?_
  · show win0_9.index t 0 * 1024 + 1 * r.val = _
    rw [e0]; omega
  · show win0_9.index t 1 * 256 + 1 * d.val = _
    rw [e1]; omega

theorem mem_blk9 (t : Fin cfg0.N) (i : S8192x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v8_2).slice (win0_9.rect t)).set ↔ _
  rw [View.set_slice_whole, Rect.mem_set_unit]
  exact Iff.rfl

theorem cover9 (i : S8192x256.Idx) : ∃ t : Fin cfg0.N, (cfg0.win 9).flush t = true ∧ i ∈ ((cfg0.win 9).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, e0, e1⟩ := idx_out t
  refine ⟨t, flush0_9 t, ?_⟩
  rw [mem_blk9]
  intro a
  match a with
  | ⟨0, _⟩ =>
    show win0_9.index t 0 * 1024 ≤ (i 0).val ∧ (i 0).val < win0_9.index t 0 * 1024 + 1024
    rw [e0, ht]; omega
  | ⟨1, _⟩ =>
    show win0_9.index t 1 * 256 ≤ (i 1).val ∧ (i 1).val < win0_9.index t 1 * 256 + 256
    rw [e1]; omega

theorem arr9 (c : Dev nD) : (dat0 V c).arrAt 9 cfg0.N = lay (V c main_v4) (V c main_arg8) (V c main_v7) :=
  (dat0 V c).arrAt_eq_of_cover 9 _ (fun t _ => flushed9_eq V c t) cover9

theorem q_val (c : Dev nD) (I : Cert.Spec.Inp) (hh : ∀ (r : Fin 8192) (k : Fin 256), (V c main_v4 : S8192x256.Idx → EReal) (ix2 r k) = ((Cert.Spec.emb I (Cert.Spec.rowB r) (Cert.Spec.rowT r) k : ℝ) : EReal)) (hW : ∀ k d : Fin 256, (V c main_arg4 : S256x256.Idx → EReal) (ix2 k d) = ((I.Wq k d : ℝ) : EReal)) (hb : ∀ d : Fin 256, (V c main_v5 : S1x256.Idx → EReal) (ix2 (0 : Fin 1) d) = ((I.bq d : ℝ) : EReal)) :
    ∀ (r : Fin 8192) (d : Fin 256), ((dat0 V c).arrAt 7 cfg0.N : S8192x256.Idx → EReal) (ix2 r d)
      = ((Cert.Spec.qv I (Cert.Spec.rowB r) (Cert.Spec.rowT r) d : ℝ) : EReal) := fun r d =>
  (congrFun (arr7 V c) (ix2 r d)).trans
    (lay_real _ _ _ (fun r k => Cert.Spec.emb I (Cert.Spec.rowB r) (Cert.Spec.rowT r) k) I.Wq I.bq hh hW hb r d)

theorem k_val (c : Dev nD) (I : Cert.Spec.Inp) (hh : ∀ (r : Fin 8192) (k : Fin 256), (V c main_v4 : S8192x256.Idx → EReal) (ix2 r k) = ((Cert.Spec.emb I (Cert.Spec.rowB r) (Cert.Spec.rowT r) k : ℝ) : EReal)) (hW : ∀ k d : Fin 256, (V c main_arg6 : S256x256.Idx → EReal) (ix2 k d) = ((I.Wk k d : ℝ) : EReal)) (hb : ∀ d : Fin 256, (V c main_v6 : S1x256.Idx → EReal) (ix2 (0 : Fin 1) d) = ((I.bk d : ℝ) : EReal)) :
    ∀ (r : Fin 8192) (d : Fin 256), ((dat0 V c).arrAt 8 cfg0.N : S8192x256.Idx → EReal) (ix2 r d)
      = ((Cert.Spec.kv I (Cert.Spec.rowB r) (Cert.Spec.rowT r) d : ℝ) : EReal) := fun r d =>
  (congrFun (arr8 V c) (ix2 r d)).trans
    (lay_real _ _ _ (fun r k => Cert.Spec.emb I (Cert.Spec.rowB r) (Cert.Spec.rowT r) k) I.Wk I.bk hh hW hb r d)

theorem v_val (c : Dev nD) (I : Cert.Spec.Inp) (hh : ∀ (r : Fin 8192) (k : Fin 256), (V c main_v4 : S8192x256.Idx → EReal) (ix2 r k) = ((Cert.Spec.emb I (Cert.Spec.rowB r) (Cert.Spec.rowT r) k : ℝ) : EReal)) (hW : ∀ k d : Fin 256, (V c main_arg8 : S256x256.Idx → EReal) (ix2 k d) = ((I.Wv k d : ℝ) : EReal)) (hb : ∀ d : Fin 256, (V c main_v7 : S1x256.Idx → EReal) (ix2 (0 : Fin 1) d) = ((I.bv d : ℝ) : EReal)) :
    ∀ (r : Fin 8192) (d : Fin 256), ((dat0 V c).arrAt 9 cfg0.N : S8192x256.Idx → EReal) (ix2 r d)
      = ((Cert.Spec.vv I (Cert.Spec.rowB r) (Cert.Spec.rowT r) d : ℝ) : EReal) := fun r d =>
  (congrFun (arr9 V c) (ix2 r d)).trans
    (lay_real _ _ _ (fun r k => Cert.Spec.emb I (Cert.Spec.rowB r) (Cert.Spec.rowT r) k) I.Wv I.bv hh hW hb r d)

end Cert.KernelIdeal.Val

end
-- ==== Proof.LibWrapTake.lean ====
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

theorem reduce_andi_one_of_all {s t u : Shape} {axes : List (Fin s.rank)} (x : s.Idx → BitVec 1) (init : u.Idx → BitVec 1) (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.LibGatherRows3.lean ====
import Idealize.ShloMosaic.Lib.ValueIdx
import Idealize.ShloMosaic.PureOps.ShapeOps
import Idealize.ShloMosaic.PureOps.Dims

namespace Cert.Lib

open Idealize.ShloMosaic Idealize.ShloMosaic.ValueIdx

theorem gather_rows3 {α : Type} {N C a b w : Nat} (d : GatherDims ⟨2, ![N, C]⟩ ⟨3, ![a, b, 1]⟩ ⟨3, ![a, b, C]⟩) (hoff : d.offsetDims = [2]) (hcoll : d.collapsedSliceDims = [0]) (hob : d.operandBatchingDims = []) (hsim : d.startIndexMap = [0]) (hivd : d.indexVectorDim = 2) (x : (⟨2, ![N, C]⟩ : Shape).Idx → α) (idx : IVec ⟨3, ![a, b, 1]⟩ w) (p : Fin a) (q : Fin b) (k : Fin C) (hN : 0 < N) :
    Host.gather d x idx (ix3 p q k) = x (ix2 ⟨min (idx (ix3 p q 0)).toInt.toNat (N - 1), by omega⟩ k) := by
  unfold Host.gather
  congr 1

  have hbd : d.batchDims = [0, 1] := by
    show Shape.kept _ d.offsetDims = _
    rw [hoff]; rfl
  have hsk : d.siKept = [0, 1] := by
    show (List.finRange 3).filter (fun y : Fin 3 => decide (y.val ≠ d.indexVectorDim)) = _
    rw [hivd]; rfl
  have pick0 : ∀ (l₁ l₂ : List (Fin 3)), l₁ = [0, 1] → l₂ = [0, 1] → ∀ (z : Fin 3), z.val = 0 →
      ∀ h, l₁[l₂.idxOf z]'h = 0 := by
    intro l₁ l₂ h₁ h₂ z hz; subst h₁ h₂; obtain rfl : z = 0 := Fin.ext hz; intro _; rfl
  have pick1 : ∀ (l₁ l₂ : List (Fin 3)), l₁ = [0, 1] → l₂ = [0, 1] → ∀ (z : Fin 3), z.val = 1 →
      ∀ h, l₁[l₂.idxOf z]'h = 1 := by
    intro l₁ l₂ h₁ h₂ z hz; subst h₁ h₂; obtain rfl : z = 1 := Fin.ext hz; intro _; rfl
  have hoffAll : ∀ y ∈ d.offsetDims, y = 2 := by
    intro y hy; rw [hoff] at hy; exact List.mem_singleton.1 hy
  have hb : ∀ ax : Fin 2, ax ∉ d.operandBatchingDims := by intro ax; rw [hob]; exact List.not_mem_nil
  funext ax
  apply Fin.ext
  match ax with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix3 p q k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix3 p q 0)).toInt.toNat (N - 1)
    rw [hsl]
    congr 3
    congr 1
    funext bx
    match bx with
    | ⟨0, hb0⟩ =>
      unfold GatherDims.siIdx
      rw [dif_neg (by rw [hivd]; simp)]
      unfold GatherDims.siCoord
      apply Fin.ext
      simp only [Fin.val_cast]
      rw [pick0 _ _ hbd hsk ⟨0, hb0⟩ rfl]
    | ⟨1, hb1⟩ =>
      unfold GatherDims.siIdx
      rw [dif_neg (by rw [hivd]; simp)]
      unfold GatherDims.siCoord
      apply Fin.ext
      simp only [Fin.val_cast]
      rw [pick1 _ _ hbd hsk ⟨1, hb1⟩ rfl]
    | ⟨2, _⟩ =>
      unfold GatherDims.siIdx
      rw [dif_pos (by rw [hivd])]
      apply Fin.ext
      show List.idxOf (0 : Fin 2) d.startIndexMap = 0
      rw [hsim]; simp
  | ⟨1, _⟩ =>

    have hk : (1 : Fin 2) ∈ d.sKept := by rw [GatherDims.mem_sKept, hcoll]; exact ⟨by simp, hb 1⟩
    have hm : (1 : Fin 2) ∉ d.startIndexMap := by rw [hsim]; simp
    show (d.operandIdx (ix3 p q k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.KI.GlueA.lean ====
import proofs.«413320_j45251775431036_3_alg».proof.Proof.KI.Inputs
import proofs.«413320_j45251775431036_3_alg».proof.Proof.Gen.KernelIdeal.Regions
import proofs.«413320_j45251775431036_3_alg».proof.Proof.LibWrapTake
import proofs.«413320_j45251775431036_3_alg».proof.Proof.LibGatherRows3
import Idealize.ShloMosaic.Lib.StableHlo.Run
import Idealize.ShloMosaic.Lib.Pipeline.Value
import Idealize.ShloMosaic.Lib.ValueIdx
import Idealize.ShloMosaic.PureOps.Ideal.Laws
set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

theorem W2_unwritten (r : Ref sig .tc) (h1 : r ∉ hostOps0_1_W) (h0 : r ∉ hostOps0_W) :
    W2 m c (Proc.devRef .tc r) = m ((c.tc : Thread nD τ).loc r) :=
  (StableHlo.after_of_writes_sub hostOps0_1 _ hostOps0_1_writes h1).trans
    ((StableHlo.after_of_writes_sub hostOps0 _ hostOps0_writes h0).trans rfl)

theorem W1_unwritten (r : Ref sig .tc) (h0 : r ∉ hostOps0_W) :
    W1 m c (Proc.devRef .tc r) = m ((c.tc : Thread nD τ).loc r) :=
  (StableHlo.after_of_writes_sub hostOps0 _ hostOps0_writes h0).trans rfl

theorem entry0_Wq (hG : kGood m c) (k d : Fin 256) :
    (W2 m c main_arg4 : S256x256.Idx → EReal) (ix2 k d) = (((kI m c).Wq k d : ℝ) : EReal) := by
  have e : (W2 m c main_arg4 : S256x256.Idx → EReal) = m ((c.tc : Thread nD τ).loc main_arg4) :=
    W2_unwritten m c main_arg4 (by decide) (by decide)
  exact (congrFun e (ix2 k d)).trans (hG.Wq_real (ix2 k d))

theorem entry0_Wk (hG : kGood m c) (k d : Fin 256) :
    (W2 m c main_arg6 : S256x256.Idx → EReal) (ix2 k d) = (((kI m c).Wk k d : ℝ) : EReal) := by
  have e : (W2 m c main_arg6 : S256x256.Idx → EReal) = m ((c.tc : Thread nD τ).loc main_arg6) :=
    W2_unwritten m c main_arg6 (by decide) (by decide)
  exact (congrFun e (ix2 k d)).trans (hG.Wk_real (ix2 k d))

theorem entry0_Wv (hG : kGood m c) (k d : Fin 256) :
    (W2 m c main_arg8 : S256x256.Idx → EReal) (ix2 k d) = (((kI m c).Wv k d : ℝ) : EReal) := by
  have e : (W2 m c main_arg8 : S256x256.Idx → EReal) = m ((c.tc : Thread nD τ).loc main_arg8) :=
    W2_unwritten m c main_arg8 (by decide) (by decide)
  exact (congrFun e (ix2 k d)).trans (hG.Wv_real (ix2 k d))

theorem row_of_vec {α : Type} {n : ℕ} (x : (⟨1, ![n]⟩ : Shape).Idx → α) (h : (⟨1, ![n]⟩ : Shape).ShapeCasts ⟨2, ![1, n]⟩) (d : Fin n) : shapeCast ⟨2, ![1, n]⟩ x h (ix2 (0 : Fin 1) d) = x (ix1 d) :=
  shapeCast_apply x h _ _ (by
    rw [Shape.rowMajor_val_one, Shape.rowMajor_val_two]
    show d.val = 0 * n + d.val
    omega)

section
variable (V : Valuation τ sig (Elt Ideal))

theorem after_v5 :
    (StableHlo.after hostOps0_1 V (Proc.devRef .tc main_v5) : S1x256.Idx → EReal)
      = shapeCast S1x256 (V (Proc.devRef .tc main_arg5) : S256.Idx → EReal) shapeCasts_S256_S1x256 := by
  after_results; rfl

theorem after_v6 :
    (StableHlo.after hostOps0_1 V (Proc.devRef .tc main_v6) : S1x256.Idx → EReal)
      = shapeCast S1x256 (V (Proc.devRef .tc main_arg7) : S256.Idx → EReal) shapeCasts_S256_S1x256 := by
  after_results; rfl

theorem after_v7 :
    (StableHlo.after hostOps0_1 V (Proc.devRef .tc main_v7) : S1x256.Idx → EReal)
      = shapeCast S1x256 (V (Proc.devRef .tc main_arg9) : S256.Idx → EReal) shapeCasts_S256_S1x256 := by
  after_results; rfl

end

theorem entry0_bq (hG : kGood m c) (d : Fin 256) :
    (W2 m c main_v5 : S1x256.Idx → EReal) (ix2 (0 : Fin 1) d) = (((kI m c).bq d : ℝ) : EReal) := by
  have e : (W1 m c main_arg5 : S256.Idx → EReal) = m ((c.tc : Thread nD τ).loc main_arg5) := W1_unwritten m c main_arg5 (by decide)
  refine (congrFun (after_v5 (W1 m c)) (ix2 (0 : Fin 1) d)).trans ?_
  refine (row_of_vec _ _ d).trans ?_
  exact (congrFun e (ix1 d)).trans (hG.bq_real (ix1 d))

theorem entry0_bk (hG : kGood m c) (d : Fin 256) :
    (W2 m c main_v6 : S1x256.Idx → EReal) (ix2 (0 : Fin 1) d) = (((kI m c).bk d : ℝ) : EReal) := by
  have e : (W1 m c main_arg7 : S256.Idx → EReal) = m ((c.tc : Thread nD τ).loc main_arg7) := W1_unwritten m c main_arg7 (by decide)
  refine (congrFun (after_v6 (W1 m c)) (ix2 (0 : Fin 1) d)).trans ?_
  refine (row_of_vec _ _ d).trans ?_
  exact (congrFun e (ix1 d)).trans (hG.bk_real (ix1 d))

theorem entry0_bv (hG : kGood m c) (d : Fin 256) :
    (W2 m c main_v7 : S1x256.Idx → EReal) (ix2 (0 : Fin 1) d) = (((kI m c).bv d : ℝ) : EReal) := by
  have e : (W1 m c main_arg9 : S256.Idx → EReal) = m ((c.tc : Thread nD τ).loc main_arg9) := W1_unwritten m c main_arg9 (by decide)
  refine (congrFun (after_v7 (W1 m c)) (ix2 (0 : Fin 1) d)).trans ?_
  refine (row_of_vec _ _ d).trans ?_
  exact (congrFun e (ix1 d)).trans (hG.bv_real (ix1 d))

section
variable (x : IVec S4x2048 32)

def wrapW : IVec S4x2048 32 :=
  select (cmpi .slt x (broadcastInDim S4x2048 ![] bcast_S_S4x2048 (constantI S_ 32 0#32)))
    (addi x (broadcastInDim S4x2048 ![] bcast_S_S4x2048 (constantI S_ 32 32000#32))) x

def startW : IVec S4x2048x1 32 :=
  broadcastInDim S4x2048x1 ![0, 1] bcast_S4x2048_S4x2048x1_0_1 (wrapW x)

def maskW : IVec S4x2048 1 :=
  Host.reduce IntOp.andi
    (andi (cmpi .sge (startW x) (broadcastInDim S4x2048x1 ![] bcast_S_S4x2048x1 (constantI S_ 32 0#32)))
      (cmpi .sle (startW x) (broadcastInDim S4x2048x1 ![0, 1, 2] bcast_S1x1x1_S4x2048x1_0_1_2
        (broadcastInDim S1x1x1 ![2] bcast_S1_S1x1x1_2 (constantI S1 32 31999#32)))))
    (constantI S_ 1 1#1) reducesTo_S4x2048x1_S4x2048_d2 h_S_

end

def takeW (tab : FVec Ideal S32000x256 .f32) (x : IVec S4x2048 32) : FVec Ideal S4x2048x256 .f32 :=
  select (broadcastInDim S4x2048x256 ![0, 1] bcast_S4x2048_S4x2048x256_0_1 (maskW x))
    (Host.gather gather_S32000x256_S4x2048x1_S4x2048x256_2_0_n_n_0_2_1256 tab (startW x))
    (broadcastInDim S4x2048x256 ![] bcast_S_S4x2048x256 (constant (F := Ideal) S_ .f32 0x7FC00000#32))

theorem after_v0 (V : Valuation τ sig (Elt Ideal)) :
    (StableHlo.after hostOps0 V (Proc.devRef .tc main_v0) : S4x2048x256.Idx → EReal)
      = takeW (V (Proc.devRef .tc main_arg2)) (V (Proc.devRef .tc main_arg0)) := by
  after_results_simp
  rfl

section
variable (x : IVec S4x2048 32)

theorem wrapW_at (p : Fin 4) (q : Fin 2048) :
    wrapW x (ix2 p q)
      = Scalar.select (IntOp.cmpi .slt (x (ix2 p q)) 0#32) (IntOp.addi (x (ix2 p q)) (BitVec.ofNat 32 32000)) (x (ix2 p q)) := rfl

theorem startW_at (p : Fin 4) (q : Fin 2048) (u : Fin 1) :
    startW x (ix3 p q u) = wrapW x (ix2 p q) :=
  broadcastInDim_apply _ _ _ _ (ix2 p q) (fun a => by
    match a with
    | ⟨0, _⟩ => exact (if_neg (by show ¬ ((4 : ℕ) = 1); decide)).symm
    | ⟨1, _⟩ => exact (if_neg (by show ¬ ((2048 : ℕ) = 1); decide)).symm)

theorem maskW_one (hlo : ∀ i, -(32000 : Int) ≤ (x i).toInt) (hhi : ∀ i, (x i).toInt < 32000) (j : S4x2048.Idx) : maskW x j = 1#1 := by
  unfold maskW
  refine Cert.LibWrapTake.reduce_andi_one_of_all _ _ _ _ (fun _ => rfl) (fun i => ?_) j
  obtain ⟨p, q, u, rfl⟩ : ∃ (p : Fin 4) (q : Fin 2048) (u : Fin 1), i = ix3 p q u := ⟨_, _, _, eq_ix3 i⟩
  have hw := Cert.LibWrapTake.wrap_range 32000 (by norm_num) (x (ix2 p q)) (hlo _) (hhi _)
  have hs : startW x (ix3 p q u)
      = Scalar.select (IntOp.cmpi .slt (x (ix2 p q)) 0#32) (IntOp.addi (x (ix2 p q)) (BitVec.ofNat 32 32000)) (x (ix2 p q)) :=
    (startW_at x p q u).trans (wrapW_at x p q)
  have h0 : (0#32 : BitVec 32).toInt = 0 := by decide
  have h1 : (31999#32 : BitVec 32).toInt = 31999 := by decide
  refine IntOp.andi_eq_one.2 ⟨?_, ?_⟩
  · show IntOp.cmpi .sge (startW x (ix3 p q u)) 0#32 = 1#1
    rw [hs, IntOp.cmpi_sge, h0]
    exact hw.1
  · show IntOp.cmpi .sle (startW x (ix3 p q u)) 31999#32 = 1#1
    rw [hs, IntOp.cmpi_sle, h1]
    have := hw.2
    omega

end

theorem takeW_at (tab : FVec Ideal S32000x256 .f32) (x : IVec S4x2048 32) (hlo : ∀ i, -(32000 : Int) ≤ (x i).toInt) (hhi : ∀ i, (x i).toInt < 32000) (p : Fin 4) (q : Fin 2048) (k : Fin 256) :
    takeW tab x (ix3 p q k) = tab (ix2 (Cert.Spec.wrapIdx 32000 (by decide) (x (ix2 p q))) k) := by
  have hm : broadcastInDim S4x2048x256 ![0, 1] bcast_S4x2048_S4x2048x256_0_1 (maskW x) (ix3 p q k) = 1#1 :=
    (broadcastInDim_apply _ _ _ _ (ix2 p q) (fun a => by
      match a with
      | ⟨0, _⟩ => exact (if_neg (by show ¬ ((4 : ℕ) = 1); decide)).symm
      | ⟨1, _⟩ => exact (if_neg (by show ¬ ((2048 : ℕ) = 1); decide)).symm)).trans (maskW_one x hlo hhi _)
  have hs : startW x (ix3 p q (0 : Fin 1))
      = Scalar.select (IntOp.cmpi .slt (x (ix2 p q)) 0#32) (IntOp.addi (x (ix2 p q)) (BitVec.ofNat 32 32000)) (x (ix2 p q)) :=
    (startW_at x p q 0).trans (wrapW_at x p q)
  unfold takeW
  rw [select_apply, hm, select_one]
  refine (Cert.Lib.gather_rows3 gather_S32000x256_S4x2048x1_S4x2048x256_2_0_n_n_0_2_1256 rfl rfl rfl rfl rfl tab (startW x) p q k
    (by decide)).trans ?_
  refine congrArg (fun r : Fin 32000 => tab (ix2 r k)) (Fin.ext ?_)
  show min (startW x (ix3 p q (0 : Fin 1))).toInt.toNat (32000 - 1) = _
  rw [hs]
  rfl

theorem after_v4 (V : Valuation τ sig (Elt Ideal)) :
    (StableHlo.after hostOps0_1 V (Proc.devRef .tc main_v4) : S8192x256.Idx → EReal)
      = shapeCast S8192x256
          (addf (F := Ideal) (φ := .f32) (V (Proc.devRef .tc main_v0) : S4x2048x256.Idx → EReal)
            (broadcastInDim S4x2048x256 ![0, 1, 2] bcast_S1x2048x256_S4x2048x256_0_1_2
              (broadcastInDim S1x2048x256 ![1, 2] bcast_S2048x256_S1x2048x256_1_2
                (V (Proc.devRef .tc main_arg3) : S2048x256.Idx → EReal))))
          shapeCasts_S4x2048x256_S8192x256 := by
  after_results; rfl

theorem pos_bcast_at (pos : FVec Ideal S2048x256 .f32) (b : Fin 4) (t : Fin 2048) (k : Fin 256) :
    broadcastInDim S4x2048x256 ![0, 1, 2] bcast_S1x2048x256_S4x2048x256_0_1_2
      (broadcastInDim S1x2048x256 ![1, 2] bcast_S2048x256_S1x2048x256_1_2 pos) (ix3 b t k) = pos (ix2 t k) :=
  (broadcastInDim_apply _ _ _ _ (ix3 (0 : Fin 1) t k) (fun a => by
    match a with
    | ⟨0, _⟩ => exact (if_pos (by show (1 : ℕ) = 1; rfl)).symm
    | ⟨1, _⟩ => exact (if_neg (by show ¬ ((2048 : ℕ) = 1); decide)).symm
    | ⟨2, _⟩ => exact (if_neg (by show ¬ ((256 : ℕ) = 1); decide)).symm)).trans
  (broadcastInDim_apply _ _ _ _ (ix2 t k) (fun a => by
    match a with
    | ⟨0, _⟩ => exact (if_neg (by show ¬ ((2048 : ℕ) = 1); decide)).symm
    | ⟨1, _⟩ => exact (if_neg (by show ¬ ((256 : ℕ) = 1); decide)).symm))

theorem add_real (a b : EReal) (x y : ℝ) (ha : a = (x : EReal)) (hb : b = (y : EReal)) :
    FloatOps.addf (F := Ideal) (φ := .f32) a b = ((x + y : ℝ) : EReal) := by
  subst ha hb
  exact (EReal.coe_add x y).symm

theorem entry0_h (hG : kGood m c) (r : Fin 8192) (k : Fin 256) :
    (W2 m c main_v4 : S8192x256.Idx → EReal) (ix2 r k)
      = ((Cert.Spec.emb (kI m c) (Cert.Spec.rowB r) (Cert.Spec.rowT r) k : ℝ) : EReal) := by
  have e3 : (W1 m c main_arg3 : S2048x256.Idx → EReal) = m ((c.tc : Thread nD τ).loc main_arg3) :=
    W1_unwritten m c main_arg3 (by decide)
  have hv0 : (W1 m c main_v0 : S4x2048x256.Idx → EReal) (ix3 (Cert.Spec.rowB r) (Cert.Spec.rowT r) k)
      = m ((c.tc : Thread nD τ).loc main_arg2)
          (ix2 (Cert.Spec.wrapIdx 32000 (by decide) (m ((c.tc : Thread nD τ).loc main_arg0) (ix2 (Cert.Spec.rowB r) (Cert.Spec.rowT r)))) k) :=
    (congrFun (after_v0 (W0 m c)) _).trans
      (takeW_at (m ((c.tc : Thread nD τ).loc main_arg2)) (m ((c.tc : Thread nD τ).loc main_arg0)) hG.x_lo hG.x_hi _ _ k)
  refine (congrFun (after_v4 (W1 m c)) (ix2 r k)).trans ?_
  refine (shapeCast_apply _ _ _ (ix3 (Cert.Spec.rowB r) (Cert.Spec.rowT r) k) (by
    rw [Shape.rowMajor_val_three, Shape.rowMajor_val_two]
    show (r.val / 2048 * 2048 + r.val % 2048) * 256 + k.val = r.val * 256 + k.val
    omega)).trans ?_
  exact add_real _ _ _ _ (hv0.trans (hG.tok_real _))
    ((pos_bcast_at _ _ _ k).trans ((congrFun e3 _).trans (hG.pos_real _)))

end Cert.KernelIdeal.Val

end
-- ==== Proof.KI.GlueB.lean ====
import proofs.«413320_j45251775431036_3_alg».proof.Proof.KI.Inputs
import proofs.«413320_j45251775431036_3_alg».proof.Proof.KI.Args
import Idealize.ShloMosaic.Lib.Pipeline.Value
import Idealize.ShloMosaic.Lib.ValueIdx
set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

section

variable (b : Fin 4) (t : Fin 2048) (d : Fin 256)

theorem pos_rows :
    (S8192x256.rowMajor (ix2 (Cert.Spec.rowOf b t) d)).val = (S4x2048x256.rowMajor (ix3 b t d)).val := by
  rw [Shape.rowMajor_val_two, Shape.rowMajor_val_three]
  rfl

theorem entry1_q :
    (W4 m c main_v9 : S4x2048x256.Idx → EReal) (ix3 b t d)
      = (W3 m c main_v8_0 : S8192x256.Idx → EReal) (ix2 (Cert.Spec.rowOf b t) d) := by
  have e : (W4 m c main_v9 : S4x2048x256.Idx → EReal)
      = shapeCast S4x2048x256 (W3 m c main_v8_0 : S8192x256.Idx → EReal) shapeCasts_S8192x256_S4x2048x256 := by
    show StableHlo.after hostOps1 (W3 m c) (Proc.devRef .tc main_v9) = _
    after_results
    rfl
  rw [e]
  exact shapeCast_apply _ _ _ _ (pos_rows b t d)

theorem entry1_k :
    (W4 m c main_v10 : S4x2048x256.Idx → EReal) (ix3 b t d)
      = (W3 m c main_v8_1 : S8192x256.Idx → EReal) (ix2 (Cert.Spec.rowOf b t) d) := by
  have e : (W4 m c main_v10 : S4x2048x256.Idx → EReal)
      = shapeCast S4x2048x256 (W3 m c main_v8_1 : S8192x256.Idx → EReal) shapeCasts_S8192x256_S4x2048x256 := by
    show StableHlo.after hostOps1 (W3 m c) (Proc.devRef .tc main_v10) = _
    after_results
    rfl
  rw [e]
  exact shapeCast_apply _ _ _ _ (pos_rows b t d)

theorem entry1_v :
    (W4 m c main_v11 : S4x2048x256.Idx → EReal) (ix3 b t d)
      = (W3 m c main_v8_2 : S8192x256.Idx → EReal) (ix2 (Cert.Spec.rowOf b t) d) := by
  have e : (W4 m c main_v11 : S4x2048x256.Idx → EReal)
      = shapeCast S4x2048x256 (W3 m c main_v8_2 : S8192x256.Idx → EReal) shapeCasts_S8192x256_S4x2048x256 := by
    show StableHlo.after hostOps1 (W3 m c) (Proc.devRef .tc main_v11) = _
    after_results
    rfl
  rw [e]
  exact shapeCast_apply _ _ _ _ (pos_rows b t d)

end

theorem rows_pos (r : Fin 8192) (d : Fin 256) :
    (S4x2048x256.rowMajor (ix3 (Cert.Spec.rowB r) (Cert.Spec.rowT r) d)).val = (S8192x256.rowMajor (ix2 r d)).val := by
  rw [Shape.rowMajor_val_two, Shape.rowMajor_val_three]
  show (r.val / 2048 * 2048 + r.val % 2048) * 256 + d.val = r.val * 256 + d.val
  omega

theorem entry2_x (r : Fin 8192) (d : Fin 256) :
    (W6 m c main_v13 : S8192x256.Idx → EReal) (ix2 r d)
      = (W5 m c main_v12 : S4x2048x256.Idx → EReal) (ix3 (Cert.Spec.rowB r) (Cert.Spec.rowT r) d) := by
  have e : (W6 m c main_v13 : S8192x256.Idx → EReal)
      = shapeCast S8192x256 (W5 m c main_v12 : S4x2048x256.Idx → EReal) shapeCasts_S4x2048x256_S8192x256 := by
    show StableHlo.after hostOps2 (W5 m c) (Proc.devRef .tc main_v13) = _
    after_results
    rfl
  rw [e]
  exact shapeCast_apply _ _ _ _ (rows_pos r d)

theorem entry2_w (hG : kGood m c) (k : Fin 256) (v : Fin 32000) :
    (W6 m c main_v14 : S256x32000.Idx → EReal) (ix2 k v) = (((kI m c).Wp k v : ℝ) : EReal) := by
  have e : (W6 m c main_v14 : S256x32000.Idx → EReal) = (W5 m c main_arg10 : S256x32000.Idx → EReal) := by
    show StableHlo.after hostOps2 (W5 m c) (Proc.devRef .tc main_v14) = _
    after_results
    rfl
  rw [e, W5_launch m c main_arg10 (by decide) (by decide) (by decide) (by decide) (by decide)]
  exact hG.Wp_real (ix2 k v)

theorem entry2_b (hG : kGood m c) (v : Fin 32000) :
    (W6 m c main_v15 : S1x32000.Idx → EReal) (ix2 (0 : Fin 1) v) = (((kI m c).bp v : ℝ) : EReal) := by
  have e : (W6 m c main_v15 : S1x32000.Idx → EReal)
      = shapeCast S1x32000 (W5 m c main_arg11 : S32000.Idx → EReal) shapeCasts_S32000_S1x32000 := by
    show StableHlo.after hostOps2 (W5 m c) (Proc.devRef .tc main_v15) = _
    after_results
    rfl
  have hpos : (S32000.rowMajor (ix1 v)).val = (S1x32000.rowMajor (ix2 (0 : Fin 1) v)).val := by
    rw [Shape.rowMajor_val_one, Shape.rowMajor_val_two]
    show v.val = 0 * 32000 + v.val
    omega
  rw [e, shapeCast_apply _ _ _ (ix1 v) hpos, W5_launch m c main_arg11 (by decide) (by decide) (by decide) (by decide) (by decide)]
  exact hG.bp_real (ix1 v)

end Cert.KernelIdeal.Val

end
-- ==== Proof.KI.Tiles.lean ====
import Idealize.ShloMosaic.PureOps.Ideal
import Idealize.ShloMosaic.Lib.ValueIdx

noncomputable section

open scoped BigOperators

namespace Cert.Tiles

open Idealize.ShloMosaic Idealize.ShloMosaic.ValueIdx

abbrev U4x512x256 : Shape := ⟨3, ![4, 512, 256]⟩

abbrev U2048x256 : Shape := ⟨2, ![2048, 256]⟩

abbrev U256x640 : Shape := ⟨2, ![256, 640]⟩

abbrev U1x640 : Shape := ⟨2, ![1, 640]⟩

abbrev sixteenth : EReal := Ideal.ofBits .f32 0x3D800000#32

section

variable (qi ki : Nat)

section

variable (q k : U4x512x256.Idx → EReal)

def tScore (b : Fin 4) (r j : Fin 512) : EReal :=
  if 512 * ki + j.val ≤ 512 * qi + r.val then (∑ d : Fin 256, q (ix3 b r d) * k (ix3 b j d)) * sixteenth else ⊥

def tMax (b : Fin 4) (r : Fin 512) : EReal :=
  Finset.univ.sup fun j : Fin 512 => tScore qi ki q k b r j

def aMax (M : EReal) (b : Fin 4) (r : Fin 512) : EReal :=
  max M (tMax qi ki q k b r)

def aSum (M L : EReal) (b : Fin 4) (r : Fin 512) : EReal :=
  Ideal.exp (M - aMax qi ki q k M b r) * L + ∑ j : Fin 512, Ideal.exp (tScore qi ki q k b r j - aMax qi ki q k M b r)

end

def aAcc (q k v : U4x512x256.Idx → EReal) (M A : EReal) (b : Fin 4) (r : Fin 512) (d : Fin 256) : EReal :=
  Ideal.exp (M - aMax qi ki q k M b r) * A
    + ∑ j : Fin 512, Ideal.exp (tScore qi ki q k b r j - aMax qi ki q k M b r) * v (ix3 b j d)

end

section

variable (x : U2048x256.Idx → EReal) (w : U256x640.Idx → EReal) (bias : U1x640.Idx → EReal)

def pLogit (r : Fin 2048) (j : Fin 640) : EReal :=
  (∑ c : Fin 256, x (ix2 r c) * w (ix2 c j)) + bias (ix2 (0 : Fin 1) j)

def pTMax (r : Fin 2048) : EReal :=
  Finset.univ.sup fun j : Fin 640 => pLogit x w bias r j

def pMax (M : EReal) (r : Fin 2048) : EReal :=
  max M (pTMax x w bias r)

def pSum (M L : EReal) (r : Fin 2048) : EReal :=
  Ideal.exp (M - pMax x w bias M r) * L + ∑ j : Fin 640, Ideal.exp (pLogit x w bias r j - pMax x w bias M r)

end

end Cert.Tiles

end
-- ==== Proof.KI.Val1Math.lean ====
import proofs.«413320_j45251775431036_3_alg».proof.Proof.KI.Tiles
import proofs.«413320_j45251775431036_3_alg».proof.Proof.Spec
import proofs.«413320_j45251775431036_3_alg».proof.Proof.LibOnlineSoftmax

noncomputable section

open scoped BigOperators

namespace Cert.KernelIdeal.Val

open Cert.Tiles Cert.Lib.OnlineSoftmax
open Idealize.ShloMosaic Idealize.ShloMosaic.ValueIdx

theorem sixteenth_eq : sixteenth = ((1 / 16 : ℝ) : EReal) := by
  simp [Ideal.ofBits, Ideal.ieee, -EReal.coe_mul]; norm_num

def rowAt (qi : ℕ) (hqi : qi < 4) (r : Fin 512) : Fin 2048 := ⟨512 * qi + r.val, by omega⟩

def keyAt (ki : ℕ) (hki : ki < 4) (j : Fin 512) : Fin 2048 := ⟨512 * ki + j.val, by omega⟩

section
variable (t : Fin 2048)

def tileKeys (ki : ℕ) : Finset (Fin 2048) :=
  Finset.univ.filter fun u => 512 * ki ≤ u.val ∧ u.val < 512 * (ki + 1) ∧ u.val ≤ t.val

def seenBelow (k : ℕ) : Finset (Fin 2048) :=
  Finset.univ.filter fun u => u.val < 512 * k ∧ u.val ≤ t.val

theorem seenBelow_zero : seenBelow t 0 = ∅ := by
  ext u; simp [seenBelow]

theorem seenBelow_succ (k : ℕ) : seenBelow t (k + 1) = seenBelow t k ∪ tileKeys t k := by
  ext u
  simp only [seenBelow, tileKeys, Finset.mem_union, Finset.mem_filter, Finset.mem_univ, true_and]
  omega

theorem seenBelow_disjoint (k : ℕ) : Disjoint (seenBelow t k) (tileKeys t k) := by
  rw [Finset.disjoint_left]
  intro u hu hu'
  simp only [seenBelow, tileKeys, Finset.mem_filter, Finset.mem_univ, true_and] at hu hu'
  omega

theorem tileKeys_nonempty (k : ℕ) (h : 512 * k ≤ t.val) : (tileKeys t k).Nonempty :=
  ⟨⟨512 * k, by have := t.isLt; omega⟩, by simp [tileKeys]; omega⟩

theorem seenBelow_all (k : ℕ) (h : t.val < 512 * k) : seenBelow t k = Cert.Spec.vis t := by
  ext u
  simp only [seenBelow, Cert.Spec.vis, Finset.mem_filter, Finset.mem_univ, true_and]
  omega

end

section Lanes

variable (t : Fin 2048) (ki : ℕ) (hki : ki < 4)

theorem tile_sum (g : Fin 2048 → EReal) :
    (∑ j : Fin 512, if 512 * ki + j.val ≤ t.val then g (keyAt ki hki j) else 0) = ∑ u ∈ tileKeys t ki, g u := by
  rw [← Finset.sum_filter]
  refine Finset.sum_bij (fun j _ => keyAt ki hki j) ?_ ?_ ?_ ?_
  · intro j hj
    simp only [Finset.mem_filter, Finset.mem_univ, true_and] at hj
    simp only [tileKeys, keyAt, Finset.mem_filter, Finset.mem_univ, true_and]
    have := j.isLt
    omega
  · intro j _ j' _ h
    have := congrArg Fin.val h
    simp only [keyAt] at this
    exact Fin.ext (by omega)
  · intro u hu
    simp only [tileKeys, Finset.mem_filter, Finset.mem_univ, true_and] at hu
    refine ⟨⟨u.val - 512 * ki, by omega⟩, ?_, ?_⟩
    · simp only [Finset.mem_filter, Finset.mem_univ, true_and]; omega
    · apply Fin.ext; simp only [keyAt]; omega
  · intro j _; rfl

theorem tile_sup (g : Fin 2048 → EReal) :
    (Finset.univ.sup fun j : Fin 512 => if 512 * ki + j.val ≤ t.val then g (keyAt ki hki j) else ⊥) = (tileKeys t ki).sup g := by
  apply le_antisymm
  · refine Finset.sup_le fun j _ => ?_
    split_ifs with h
    · refine Finset.le_sup (f := g) ?_
      simp only [tileKeys, keyAt, Finset.mem_filter, Finset.mem_univ, true_and]
      have := j.isLt
      omega
    · exact bot_le
  · refine Finset.sup_le fun u hu => ?_
    simp only [tileKeys, Finset.mem_filter, Finset.mem_univ, true_and] at hu
    have e : u = keyAt ki hki ⟨u.val - 512 * ki, by omega⟩ := by apply Fin.ext; simp only [keyAt]; omega
    refine le_trans ?_ (Finset.le_sup (f := fun j : Fin 512 => if 512 * ki + j.val ≤ t.val then g (keyAt ki hki j) else ⊥)
      (Finset.mem_univ ⟨u.val - 512 * ki, by omega⟩))
    dsimp only
    rw [if_pos (by omega), ← e]

end Lanes

section Step

variable (I : Cert.Spec.Inp) (qi ki : ℕ) (hqi : qi < 4) (hki : ki < 4) (q k v : U4x512x256.Idx → EReal)

variable (hq : ∀ (b : Fin 4) (r : Fin 512) (d : Fin 256), q (ix3 b r d) = ((Cert.Spec.qv I b (rowAt qi hqi r) d : ℝ) : EReal))

variable (hk : ∀ (b : Fin 4) (j : Fin 512) (d : Fin 256), k (ix3 b j d) = ((Cert.Spec.kv I b (keyAt ki hki j) d : ℝ) : EReal))

variable (hv : ∀ (b : Fin 4) (j : Fin 512) (d : Fin 256), v (ix3 b j d) = ((Cert.Spec.vv I b (keyAt ki hki j) d : ℝ) : EReal))

def xs (b : Fin 4) (t : Fin 2048) : Fin 2048 → EReal := fun u => ((Cert.Spec.score I b t u : ℝ) : EReal)

def vs (b : Fin 4) (d : Fin 256) : Fin 2048 → EReal := fun u => ((Cert.Spec.vv I b u d : ℝ) : EReal)

def w0 : Fin 2048 → EReal := fun _ => 0

theorem xs_real (b : Fin 4) (t : Fin 2048) : ∀ p, IsReal (xs I b t p) := fun p => ⟨_, rfl⟩

theorem vs_real (b : Fin 4) (d : Fin 256) : ∀ p, IsReal (vs I b d p) := fun p => ⟨_, rfl⟩

theorem w0_real : ∀ p, IsReal (w0 p) := fun _ => ⟨0, rfl⟩

include hq hk in

theorem tScore_eq (b : Fin 4) (r j : Fin 512) :
    tScore qi ki q k b r j
      = if 512 * ki + j.val ≤ (rowAt qi hqi r).val then xs I b (rowAt qi hqi r) (keyAt ki hki j) else ⊥ := by
  unfold tScore
  by_cases h : 512 * ki + j.val ≤ 512 * qi + r.val
  · rw [if_pos h, if_pos (show 512 * ki + j.val ≤ (rowAt qi hqi r).val from h)]
    simp only [hq, hk, sixteenth_eq, ← EReal.coe_mul, ← coe_finset_sum, xs, Cert.Spec.score]
    congr 1
    ring
  · rw [if_neg h, if_neg (show ¬ 512 * ki + j.val ≤ (rowAt qi hqi r).val from h)]

include hq hk in

theorem aMax_eq (b : Fin 4) (r : Fin 512) (S : Finset (Fin 2048)) (M : EReal) (hM : M = S.sup (xs I b (rowAt qi hqi r))) :
    aMax qi ki q k M b r = (S ∪ tileKeys (rowAt qi hqi r) ki).sup (xs I b (rowAt qi hqi r)) := by
  unfold aMax tMax
  simp only [tScore_eq I qi ki hqi hki q k hq hk]
  rw [tile_sup (rowAt qi hqi r) ki hki (xs I b (rowAt qi hqi r)), hM]
  exact step_max _ _ _

theorem exp_bot_sub (M : EReal) : Ideal.exp (⊥ - M) = 0 := by
  rw [sub_eq_add_neg, EReal.bot_add]; rfl

include hq hk in

theorem aSum_eq (b : Fin 4) (r : Fin 512) (S : Finset (Fin 2048)) (M L : EReal) (hne : (tileKeys (rowAt qi hqi r) ki).Nonempty) (hdis : Disjoint S (tileKeys (rowAt qi hqi r) ki)) (hM : M = S.sup (xs I b (rowAt qi hqi r))) (hL : L = ∑ u ∈ S, wt (xs I b (rowAt qi hqi r)) w0 M u) :
    aSum qi ki q k M L b r
      = ∑ u ∈ S ∪ tileKeys (rowAt qi hqi r) ki,
          wt (xs I b (rowAt qi hqi r)) w0 ((S ∪ tileKeys (rowAt qi hqi r) ki).sup (xs I b (rowAt qi hqi r))) u := by
  unfold aSum
  rw [aMax_eq I qi ki hqi hki q k hq hk b r S M hM]
  have e : ∀ j : Fin 512, Ideal.exp (tScore qi ki q k b r j - (S ∪ tileKeys (rowAt qi hqi r) ki).sup (xs I b (rowAt qi hqi r)))
      = if 512 * ki + j.val ≤ (rowAt qi hqi r).val
          then wt (xs I b (rowAt qi hqi r)) w0 ((S ∪ tileKeys (rowAt qi hqi r) ki).sup (xs I b (rowAt qi hqi r))) (keyAt ki hki j)
          else 0 := by
    intro j
    rw [tScore_eq I qi ki hqi hki q k hq hk]
    split_ifs with h
    · simp only [wt, w0, add_zero]
    · exact exp_bot_sub _
  simp only [e]
  rw [tile_sum (rowAt qi hqi r) ki hki, hL, hM]
  exact step_sum _ _ (xs_real I b _) w0_real S _ hdis hne

include hq hk hv in

theorem aAcc_eq (b : Fin 4) (r : Fin 512) (d : Fin 256) (S : Finset (Fin 2048)) (M A : EReal) (hne : (tileKeys (rowAt qi hqi r) ki).Nonempty) (hdis : Disjoint S (tileKeys (rowAt qi hqi r) ki)) (hM : M = S.sup (xs I b (rowAt qi hqi r))) (hA : A = ∑ u ∈ S, wt (xs I b (rowAt qi hqi r)) w0 M u * vs I b d u) :
    aAcc qi ki q k v M A b r d
      = ∑ u ∈ S ∪ tileKeys (rowAt qi hqi r) ki,
          wt (xs I b (rowAt qi hqi r)) w0 ((S ∪ tileKeys (rowAt qi hqi r) ki).sup (xs I b (rowAt qi hqi r))) u * vs I b d u := by
  unfold aAcc
  rw [aMax_eq I qi ki hqi hki q k hq hk b r S M hM]
  have e : ∀ j : Fin 512, Ideal.exp (tScore qi ki q k b r j - (S ∪ tileKeys (rowAt qi hqi r) ki).sup (xs I b (rowAt qi hqi r))) * v (ix3 b j d)
      = if 512 * ki + j.val ≤ (rowAt qi hqi r).val
          then wt (xs I b (rowAt qi hqi r)) w0 ((S ∪ tileKeys (rowAt qi hqi r) ki).sup (xs I b (rowAt qi hqi r))) (keyAt ki hki j)
            * vs I b d (keyAt ki hki j)
          else 0 := by
    intro j
    rw [tScore_eq I qi ki hqi hki q k hq hk]
    split_ifs with h
    · simp only [wt, w0, add_zero, vs, hv]
    · rw [exp_bot_sub, zero_mul]
  simp only [e]
  rw [tile_sum (rowAt qi hqi r) ki hki (fun u => wt (xs I b (rowAt qi hqi r)) w0 ((S ∪ tileKeys (rowAt qi hqi r) ki).sup (xs I b (rowAt qi hqi r))) u * vs I b d u), hA, hM]
  exact step_acc _ _ _ (xs_real I b _) w0_real (vs_real I b d) S _ hdis hne

end Step

section Final

variable (I : Cert.Spec.Inp)

theorem sup_xs_vis (b : Fin 4) (t : Fin 2048) :
    (Cert.Spec.vis t).sup (xs I b t) = ((Cert.Spec.rowMax I b t : ℝ) : EReal) := by
  apply le_antisymm
  · refine Finset.sup_le fun u hu => ?_
    exact EReal.coe_le_coe_iff.mpr (Finset.le_sup' (Cert.Spec.score I b t) hu)
  · obtain ⟨p, hp, e⟩ := Finset.exists_mem_eq_sup' (Cert.Spec.vis_nonempty t) (Cert.Spec.score I b t)
    unfold Cert.Spec.rowMax
    rw [e]
    exact Finset.le_sup (f := xs I b t) hp

theorem quot_eq (b : Fin 4) (t : Fin 2048) (d : Fin 256) (M L A : EReal) (hM : M = (Cert.Spec.vis t).sup (xs I b t)) (hL : L = ∑ u ∈ Cert.Spec.vis t, wt (xs I b t) w0 M u) (hA : A = ∑ u ∈ Cert.Spec.vis t, wt (xs I b t) w0 M u * vs I b d u) :
    Ideal.div A L = ((Cert.Spec.ctx I b t d : ℝ) : EReal) := by
  rw [sup_xs_vis] at hM
  have hL' : L = ((Cert.Spec.den I b t : ℝ) : EReal) := by
    rw [hL, hM]
    simp only [wt, w0, xs, add_zero, ← EReal.coe_sub, Ideal.exp_coe, ← coe_finset_sum]
    rfl
  have hA' : A = ((∑ u ∈ Cert.Spec.vis t, Cert.Spec.wgt I b t u * Cert.Spec.vv I b u d : ℝ) : EReal) := by
    rw [hA, hM]
    simp only [wt, w0, xs, vs, add_zero, ← EReal.coe_sub, Ideal.exp_coe, ← EReal.coe_mul, ← coe_finset_sum]
    rfl
  rw [hL', hA', Ideal.div_coe (ne_of_gt (Cert.Spec.den_pos I b t)), ← EReal.coe_mul]
  congr 1
  unfold Cert.Spec.ctx
  rw [Finset.sum_mul]
  refine Finset.sum_congr rfl fun u _ => ?_
  ring

end Final

end Cert.KernelIdeal.Val

end
-- ==== Proof.KI.Val1Blocks.lean ====
import proofs.«413320_j45251775431036_3_alg».proof.Proof.KI.Base
import Idealize.ShloMosaic.Lib.Pipeline.Value
import Idealize.ShloMosaic.Lib.ValueIdx
set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

theorem coords1 : ∀ t : Fin cfg1.N, ((grid1.coords t) 0).val = t.val / 4 ∧ ((grid1.coords t) 1).val = t.val % 4 :=
  (by decide +kernel : ∀ t : Fin grid1.N, _)

theorem lt16 (t : Fin cfg1.N) : t.val < 16 := by
  have h := t.isLt
  have hN : cfg1.N = 16 := N_1
  omega

theorem idx1 : ∀ t : Fin cfg1.N,
    win1_0.index t (0 : Fin 3) = 0 ∧ win1_0.index t (1 : Fin 3) = t.val / 4 ∧ win1_0.index t (2 : Fin 3) = 0
    ∧ win1_1.index t (0 : Fin 3) = 0 ∧ win1_1.index t (1 : Fin 3) = min (t.val % 4) (t.val / 4) ∧ win1_1.index t (2 : Fin 3) = 0
    ∧ win1_2.index t (0 : Fin 3) = 0 ∧ win1_2.index t (1 : Fin 3) = min (t.val % 4) (t.val / 4) ∧ win1_2.index t (2 : Fin 3) = 0
    ∧ win1_3.index t (0 : Fin 3) = 0 ∧ win1_3.index t (1 : Fin 3) = t.val / 4 ∧ win1_3.index t (2 : Fin 3) = 0 :=
  (by decide +kernel : ∀ t : Fin grid1.N, _)

variable (V : (c : Dev nD) → (b : Ref sig .tc) → Buf (Elt Ideal) ((c : Thread nD τ).loc b))

section
variable (c : Dev nD)

section
variable (t : Fin cfg1.N)

section
variable (y : S4x512x256.Idx) (i : S4x2048x256.Idx)

theorem b1_0_apply (h0 : (i 0).val = (y 0).val) (h1 : (i 1).val = 512 * (t.val / 4) + (y 1).val) (h2 : (i 2).val = (y 2).val) :
    (b1_0 V c t : S4x512x256.Idx → EReal) y = (V c main_v9 : S4x2048x256.Idx → EReal) i := by
  obtain ⟨e0, e1, e2, -⟩ := idx1 t
  unfold b1_0 iblk1
  rw [View.read_apply]
  show V c main_v9 _ = V c main_v9 _
  congr 1
  funext a
  apply Fin.ext
  match a with
  | ⟨0, _⟩ => show win1_0.index t 0 * 4 + 1 * (y 0).val = (i 0).val; rw [e0, h0]; omega
  | ⟨1, _⟩ => show win1_0.index t 1 * 512 + 1 * (y 1).val = (i 1).val; rw [e1, h1]; omega
  | ⟨2, _⟩ => show win1_0.index t 2 * 256 + 1 * (y 2).val = (i 2).val; rw [e2, h2]; omega

theorem b1_1_apply (h0 : (i 0).val = (y 0).val) (h1 : (i 1).val = 512 * min (t.val % 4) (t.val / 4) + (y 1).val) (h2 : (i 2).val = (y 2).val) :
    (b1_1 V c t : S4x512x256.Idx → EReal) y = (V c main_v10 : S4x2048x256.Idx → EReal) i := by
  obtain ⟨-, -, -, e0, e1, e2, -⟩ := idx1 t
  unfold b1_1 iblk1
  rw [View.read_apply]
  show V c main_v10 _ = V c main_v10 _
  congr 1
  funext a
  apply Fin.ext
  match a with
  | ⟨0, _⟩ => show win1_1.index t 0 * 4 + 1 * (y 0).val = (i 0).val; rw [e0, h0]; omega
  | ⟨1, _⟩ => show win1_1.index t 1 * 512 + 1 * (y 1).val = (i 1).val; rw [e1, h1]; omega
  | ⟨2, _⟩ => show win1_1.index t 2 * 256 + 1 * (y 2).val = (i 2).val; rw [e2, h2]; omega

theorem b1_2_apply (h0 : (i 0).val = (y 0).val) (h1 : (i 1).val = 512 * min (t.val % 4) (t.val / 4) + (y 1).val) (h2 : (i 2).val = (y 2).val) :
    (b1_2 V c t : S4x512x256.Idx → EReal) y = (V c main_v11 : S4x2048x256.Idx → EReal) i := by
  obtain ⟨-, -, -, -, -, -, e0, e1, e2, -⟩ := idx1 t
  unfold b1_2 iblk1
  rw [View.read_apply]
  show V c main_v11 _ = V c main_v11 _
  congr 1
  funext a
  apply Fin.ext
  match a with
  | ⟨0, _⟩ => show win1_2.index t 0 * 4 + 1 * (y 0).val = (i 0).val; rw [e0, h0]; omega
  | ⟨1, _⟩ => show win1_2.index t 1 * 512 + 1 * (y 1).val = (i 1).val; rw [e1, h1]; omega
  | ⟨2, _⟩ => show win1_2.index t 2 * 256 + 1 * (y 2).val = (i 2).val; rw [e2, h2]; omega

end

theorem blk1_q (b : Fin 4) (r : Fin 512) (d : Fin 256) :
    (b1_0 V c t : S4x512x256.Idx → EReal) (ix3 b r d)
      = (V c main_v9 : S4x2048x256.Idx → EReal)
          (ix3 b (⟨512 * (t.val / 4) + r.val, by have := lt16 t; have := r.isLt; omega⟩ : Fin 2048) d) :=
  b1_0_apply V c t (ix3 b r d) _ rfl rfl rfl

theorem blk1_k (b : Fin 4) (j : Fin 512) (d : Fin 256) :
    (b1_1 V c t : S4x512x256.Idx → EReal) (ix3 b j d)
      = (V c main_v10 : S4x2048x256.Idx → EReal)
          (ix3 b (⟨512 * min (t.val % 4) (t.val / 4) + j.val, by have := lt16 t; have := j.isLt; omega⟩ : Fin 2048) d) :=
  b1_1_apply V c t (ix3 b j d) _ rfl rfl rfl

theorem blk1_v (b : Fin 4) (j : Fin 512) (d : Fin 256) :
    (b1_2 V c t : S4x512x256.Idx → EReal) (ix3 b j d)
      = (V c main_v11 : S4x2048x256.Idx → EReal)
          (ix3 b (⟨512 * min (t.val % 4) (t.val / 4) + j.val, by have := lt16 t; have := j.isLt; omega⟩ : Fin 2048) d) :=
  b1_2_apply V c t (ix3 b j d) _ rfl rfl rfl

end

def out1 : S4x2048x256.Idx → EReal := fun i =>
  (o1_3 V c ⟨4 * ((i 1).val / 512) + 3, by
      have h : (i 1).val < 2048 := (i 1).isLt
      have hN : cfg1.N = 16 := N_1
      omega⟩ : S4x512x256.Idx → EReal)
    (ix3 (i 0 : Fin 4) (⟨(i 1).val % 512, by omega⟩ : Fin 512) (i 2 : Fin 256))

theorem o1_3_congr {t t' : Fin cfg1.N} {y y' : S4x512x256.Idx} (ht : t.val = t'.val) (hy : ∀ a, (y a).val = (y' a).val) :
    (o1_3 V c t : S4x512x256.Idx → EReal) y = (o1_3 V c t' : S4x512x256.Idx → EReal) y' := by
  obtain rfl : t = t' := Fin.ext ht
  obtain rfl : y = y' := funext fun a => Fin.ext (hy a)
  rfl

theorem tile1_3 (t : Fin cfg1.N) (h3 : t.val % 4 = 3) (y : S4x512x256.Idx) (i : S4x2048x256.Idx) (h0 : (i 0).val = (y 0).val) (h1 : (i 1).val = 512 * (t.val / 4) + (y 1).val) (h2 : (i 2).val = (y 2).val) :
    (o1_3 V c t : S4x512x256.Idx → EReal) y = out1 V c i := by
  have hy1 : (y 1).val < 512 := (y 1).isLt
  unfold out1
  refine o1_3_congr V c ?_ ?_
  · show t.val = 4 * ((i 1).val / 512) + 3
    rw [h1]; omega
  · intro a
    match a with
    | ⟨0, _⟩ => show (y 0).val = (i 0).val; exact h0.symm
    | ⟨1, _⟩ => show (y 1).val = (i 1).val % 512; rw [h1]; omega
    | ⟨2, _⟩ => show (y 2).val = (i 2).val; exact h2.symm

theorem flushed1_3_eq (t : Fin cfg1.N) (hf : (cfg1.win 3).flush t = true) :
    (dat1 V c).flushed 3 t = ((cfg1.win 3).blk t).view.read (Elt Ideal) (out1 V c) := by
  obtain ⟨-, -, -, -, -, -, -, -, -, e0, e1, e2⟩ := idx1 t
  have h3 : t.val % 4 = 3 := (flush1_3 t).mp hf
  show o1_3 V c t = _
  funext y
  rw [View.read_apply]
  refine tile1_3 V c t h3 y _ ?_ ?_ ?_
  · show win1_3.index t 0 * 4 + 1 * (y 0).val = _
    rw [e0]; omega
  · show win1_3.index t 1 * 512 + 1 * (y 1).val = _
    rw [e1]; omega
  · show win1_3.index t 2 * 256 + 1 * (y 2).val = _
    rw [e2]; omega

end

theorem mem_blk1_3 (t : Fin cfg1.N) (i : S4x2048x256.Idx) :
    i ∈ ((cfg1.win 3).blk t).view.set ↔ ∀ a : Fin 3, win1_3.index t a * S4x512x256.size a ≤ (i a).val ∧ (i a).val < win1_3.index t a * S4x512x256.size a + S4x512x256.size a := by
  show i ∈ ((View.whole main_v12).slice (win1_3.rect t)).set ↔ _
  rw [View.set_slice_whole, Rect.mem_set_unit]
  exact Iff.rfl

theorem cover1_3 (i : S4x2048x256.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 256 := (i 2).isLt
  have hN : cfg1.N = 16 := N_1
  obtain ⟨t, ht⟩ : ∃ t : Fin cfg1.N, t.val = 4 * ((i 1).val / 512) + 3 := ⟨⟨4 * ((i 1).val / 512) + 3, by omega⟩, rfl⟩
  obtain ⟨-, -, -, -, -, -, -, -, -, e0, e1, e2⟩ := idx1 t
  refine ⟨t, (flush1_3 t).mpr (by omega), ?_⟩
  rw [mem_blk1_3]
  intro a
  match a with
  | ⟨0, _⟩ =>
    show win1_3.index t 0 * 4 ≤ (i 0).val ∧ (i 0).val < win1_3.index t 0 * 4 + 4
    rw [e0]; omega
  | ⟨1, _⟩ =>
    show win1_3.index t 1 * 512 ≤ (i 1).val ∧ (i 1).val < win1_3.index t 1 * 512 + 512
    rw [e1, ht]; omega
  | ⟨2, _⟩ =>
    show win1_3.index t 2 * 256 ≤ (i 2).val ∧ (i 2).val < win1_3.index t 2 * 256 + 256
    rw [e2]; omega

theorem arr1_3 (c : Dev nD) : (dat1 V c).arrAt 3 cfg1.N = out1 V c :=
  (dat1 V c).arrAt_eq_of_cover 3 _ (fun t hf => flushed1_3_eq V c t hf) cover1_3

theorem cover1 (c : Dev nD) (qi : ℕ) (hqi : qi < 4) (b : Fin 4) (r : Fin 512) (d : Fin 256) :
    ((dat1 V c).arrAt 3 cfg1.N : S4x2048x256.Idx → EReal)
        (ix3 b (⟨512 * qi + r.val, by have := r.isLt; omega⟩ : Fin 2048) d)
      = (o1_3 V c ⟨4 * qi + 3, by have hN : cfg1.N = 16 := N_1; omega⟩ : S4x512x256.Idx → EReal) (ix3 b r d) := by
  have hr : r.val < 512 := r.isLt
  rw [arr1_3]
  unfold out1
  refine o1_3_congr V c ?_ ?_
  · show 4 * ((512 * qi + r.val) / 512) + 3 = 4 * qi + 3
    omega
  · intro a
    match a with
    | ⟨0, _⟩ => rfl
    | ⟨1, _⟩ => show (512 * qi + r.val) % 512 = r.val; omega
    | ⟨2, _⟩ => rfl

end Cert.KernelIdeal.Val

end
-- ==== Proof.KI.Val1Step.lean ====
import proofs.«413320_j45251775431036_3_alg».proof.Proof.KI.Base
import proofs.«413320_j45251775431036_3_alg».proof.Proof.KI.Tiles
import proofs.«413320_j45251775431036_3_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Val

open Cert.KernelIdeal Cert.KernelIdeal.Gen Cert.KernelIdeal.Hand Cert.Tiles
open Idealize.ShloMosaic Idealize.ShloMosaic.ValueIdx

section Layout

variable {α : Type}

theorem shapeCast_ab_ab1_apply {a b : ℕ} (x : (⟨2, ![a, b]⟩ : Shape).Idx → α) (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

theorem broadcastTo_ab1_abc_apply {a b c : ℕ} (x : (⟨3, ![a, b, 1]⟩ : Shape).Idx → α) (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

variable {φ : FTy}

theorem multiReduction_add_last {a b c : ℕ} (src : FVec Ideal ⟨3, ![a, b, c]⟩ φ) (acc : BitVec φ.bits) (h : (⟨3, ![a, b, c]⟩ : Shape).Reduces [2] ⟨2, ![a, b]⟩) (hφ : FKind.Formats φ) (hacc : acc = FKind.add.neutral φ hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = ∑ k : Fin c, src (ix3 i j k)
  refine Finset.sum_congr rfl fun k _ => congrArg src (funext fun ax => Fin.ext ?_)
  match ax with
  | ⟨0, _⟩ => rfl
  | ⟨1, _⟩ => rfl
  | ⟨2, _⟩ => rfl

theorem multiReduction_max_last {a b c : ℕ} (src : FVec Ideal ⟨3, ![a, b, c]⟩ φ) (acc : BitVec φ.bits) (h : (⟨3, ![a, b, c]⟩ : Shape).Reduces [2] ⟨2, ![a, b]⟩) (hφ : FKind.Formats φ) (hacc : acc = FKind.maximumf.neutral φ hφ) (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  refine (Ideal.multiReduction_maximumf_single src acc h hφ hacc (ix2 i j)).trans ?_
  show (Finset.univ : Finset (Fin c)).fold max (Ideal.ofBits φ acc) (fun k => src (h.lift (ix2 i j) k)) = _
  refine congrArg (fun f => (Finset.univ : Finset (Fin c)).fold max (Ideal.ofBits φ acc) f)
    (funext fun k => congrArg src (funext fun ax => Fin.ext ?_))
  match ax with
  | ⟨0, _⟩ => rfl
  | ⟨1, _⟩ => rfl
  | ⟨2, _⟩ => rfl

theorem add_last_f32 {a b c : ℕ} (src : FVec Ideal ⟨3, ![a, b, c]⟩ .f32) (h : (⟨3, ![a, b, c]⟩ : Shape).Reduces [2] ⟨2, ![a, b]⟩) (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last src _ h hφ hacc i j

theorem max_last_f32 {a b c : ℕ} (src : FVec Ideal ⟨3, ![a, b, c]⟩ .f32) (h : (⟨3, ![a, b, c]⟩ : Shape).Reduces [2] ⟨2, ![a, b]⟩) (hφ : FKind.Formats .f32) (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) :=
  multiReduction_max_last src _ h hφ hacc i j

end Layout

section
variable (i : S4x512x512.Idx) (q : dot_S4x512x256_S4x512x256_S4x512x512_2_2_1_1_0_0.contr.Idx)

theorem lhs_qk_0 :
    (dot_S4x512x256_S4x512x256_S4x512x512_2_2_1_1_0_0.lhsIdx i q 0).val = (i 0).val := by
  unfold DotDims.lhsIdx
  rw [dif_pos (show (0 : Fin S4x512x256.rank) ∈ dot_S4x512x256_S4x512x256_S4x512x512_2_2_1_1_0_0.lhsBatch by decide)]
  rfl

theorem lhs_qk_1 :
    (dot_S4x512x256_S4x512x256_S4x512x512_2_2_1_1_0_0.lhsIdx i q 1).val = (i 1).val := by
  unfold DotDims.lhsIdx
  rw [dif_neg (show ¬(1 : Fin S4x512x256.rank) ∈ dot_S4x512x256_S4x512x256_S4x512x512_2_2_1_1_0_0.lhsBatch by decide), dif_pos (show (1 : Fin S4x512x256.rank) ∈ dot_S4x512x256_S4x512x256_S4x512x512_2_2_1_1_0_0.lhsNonContracting by decide)]
  rfl

theorem lhs_qk_2 :
    (dot_S4x512x256_S4x512x256_S4x512x512_2_2_1_1_0_0.lhsIdx i q 2).val = (q ⟨0, by decide⟩).val :=
  dot_S4x512x256_S4x512x256_S4x512x512_2_2_1_1_0_0.lhsIdx_val_of_single rfl i q

theorem rhs_qk_0 :
    (dot_S4x512x256_S4x512x256_S4x512x512_2_2_1_1_0_0.rhsIdx i q 0).val = (i 0).val := by
  unfold DotDims.rhsIdx
  rw [dif_pos (show (0 : Fin S4x512x256.rank) ∈ dot_S4x512x256_S4x512x256_S4x512x512_2_2_1_1_0_0.rhsBatch by decide)]
  rfl

theorem rhs_qk_1 :
    (dot_S4x512x256_S4x512x256_S4x512x512_2_2_1_1_0_0.rhsIdx i q 1).val = (i 2).val := by
  unfold DotDims.rhsIdx
  rw [dif_neg (show ¬(1 : Fin S4x512x256.rank) ∈ dot_S4x512x256_S4x512x256_S4x512x512_2_2_1_1_0_0.rhsBatch by decide), dif_pos (show (1 : Fin S4x512x256.rank) ∈ dot_S4x512x256_S4x512x256_S4x512x512_2_2_1_1_0_0.rhsNonContracting by decide)]
  rfl

theorem rhs_qk_2 :
    (dot_S4x512x256_S4x512x256_S4x512x512_2_2_1_1_0_0.rhsIdx i q 2).val = (q ⟨0, by decide⟩).val :=
  dot_S4x512x256_S4x512x256_S4x512x512_2_2_1_1_0_0.rhsIdx_val_of_single rfl i q

end

theorem qk_apply (x y : FVec Ideal S4x512x256 .bf16) (b : Fin 4) (r j : Fin 512) :
    matmul dot_S4x512x256_S4x512x256_S4x512x512_2_2_1_1_0_0 none x y (constant (F := Ideal) S4x512x512 .f32 0x00000000#32) (ix3 b r j)
      = ∑ d : Fin 256, x (ix3 b r d) * y (ix3 b j d) := by
  simp only [matmul]
  rw [Ideal.matmul_constant_zero_apply, ← Equiv.sum_comp (contrEquiv1 dot_S4x512x256_S4x512x256_S4x512x512_2_2_1_1_0_0 256 rfl rfl).symm]
  refine Finset.sum_congr rfl fun k _ => ?_
  have hk := contrEquiv1_symm_val dot_S4x512x256_S4x512x256_S4x512x512_2_2_1_1_0_0 256 rfl rfl k
  have el : dot_S4x512x256_S4x512x256_S4x512x512_2_2_1_1_0_0.lhsIdx (ix3 b r j) ((contrEquiv1 dot_S4x512x256_S4x512x256_S4x512x512_2_2_1_1_0_0 256 rfl rfl).symm k) = ix3 b r k := funext fun a => Fin.ext (by
    match a with
    | ⟨0, _⟩ => exact lhs_qk_0 _ _
    | ⟨1, _⟩ => exact lhs_qk_1 _ _
    | ⟨2, _⟩ => exact (lhs_qk_2 _ _).trans hk)
  have er : dot_S4x512x256_S4x512x256_S4x512x512_2_2_1_1_0_0.rhsIdx (ix3 b r j) ((contrEquiv1 dot_S4x512x256_S4x512x256_S4x512x512_2_2_1_1_0_0 256 rfl rfl).symm k) = ix3 b j k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

section
variable (i : S4x512x256.Idx) (q : dot_S4x512x512_S4x512x256_S4x512x256_2_1_1_2_0_0.contr.Idx)

theorem lhs_pv_0 :
    (dot_S4x512x512_S4x512x256_S4x512x256_2_1_1_2_0_0.lhsIdx i q 0).val = (i 0).val := by
  unfold DotDims.lhsIdx
  rw [dif_pos (show (0 : Fin S4x512x512.rank) ∈ dot_S4x512x512_S4x512x256_S4x512x256_2_1_1_2_0_0.lhsBatch by decide)]
  rfl

theorem lhs_pv_1 :
    (dot_S4x512x512_S4x512x256_S4x512x256_2_1_1_2_0_0.lhsIdx i q 1).val = (i 1).val := by
  unfold DotDims.lhsIdx
  rw [dif_neg (show ¬(1 : Fin S4x512x512.rank) ∈ dot_S4x512x512_S4x512x256_S4x512x256_2_1_1_2_0_0.lhsBatch by decide), dif_pos (show (1 : Fin S4x512x512.rank) ∈ dot_S4x512x512_S4x512x256_S4x512x256_2_1_1_2_0_0.lhsNonContracting by decide)]
  rfl

theorem lhs_pv_2 :
    (dot_S4x512x512_S4x512x256_S4x512x256_2_1_1_2_0_0.lhsIdx i q 2).val = (q ⟨0, by decide⟩).val :=
  dot_S4x512x512_S4x512x256_S4x512x256_2_1_1_2_0_0.lhsIdx_val_of_single rfl i q

theorem rhs_pv_0 :
    (dot_S4x512x512_S4x512x256_S4x512x256_2_1_1_2_0_0.rhsIdx i q 0).val = (i 0).val := by
  unfold DotDims.rhsIdx
  rw [dif_pos (show (0 : Fin S4x512x256.rank) ∈ dot_S4x512x512_S4x512x256_S4x512x256_2_1_1_2_0_0.rhsBatch by decide)]
  rfl

theorem rhs_pv_1 :
    (dot_S4x512x512_S4x512x256_S4x512x256_2_1_1_2_0_0.rhsIdx i q 1).val = (q ⟨0, by decide⟩).val :=
  dot_S4x512x512_S4x512x256_S4x512x256_2_1_1_2_0_0.rhsIdx_val_of_single rfl i q

theorem rhs_pv_2 :
    (dot_S4x512x512_S4x512x256_S4x512x256_2_1_1_2_0_0.rhsIdx i q 2).val = (i 2).val := by
  unfold DotDims.rhsIdx
  rw [dif_neg (show ¬(2 : Fin S4x512x256.rank) ∈ dot_S4x512x512_S4x512x256_S4x512x256_2_1_1_2_0_0.rhsBatch by decide), dif_pos (show (2 : Fin S4x512x256.rank) ∈ dot_S4x512x512_S4x512x256_S4x512x256_2_1_1_2_0_0.rhsNonContracting by decide)]
  rfl

end

theorem pv_apply (p : FVec Ideal S4x512x512 .bf16) (v : FVec Ideal S4x512x256 .bf16) (b : Fin 4) (r : Fin 512) (d : Fin 256) :
    matmul dot_S4x512x512_S4x512x256_S4x512x256_2_1_1_2_0_0 none p v (constant (F := Ideal) S4x512x256 .f32 0x00000000#32) (ix3 b r d)
      = ∑ j : Fin 512, p (ix3 b r j) * v (ix3 b j d) := by
  simp only [matmul]
  rw [Ideal.matmul_constant_zero_apply, ← Equiv.sum_comp (contrEquiv1 dot_S4x512x512_S4x512x256_S4x512x256_2_1_1_2_0_0 512 rfl rfl).symm]
  refine Finset.sum_congr rfl fun k _ => ?_
  have hk := contrEquiv1_symm_val dot_S4x512x512_S4x512x256_S4x512x256_2_1_1_2_0_0 512 rfl rfl k
  have el : dot_S4x512x512_S4x512x256_S4x512x256_2_1_1_2_0_0.lhsIdx (ix3 b r d) ((contrEquiv1 dot_S4x512x512_S4x512x256_S4x512x256_2_1_1_2_0_0 512 rfl rfl).symm k) = ix3 b r k := funext fun a => Fin.ext (by
    match a with
    | ⟨0, _⟩ => exact lhs_pv_0 _ _
    | ⟨1, _⟩ => exact lhs_pv_1 _ _
    | ⟨2, _⟩ => exact (lhs_pv_2 _ _).trans hk)
  have er : dot_S4x512x512_S4x512x256_S4x512x256_2_1_1_2_0_0.rhsIdx (ix3 b r d) ((contrEquiv1 dot_S4x512x512_S4x512x256_S4x512x256_2_1_1_2_0_0 512 rfl rfl).symm k) = ix3 b k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

theorem toInt_ofNat_small (n : ℕ) (hn : n < 4096) : (BitVec.ofNat 32 n).toInt = (n : ℤ) := by
  rw [BitVec.toInt_eq_toNat_cond, BitVec.toNat_ofNat]
  have h : n % 2 ^ 32 = n := Nat.mod_eq_of_lt (by omega)
  rw [h, if_pos (by omega)]

theorem pos_word (t : ℕ) (ht : t < 4) (l : Fin 512) :
    IntOp.addi (Scalar.muli (BitVec.ofNat 32 t) 512#32) (BitVec.ofNat 32 l.val) = BitVec.ofNat 32 (512 * t + l.val) := by
  show BitVec.ofNat 32 t * BitVec.ofNat 32 512 + BitVec.ofNat 32 l.val = _
  rw [← BitVec.ofNat_mul, ← BitVec.ofNat_add, Nat.mul_comm]

theorem mask_word (qi ki : ℕ) (hqi : qi < 4) (hki : ki < 4) (r j : Fin 512) :
    IntOp.cmpi .sge (IntOp.addi (Scalar.muli (BitVec.ofNat 32 qi) 512#32) (BitVec.ofNat 32 r.val))
        (IntOp.addi (Scalar.muli (BitVec.ofNat 32 ki) 512#32) (BitVec.ofNat 32 j.val)) = 1#1
      ↔ 512 * ki + j.val ≤ 512 * qi + r.val := by
  rw [IntOp.cmpi_sge, pos_word qi hqi r, pos_word ki hki j,
    toInt_ofNat_small _ (by have := r.isLt; omega), toInt_ofNat_small _ (by have := j.isLt; omega)]
  omega

theorem neg_big : Named.named (F := Ideal) Cert.KernelIdeal.κ "neg_big" (φ := .f32) 0xFF333332#32 = (⊥ : EReal) :=
  IdealRules.named_const.ideal_named_scalar _ _ _ _ rfl

theorem ofBits_neg_inf_r1 : Ideal.ofBits .f32 0xFF800000#32 = (⊥ : EReal) := by simp [Ideal.ofBits, Ideal.ieee]

section Payloads

variable (qi ki : ℕ) (hqi : qi < 4) (hki : ki < 4) (q k v : Vec Ideal S4x512x256 .bf16)

include hqi hki

theorem pay9_apply (b : Fin 4) (r j : Fin 512) :
    k1_pay9 (BitVec.ofNat 32 qi) (BitVec.ofNat 32 ki) q k (ix3 b r j) = tScore qi ki q k b r j := by
  unfold k1_pay9 tScore
  show Scalar.select (IntOp.cmpi .sge
        (IntOp.addi (Scalar.muli (BitVec.ofNat 32 qi) 512#32) (iota .tc S4x512x512 32 [1] iota_S4x512x512_d1_w32 (ix3 b r j)))
        (IntOp.addi (Scalar.muli (BitVec.ofNat 32 ki) 512#32) (iota .tc S4x512x512 32 [2] iota_S4x512x512_d2_w32 (ix3 b r j))))
      (matmul dot_S4x512x256_S4x512x256_S4x512x512_2_2_1_1_0_0 none (shapeCast S4x512x256 q shapeCasts_S4x512x256_S4x512x256)
          (shapeCast S4x512x256 k shapeCasts_S4x512x256_S4x512x256) (constant (F := Ideal) S4x512x512 .f32 0x00000000#32) (ix3 b r j)
        * Ideal.ofBits .f32 0x3D800000#32)
      (Named.named (F := Ideal) κ "neg_big" (φ := .f32) 0xFF333332#32) = _
  rw [iota_single_apply, iota_single_apply, shapeCast_self, shapeCast_self, qk_apply, neg_big]
  show Scalar.select (IntOp.cmpi .sge (IntOp.addi _ (BitVec.ofNat 32 r.val)) (IntOp.addi _ (BitVec.ofNat 32 j.val))) _ _ = _
  by_cases h : 512 * ki + j.val ≤ 512 * qi + r.val
  · rw [(mask_word qi ki hqi hki r j).mpr h, select_one, if_pos h]
  · rw [eq_zero_of_ne_one (fun e => h ((mask_word qi ki hqi hki r j).mp e)), select_zero, if_neg h]

theorem pay10_apply (M : Vec Ideal S4x512x1 .f32) (b : Fin 4) (r : Fin 512) :
    k1_pay10 (BitVec.ofNat 32 qi) (BitVec.ofNat 32 ki) q k M (ix3 b r (0 : Fin 1))
      = aMax qi ki q k (M (ix3 b r (0 : Fin 1))) b r := by
  unfold k1_pay10 aMax tMax
  refine (maximumf_apply (s := S4x512x1) (φ := .f32) M _ (ix3 b r (0 : Fin 1))).trans ?_
  refine congrArg (max (M (ix3 b r (0 : Fin 1)))) ?_
  refine (shapeCast_ab_ab1_apply _ shapeCasts_S4x512_S4x512x1 b r (0 : Fin 1)).trans ?_
  refine (max_last_f32 _ reduces_S4x512x512_S4x512 (.inl rfl) rfl b r).trans ?_
  rw [ofBits_neg_inf_r1, Cert.Lib.OnlineSoftmax.fold_max_bot_eq_sup]
  exact congrArg (fun f => Finset.univ.sup f) (funext fun j => pay9_apply qi ki hqi hki q k b r j)

theorem pay11_apply (M M0 : Vec Ideal S4x512x1 .f32) (b : Fin 4) (r : Fin 512) :
    k1_pay11 (BitVec.ofNat 32 qi) (BitVec.ofNat 32 ki) q k M M0 (ix3 b r (0 : Fin 1))
      = Ideal.exp (M0 (ix3 b r (0 : Fin 1)) - aMax qi ki q k (M (ix3 b r (0 : Fin 1))) b r) := by
  unfold k1_pay11
  show Ideal.exp (M0 (ix3 b r (0 : Fin 1)) - k1_pay10 (BitVec.ofNat 32 qi) (BitVec.ofNat 32 ki) q k M (ix3 b r (0 : Fin 1))) = _
  rw [pay10_apply qi ki hqi hki q k M b r]

theorem pay12_apply (M : Vec Ideal S4x512x1 .f32) (b : Fin 4) (r j : Fin 512) :
    k1_pay12 (BitVec.ofNat 32 qi) (BitVec.ofNat 32 ki) q k M (ix3 b r j)
      = Ideal.exp (tScore qi ki q k b r j - aMax qi ki q k (M (ix3 b r (0 : Fin 1))) b r) := by
  unfold k1_pay12
  show Ideal.exp (k1_pay9 (BitVec.ofNat 32 qi) (BitVec.ofNat 32 ki) q k (ix3 b r j)
      - broadcastTo S4x512x512 (k1_pay10 (BitVec.ofNat 32 qi) (BitVec.ofNat 32 ki) q k M) broadcasts_S4x512x1_S4x512x512 (ix3 b r j)) = _
  rw [pay9_apply qi ki hqi hki q k b r j]
  refine congrArg (fun t => Ideal.exp (tScore qi ki q k b r j - t)) ?_
  refine (broadcastTo_ab1_abc_apply _ broadcasts_S4x512x1_S4x512x512 b r j).trans ?_
  exact pay10_apply qi ki hqi hki q k M b r

theorem pay13_apply (M M0 L : Vec Ideal S4x512x1 .f32) (b : Fin 4) (r : Fin 512) :
    k1_pay13 (BitVec.ofNat 32 qi) (BitVec.ofNat 32 ki) q k M M0 L (ix3 b r (0 : Fin 1))
      = Ideal.exp (M0 (ix3 b r (0 : Fin 1)) - aMax qi ki q k (M (ix3 b r (0 : Fin 1))) b r) * L (ix3 b r (0 : Fin 1))
        + ∑ j : Fin 512, Ideal.exp (tScore qi ki q k b r j - aMax qi ki q k (M (ix3 b r (0 : Fin 1))) b r) := by
  unfold k1_pay13
  refine (addf_apply (s := S4x512x1) (φ := .f32) _ _ (ix3 b r (0 : Fin 1))).trans ?_
  refine congrArg₂ (· + ·) ?_ ?_
  · refine (mulf_apply (s := S4x512x1) (φ := .f32) _ L (ix3 b r (0 : Fin 1))).trans ?_
    exact congrArg (· * L (ix3 b r (0 : Fin 1))) (pay11_apply qi ki hqi hki q k M M0 b r)
  · refine (shapeCast_ab_ab1_apply _ shapeCasts_S4x512_S4x512x1 b r (0 : Fin 1)).trans ?_
    refine (add_last_f32 _ reduces_S4x512x512_S4x512 (.inl rfl) rfl b r).trans ?_
    exact Finset.sum_congr rfl fun j _ => pay12_apply qi ki hqi hki q k M b r j

theorem pay5_apply (M M0 : Vec Ideal S4x512x1 .f32) (A : Vec Ideal S4x512x256 .f32) (b : Fin 4) (r : Fin 512) (d : Fin 256) :
    k1_pay5 (k1_pay8 v) (k1_pay11 (BitVec.ofNat 32 qi) (BitVec.ofNat 32 ki) q k M M0) (k1_pay12 (BitVec.ofNat 32 qi) (BitVec.ofNat 32 ki) q k M) A (ix3 b r d)
      = Ideal.exp (M0 (ix3 b r (0 : Fin 1)) - aMax qi ki q k (M (ix3 b r (0 : Fin 1))) b r) * A (ix3 b r d)
        + ∑ j : Fin 512, Ideal.exp (tScore qi ki q k b r j - aMax qi ki q k (M (ix3 b r (0 : Fin 1))) b r) * v (ix3 b j d) := by
  unfold k1_pay5 k1_pay8
  refine (congrFun (shapeCast_self _ shapeCasts_S4x512x256_S4x512x256) (ix3 b r d)).trans ?_
  refine (addf_apply (s := S4x512x256) (φ := .f32) _ _ (ix3 b r d)).trans ?_
  refine congrArg₂ (· + ·) ?_ ?_
  · refine (mulf_apply (s := S4x512x256) (φ := .f32) _ A (ix3 b r d)).trans ?_
    refine congrArg (· * A (ix3 b r d)) ?_
    refine (broadcastTo_ab1_abc_apply _ broadcasts_S4x512x1_S4x512x256 b r d).trans ?_
    exact pay11_apply qi ki hqi hki q k M M0 b r
  · rw [shapeCast_self]
    refine (pv_apply _ v b r d).trans ?_
    refine Finset.sum_congr rfl fun j _ => ?_
    refine congrArg (· * v (ix3 b j d)) ?_
    refine (truncf_apply (s := S4x512x512) (φ := .f32) (ψ := .bf16) _ bitsLt_bf16_f32 (ix3 b r j)).trans ?_
    exact pay12_apply qi ki hqi hki q k M b r j

end Payloads

theorem init1_max (b : Fin 4) (r : Fin 512) : (init1 (F := Ideal)).1 (ix3 b r (0 : Fin 1)) = (⊥ : EReal) := by
  unfold init1 k1_pay1
  show shapeCast S4x512x1 (broadcast S4x512x1 (Named.named (F := Ideal) κ "neg_big" (φ := .f32) 0xFF333332#32)) shapeCasts_S4x512x1_S4x512x1 (ix3 b r (0 : Fin 1)) = _
  rw [shapeCast_self, broadcast_apply, neg_big]

theorem init1_sum (b : Fin 4) (r : Fin 512) : (init1 (F := Ideal)).2.1 (ix3 b r (0 : Fin 1)) = (0 : EReal) := by
  unfold init1 k1_pay2
  show shapeCast S4x512x1 (broadcast S4x512x1 (Ideal.ofBits .f32 0x00000000#32)) shapeCasts_S4x512x1_S4x512x1 (ix3 b r (0 : Fin 1)) = _
  rw [shapeCast_self, broadcast_apply, Ideal.ofBits_zero_f32]

theorem init1_acc (b : Fin 4) (r : Fin 512) (d : Fin 256) : (init1 (F := Ideal)).2.2 (ix3 b r d) = (0 : EReal) := by
  unfold init1 k1_pay3
  show shapeCast S4x512x256 (broadcast S4x512x256 (Ideal.ofBits .f32 0x00000000#32)) shapeCasts_S4x512x256_S4x512x256 (ix3 b r d) = _
  rw [shapeCast_self, broadcast_apply, Ideal.ofBits_zero_f32]

section Step

variable (qi ki : ℕ) (hqi : qi < 4) (hki : ki < 4) (q k v : Vec Ideal S4x512x256 .bf16) (s : St1 Ideal)

include hqi hki

section
variable (b : Fin 4) (r : Fin 512)

theorem step1_max :
    (step1 (BitVec.ofNat 32 qi) (BitVec.ofNat 32 ki) q k v s).1 (ix3 b r (0 : Fin 1)) = aMax qi ki q k (s.1 (ix3 b r (0 : Fin 1))) b r := by
  unfold step1 k1_pay6
  show shapeCast S4x512x1 (k1_pay10 (BitVec.ofNat 32 qi) (BitVec.ofNat 32 ki) q k s.1) shapeCasts_S4x512x1_S4x512x1 (ix3 b r (0 : Fin 1)) = _
  rw [shapeCast_self]
  exact pay10_apply qi ki hqi hki q k s.1 b r

theorem step1_sum :
    (step1 (BitVec.ofNat 32 qi) (BitVec.ofNat 32 ki) q k v s).2.1 (ix3 b r (0 : Fin 1))
      = aSum qi ki q k (s.1 (ix3 b r (0 : Fin 1))) (s.2.1 (ix3 b r (0 : Fin 1))) b r := by
  unfold step1 k1_pay4 aSum
  show shapeCast S4x512x1 (k1_pay13 (BitVec.ofNat 32 qi) (BitVec.ofNat 32 ki) q k s.1 s.1 s.2.1) shapeCasts_S4x512x1_S4x512x1 (ix3 b r (0 : Fin 1)) = _
  rw [shapeCast_self]
  exact pay13_apply qi ki hqi hki q k s.1 s.1 s.2.1 b r

theorem step1_acc (d : Fin 256) :
    (step1 (BitVec.ofNat 32 qi) (BitVec.ofNat 32 ki) q k v s).2.2 (ix3 b r d)
      = aAcc qi ki q k v (s.1 (ix3 b r (0 : Fin 1))) (s.2.2 (ix3 b r d)) b r d := by
  unfold step1 aAcc
  exact pay5_apply qi ki hqi hki q k v s.1 s.1 s.2.2 b r d

end

end Step

theorem fin1_val (s : St1 Ideal) (b : Fin 4) (r : Fin 512) (d : Fin 256) :
    fin1 s (ix3 b r d) = Ideal.div (s.2.2 (ix3 b r d)) (s.2.1 (ix3 b r (0 : Fin 1))) := by
  unfold fin1 k1_pay7
  show Ideal.div (s.2.2 (ix3 b r d)) (broadcastTo S4x512x256 s.2.1 broadcasts_S4x512x1_S4x512x256 (ix3 b r d)) = _
  exact congrArg (Ideal.div (s.2.2 (ix3 b r d))) (broadcastTo_ab1_abc_apply _ broadcasts_S4x512x1_S4x512x256 b r d)

end Cert.KernelIdeal.Val

end
-- ==== Proof.KI.Val1.lean ====
import proofs.«413320_j45251775431036_3_alg».proof.Proof.KI.Base
import proofs.«413320_j45251775431036_3_alg».proof.Proof.KI.Tiles
import proofs.«413320_j45251775431036_3_alg».proof.Proof.Spec
import proofs.«413320_j45251775431036_3_alg».proof.Proof.LibOnlineSoftmax
import proofs.«413320_j45251775431036_3_alg».proof.Proof.KI.Val1Math
import proofs.«413320_j45251775431036_3_alg».proof.Proof.KI.Val1Blocks
import proofs.«413320_j45251775431036_3_alg».proof.Proof.KI.Val1Step
set_option maxRecDepth 16384

noncomputable section

open scoped BigOperators

namespace Cert.KernelIdeal.Val

open Cert.KernelIdeal Cert.KernelIdeal.Gen Cert.KernelIdeal.Hand Cert.Tiles Cert.Lib.OnlineSoftmax
open Idealize.ShloMosaic Idealize.ShloMosaic.ValueIdx
open Idealize.ShloMosaic.TcCoe Idealize.SL.Sem

section Carried

variable {F : FTy → Type} [FloatOps F] [Named F]

variable (V : (c : Dev nD) → (b : Ref sig .tc) → Buf (Elt F) ((c : Thread nD τ).loc b)) (c : Dev nD)

theorem carried_first (t : Fin cfg1.N) (h0 : t.val % 4 = 0) :
    sc1 V c t.val t.isLt = step1At V c t init1 := by
  obtain ⟨n, hn⟩ := t
  cases n with
  | zero => rfl
  | succ n =>
    dsimp only at h0
    rw [sc1]; (try dsimp only); rw [if_pos h0, if_pos (by omega)]

theorem carried_step (n : ℕ) (hn : n + 1 < cfg1.N) (h0 : ¬(n + 1) % 4 = 0) (h1 : (n + 1) % 4 ≤ (n + 1) / 4) :
    sc1 V c (n + 1) hn = step1At V c ⟨n + 1, hn⟩ (sc1 V c n (Nat.lt_of_succ_lt hn)) := by
  rw [sc1]; (try dsimp only); rw [if_neg h0, if_pos h1]

theorem carried_skip (n : ℕ) (hn : n + 1 < cfg1.N) (h0 : ¬(n + 1) % 4 = 0) (h1 : ¬(n + 1) % 4 ≤ (n + 1) / 4) :
    sc1 V c (n + 1) hn = sc1 V c n (Nat.lt_of_succ_lt hn) := by
  rw [sc1]; (try dsimp only); rw [if_neg h0, if_neg h1]

end Carried

theorem points1 : cfg1.N = 16 := by decide +kernel

def RowState (I : Cert.Spec.Inp) (b : Fin 4) (t : Fin 2048) (S : Finset (Fin 2048)) (M L : EReal) (A : Fin 256 → EReal) : Prop :=
  M = S.sup (xs I b t) ∧ L = (∑ u ∈ S, wt (xs I b t) w0 M u) ∧ ∀ d, A d = ∑ u ∈ S, wt (xs I b t) w0 M u * vs I b d u

variable (V : (c : Dev nD) → (b : Ref sig .tc) → Buf (Elt Ideal) ((c : Thread nD τ).loc b)) (c : Dev nD) (I : Cert.Spec.Inp)

variable (hq : ∀ (b : Fin 4) (t : Fin 2048) (d : Fin 256), (V c main_v9 : S4x2048x256.Idx → EReal) (ix3 b t d) = ((Cert.Spec.qv I b t d : ℝ) : EReal))

variable (hk : ∀ (b : Fin 4) (t : Fin 2048) (d : Fin 256), (V c main_v10 : S4x2048x256.Idx → EReal) (ix3 b t d) = ((Cert.Spec.kv I b t d : ℝ) : EReal))

variable (hv : ∀ (b : Fin 4) (t : Fin 2048) (d : Fin 256), (V c main_v11 : S4x2048x256.Idx → EReal) (ix3 b t d) = ((Cert.Spec.vv I b t d : ℝ) : EReal))

theorem init_state (b : Fin 4) (t : Fin 2048) (r : Fin 512) :
    RowState I b t ∅ ((init1 (F := Ideal)).1 (ix3 b r (0 : Fin 1))) ((init1 (F := Ideal)).2.1 (ix3 b r (0 : Fin 1)))
      (fun d => (init1 (F := Ideal)).2.2 (ix3 b r d)) := by
  refine ⟨?_, ?_, fun d => ?_⟩
  · rw [init1_max, Finset.sup_empty]
  · rw [init1_sum, Finset.sum_empty]
  · show (init1 (F := Ideal)).2.2 (ix3 b r d) = _
    rw [init1_acc, Finset.sum_empty]

include hq hk hv in

theorem step_state (t : Fin cfg1.N) (qi ki : ℕ) (hqi : qi < 4) (hki : ki < 4) (eq : t.val / 4 = qi) (ek : t.val % 4 = ki) (hle : ki ≤ qi) (s : St1 Ideal) (b : Fin 4) (r : Fin 512) (hs : RowState I b (rowAt qi hqi r) (seenBelow (rowAt qi hqi r) ki) (s.1 (ix3 b r (0 : Fin 1))) (s.2.1 (ix3 b r (0 : Fin 1)))
      (fun d => s.2.2 (ix3 b r d))) :
    RowState I b (rowAt qi hqi r) (seenBelow (rowAt qi hqi r) (ki + 1))
      ((step1At V c t s).1 (ix3 b r (0 : Fin 1))) ((step1At V c t s).2.1 (ix3 b r (0 : Fin 1)))
      (fun d => (step1At V c t s).2.2 (ix3 b r d)) := by
  obtain ⟨hM, hL, hA⟩ := hs

  have hqB : ∀ (b : Fin 4) (r : Fin 512) (d : Fin 256),
      b1_0 V c t (ix3 b r d) = ((Cert.Spec.qv I b (rowAt qi hqi r) d : ℝ) : EReal) := by
    intro b r d
    rw [blk1_q V c t b r d, hq]
    congr 3
    rw [eq]
  have hmin : min (t.val % 4) (t.val / 4) = ki := by rw [eq, ek]; exact Nat.min_eq_left hle
  have hkB : ∀ (b : Fin 4) (j : Fin 512) (d : Fin 256),
      b1_1 V c t (ix3 b j d) = ((Cert.Spec.kv I b (keyAt ki hki j) d : ℝ) : EReal) := by
    intro b j d
    rw [blk1_k V c t b j d, hk]
    congr 3
    rw [hmin]
  have hvB : ∀ (b : Fin 4) (j : Fin 512) (d : Fin 256),
      b1_2 V c t (ix3 b j d) = ((Cert.Spec.vv I b (keyAt ki hki j) d : ℝ) : EReal) := by
    intro b j d
    rw [blk1_v V c t b j d, hv]
    congr 3
    rw [hmin]
  have hne : (tileKeys (rowAt qi hqi r) ki).Nonempty :=
    tileKeys_nonempty _ _ (by show 512 * ki ≤ 512 * qi + r.val; omega)
  have hdis := seenBelow_disjoint (rowAt qi hqi r) ki
  unfold step1At
  rw [(coords1 t).1, (coords1 t).2, eq, ek, seenBelow_succ]
  have eM := aMax_eq I qi ki hqi hki (b1_0 V c t) (b1_1 V c t) hqB hkB b r _ _ hM
  refine ⟨?_, ?_, fun d => ?_⟩
  · rw [step1_max qi ki hqi hki]
    exact eM
  · rw [step1_sum qi ki hqi hki, step1_max qi ki hqi hki, eM]
    exact aSum_eq I qi ki hqi hki (b1_0 V c t) (b1_1 V c t) hqB hkB b r _ _ _ hne hdis hM hL
  · dsimp only
    rw [step1_acc qi ki hqi hki, step1_max qi ki hqi hki, eM]
    exact aAcc_eq I qi ki hqi hki (b1_0 V c t) (b1_1 V c t) (b1_2 V c t) hqB hkB hvB b r d _ _ _ hne hdis hM (hA d)

include hq hk hv in

theorem carried_state : ∀ (n : ℕ) (hn : n < cfg1.N) (qi kk : ℕ) (hqi : qi < 4), n / 4 = qi →
    ((n % 4 ≤ n / 4 → kk = n % 4 + 1) ∧ (n / 4 < n % 4 → kk = n / 4 + 1)) → ∀ (b : Fin 4) (r : Fin 512),
    RowState I b (rowAt qi hqi r) (seenBelow (rowAt qi hqi r) kk)
      ((sc1 V c n hn).1 (ix3 b r (0 : Fin 1))) ((sc1 V c n hn).2.1 (ix3 b r (0 : Fin 1)))
      (fun d => (sc1 V c n hn).2.2 (ix3 b r d)) := by
  intro n
  induction n with
  | zero =>
    intro hn qi kk hqi eq hkk b r
    obtain rfl : kk = 0 + 1 := by omega
    rw [show sc1 V c 0 hn = step1At V c ⟨0, hn⟩ init1 from rfl]
    exact step_state V c I hq hk hv ⟨0, hn⟩ qi 0 hqi (by omega) eq rfl (Nat.zero_le _) init1 b r
      (by rw [seenBelow_zero]; exact init_state I b _ r)
  | succ n ih =>
    intro hn qi kk hqi eq hkk b r
    by_cases h0 : (n + 1) % 4 = 0
    ·
      rw [show sc1 V c (n + 1) hn = step1At V c ⟨n + 1, hn⟩ init1 from carried_first V c ⟨n + 1, hn⟩ h0]
      obtain rfl : kk = 0 + 1 := by omega
      exact step_state V c I hq hk hv ⟨n + 1, hn⟩ qi 0 hqi (by omega) eq h0 (Nat.zero_le _) init1 b r
        (by rw [seenBelow_zero]; exact init_state I b _ r)
    · by_cases h1 : (n + 1) % 4 ≤ (n + 1) / 4
      ·
        rw [carried_step V c n hn h0 h1]
        have hki : (n + 1) % 4 < 4 := Nat.mod_lt _ (by norm_num)
        obtain rfl : kk = (n + 1) % 4 + 1 := by omega
        exact step_state V c I hq hk hv ⟨n + 1, hn⟩ qi ((n + 1) % 4) hqi hki eq rfl (by omega) _ b r
          (ih (Nat.lt_of_succ_lt hn) qi ((n + 1) % 4) hqi (by omega) (by omega) b r)
      ·
        rw [carried_skip V c n hn h0 h1]
        exact ih (Nat.lt_of_succ_lt hn) qi kk hqi (by omega) (by omega) b r

include hq hk hv in

theorem ctx_val : ∀ (b : Fin 4) (t : Fin 2048) (d : Fin 256),
    ((dat1 V c).arrAt 3 cfg1.N : S4x2048x256.Idx → EReal) (ix3 b t d) = ((Cert.Spec.ctx I b t d : ℝ) : EReal) := by
  intro b t d
  have hqi : t.val / 512 < 4 := by have := t.isLt; omega
  have hr : t.val % 512 < 512 := Nat.mod_lt _ (by norm_num)
  have et : t = rowAt (t.val / 512) hqi ⟨t.val % 512, hr⟩ := by
    apply Fin.ext
    show t.val = 512 * (t.val / 512) + t.val % 512
    omega
  have hn : 4 * (t.val / 512) + 3 < cfg1.N := by rw [points1]; omega
  obtain ⟨hM, hL, hA⟩ := carried_state V c I hq hk hv (4 * (t.val / 512) + 3) hn (t.val / 512) (t.val / 512 + 1) hqi
    (by omega) (by omega) b ⟨t.val % 512, hr⟩
  rw [seenBelow_all _ _ (by show 512 * (t.val / 512) + t.val % 512 < 512 * (t.val / 512 + 1); omega)] at hM hL hA
  rw [et]
  refine (cover1 V c (t.val / 512) hqi b ⟨t.val % 512, hr⟩ d).trans ?_
  show fin1 (sc1 V c (4 * (t.val / 512) + 3) hn) (ix3 b ⟨t.val % 512, hr⟩ d) = _
  rw [fin1_val]
  exact quot_eq I b _ d _ _ _ hM hL (hA d)

end Cert.KernelIdeal.Val

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩) (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

section

variable {a b : ℕ}

section

variable (src : FVec Ideal ⟨2, ![a, b]⟩ φ) (acc : BitVec φ.bits)

theorem multiReduction_add_rows (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

theorem multiReduction_max_rows (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end

theorem hostReduce_max_rows {u : Shape} (x : (⟨2, ![a, b]⟩ : Shape).Idx → EReal) (init : u.Idx → EReal) (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

section

variable (src : FVec Ideal ⟨2, ![a, b]⟩ .f32)

theorem add_rows_f32 (h : (⟨2, ![a, b]⟩ : Shape).Reduces [1] ⟨1, ![a]⟩) (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem max_rows_f32 (h : (⟨2, ![a, b]⟩ : Shape).Reduces [1] ⟨1, ![a]⟩) (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

end

end

end Cert.Keepdims

end
-- ==== Proof.KI.Val2Step.lean ====
import proofs.«413320_j45251775431036_3_alg».proof.Proof.KI.Base
import proofs.«413320_j45251775431036_3_alg».proof.Proof.KI.Tiles
import proofs.«413320_j45251775431036_3_alg».proof.Proof.LibDense
import proofs.«413320_j45251775431036_3_alg».proof.Proof.LibKeepdims
import proofs.«413320_j45251775431036_3_alg».proof.Proof.LibOnlineSoftmax

noncomputable section

open scoped BigOperators

namespace Cert.KernelIdeal.Val

open Idealize.ShloMosaic Idealize.ShloMosaic.ValueIdx
open Cert.KernelIdeal Cert.KernelIdeal.Gen Cert.KernelIdeal.Hand Cert.Tiles

variable (x : Vec Ideal S2048x256 .bf16) (w : Vec Ideal S256x640 .bf16) (bias : Vec Ideal S1x640 .f32)

theorem dot_eq : dot_S2048x256_S256x640_S2048x640_1_0_0_1_n_n = DotDims.plain 2048 256 640 := rfl

theorem logits_tile (r : Fin 2048) (j : Fin 640) : k2_pay5 x w bias (ix2 r j) = pLogit x w bias r j := by
  unfold k2_pay5
  rw [shapeCast_self x, shapeCast_self w, shapeCast_self bias]
  exact congrFun (Cert.LibDense.kernel_layer (n := 2048) (k := 256) (m := 640)
    dot_S2048x256_S256x640_S2048x640_1_0_0_1_n_n dot_eq x w bias broadcasts_S1x640_S2048x640) (ix2 r j)

theorem ofBits_neg_inf : Ideal.ofBits .f32 0xFF800000#32 = ⊥ := by simp [Ideal.ofBits, Ideal.ieee]

theorem pay6_apply (M : Vec Ideal S2048x1 .f32) (r : Fin 2048) :
    k2_pay6 x w bias M (ix2 r (0 : Fin 1)) = pMax x w bias (M (ix2 r (0 : Fin 1))) r := by
  unfold k2_pay6
  rw [maximumf_apply, Cert.Keepdims.shapeCast_a_a1_apply]
  refine (congrArg (max (M (ix2 r (0 : Fin 1)))) (Cert.Keepdims.max_rows_f32 (a := 2048) (b := 640) (k2_pay5 x w bias)
    reduces_S2048x640_S2048 (.inl rfl) rfl r)).trans ?_
  rw [ofBits_neg_inf, Cert.Lib.OnlineSoftmax.fold_max_bot_eq_sup]
  unfold pMax pTMax
  exact congrArg (max (M (ix2 r (0 : Fin 1)))) (congrArg Finset.univ.sup (funext fun k => logits_tile x w bias r k))

theorem exp_at {sh : Shape} {φ : FTy} (v : FVec Ideal sh φ) (i : sh.Idx) : exp v i = Ideal.exp (v i) := rfl

variable (s : St2 Ideal)

theorem step2_max (r : Fin 2048) :
    (step2 x w bias s).1 (ix2 r (0 : Fin 1)) = pMax x w bias (s.1 (ix2 r (0 : Fin 1))) r := by
  unfold step2
  show k2_pay1 (k2_pay6 x w bias s.1) (ix2 r (0 : Fin 1)) = _
  unfold k2_pay1
  rw [shapeCast_self]
  exact pay6_apply x w bias s.1 r

theorem step2_sum (r : Fin 2048) :
    (step2 x w bias s).2 (ix2 r (0 : Fin 1))
      = pSum x w bias (s.1 (ix2 r (0 : Fin 1))) (s.2 (ix2 r (0 : Fin 1))) r := by
  unfold step2
  show k2_pay7 x w bias s.1 s.1 s.2 (ix2 r (0 : Fin 1)) = _
  unfold k2_pay7
  rw [shapeCast_self, addf_apply, mulf_apply, Cert.Keepdims.shapeCast_a_a1_apply, exp_at, subf_apply, pay6_apply]
  unfold pSum
  refine congrArg (fun t : EReal => Ideal.exp (s.1 (ix2 r (0 : Fin 1)) - pMax x w bias (s.1 (ix2 r (0 : Fin 1))) r) * s.2 (ix2 r (0 : Fin 1)) + t) ?_
  refine (Cert.Keepdims.add_rows_f32 (a := 2048) (b := 640) _ reduces_S2048x640_S2048 (.inl rfl) rfl r).trans ?_
  refine Finset.sum_congr rfl fun k _ => ?_
  rw [exp_at, subf_apply, Cert.Keepdims.broadcastTo_a1_ab_apply, pay6_apply, logits_tile]

theorem fin2_val (r : Fin 2048) :
    fin2 s (ix2 r (0 : Fin 1)) = s.1 (ix2 r (0 : Fin 1)) + Ideal.log (s.2 (ix2 r (0 : Fin 1))) := rfl

theorem init2_max (r : Fin 2048) : (init2 (F := Ideal)).1 (ix2 r (0 : Fin 1)) = ⊥ := by
  show k2_pay3 (F := Ideal) (ix2 r (0 : Fin 1)) = ⊥
  unfold k2_pay3
  rw [shapeCast_self]
  exact IdealRules.named_const.ideal_named_scalar _ _ _ _ rfl

theorem init2_sum (r : Fin 2048) : (init2 (F := Ideal)).2 (ix2 r (0 : Fin 1)) = 0 := by
  show k2_pay4 (F := Ideal) (ix2 r (0 : Fin 1)) = 0
  unfold k2_pay4
  rw [shapeCast_self]
  exact Ideal.ofBits_zero_f32

end Cert.KernelIdeal.Val

end
-- ==== Proof.KI.Val2Blocks.lean ====
import proofs.«413320_j45251775431036_3_alg».proof.Proof.KI.Base
import proofs.«413320_j45251775431036_3_alg».proof.Proof.KI.Tiles
import proofs.«413320_j45251775431036_3_alg».proof.Proof.Spec
import proofs.«413320_j45251775431036_3_alg».proof.Proof.LibOnlineSoftmax
import Idealize.ShloMosaic.Lib.Pipeline.Value
import Idealize.ShloMosaic.Lib.ValueIdx
set_option maxRecDepth 16384

noncomputable section

open scoped BigOperators

namespace Cert.KernelIdeal.Val

open Cert.KernelIdeal Cert.KernelIdeal.Gen Cert.KernelIdeal.Hand Cert.Tiles
open Idealize.ShloMosaic Idealize.ShloMosaic.TcCoe Idealize.ShloMosaic.ValueIdx
open Idealize.SL.Sem
open Idealize.ShloMosaic.Pipeline (Dat Cfg Window)

theorem idx2 : ∀ t : Fin cfg2.N, win2_0.index t (0 : Fin 2) = t.val / 50 ∧ win2_0.index t (1 : Fin 2) = 0
    ∧ win2_1.index t (0 : Fin 2) = 0 ∧ win2_1.index t (1 : Fin 2) = t.val % 50
    ∧ win2_2.index t (0 : Fin 2) = 0 ∧ win2_2.index t (1 : Fin 2) = t.val % 50
    ∧ win2_3.index t (0 : Fin 2) = t.val / 50 ∧ win2_3.index t (1 : Fin 2) = t.val % 50
    ∧ win2_4.index t (0 : Fin 2) = t.val / 50 ∧ win2_4.index t (1 : Fin 2) = 0 :=
  (by decide +kernel : ∀ t : Fin grid2.N, _)

variable (V : (c : Dev nD) → (b : Ref sig .tc) → Buf (Elt Ideal) ((c : Thread nD τ).loc b))

section
variable (c : Dev nD) (t : Fin cfg2.N)

theorem b2_0_apply (r : Fin 2048) (d : Fin 256) (p : Fin 8192) (hp : p.val = 2048 * (t.val / 50) + r.val) :
    (b2_0 V c t : S2048x256.Idx → EReal) (ix2 r d) = (V c main_v13 : S8192x256.Idx → EReal) (ix2 p d) := by
  obtain ⟨e0, e1, -⟩ := idx2 t
  unfold b2_0 iblk2
  rw [View.read_apply]
  show V c main_v13 _ = V c main_v13 _
  congr 1
  funext a
  apply Fin.ext
  match a with
  | ⟨0, _⟩ => show win2_0.index t 0 * 2048 + 1 * r.val = p.val; rw [e0, hp]; omega
  | ⟨1, _⟩ => show win2_0.index t 1 * 256 + 1 * d.val = d.val; rw [e1]; omega

theorem b2_1_apply (k : Fin 256) (j : Fin 640) (v : Fin 32000) (hv : v.val = 640 * (t.val % 50) + j.val) :
    (b2_1 V c t : S256x640.Idx → EReal) (ix2 k j) = (V c main_v14 : S256x32000.Idx → EReal) (ix2 k v) := by
  obtain ⟨-, -, e0, e1, -⟩ := idx2 t
  unfold b2_1 iblk2
  rw [View.read_apply]
  show V c main_v14 _ = V c main_v14 _
  congr 1
  funext a
  apply Fin.ext
  match a with
  | ⟨0, _⟩ => show win2_1.index t 0 * 256 + 1 * k.val = k.val; rw [e0]; omega
  | ⟨1, _⟩ => show win2_1.index t 1 * 640 + 1 * j.val = v.val; rw [e1, hv]; omega

theorem b2_2_apply (j : Fin 640) (v : Fin 32000) (hv : v.val = 640 * (t.val % 50) + j.val) :
    (b2_2 V c t : S1x640.Idx → EReal) (ix2 (0 : Fin 1) j) = (V c main_v15 : S1x32000.Idx → EReal) (ix2 (0 : Fin 1) v) := by
  obtain ⟨-, -, -, -, e0, e1, -⟩ := idx2 t
  unfold b2_2 iblk2
  rw [View.read_apply]
  show V c main_v15 _ = V c main_v15 _
  congr 1
  funext a
  apply Fin.ext
  match a with
  | ⟨0, _⟩ => show win2_2.index t 0 * 1 + 1 * 0 = 0; rw [e0]
  | ⟨1, _⟩ => show win2_2.index t 1 * 640 + 1 * j.val = v.val; rw [e1, hv]; omega

end

variable (c : Dev nD) (I : Cert.Spec.Inp)
  (hx : ∀ (r : Fin 8192) (d : Fin 256), (V c main_v13 : S8192x256.Idx → EReal) (ix2 r d)
    = ((Cert.Spec.ctx I (Cert.Spec.rowB r) (Cert.Spec.rowT r) d : ℝ) : EReal))
  (hw : ∀ (k : Fin 256) (v : Fin 32000), (V c main_v14 : S256x32000.Idx → EReal) (ix2 k v) = ((I.Wp k v : ℝ) : EReal))
  (hb : ∀ v : Fin 32000, (V c main_v15 : S1x32000.Idx → EReal) (ix2 (0 : Fin 1) v) = ((I.bp v : ℝ) : EReal))

include hx hw hb in

theorem pLogit_blocks (t : Fin cfg2.N) (r : Fin 2048) (j : Fin 640) (p : Fin 8192) (v : Fin 32000) (hp : p.val = 2048 * (t.val / 50) + r.val) (hv : v.val = 640 * (t.val % 50) + j.val) :
    pLogit (b2_0 V c t) (b2_1 V c t) (b2_2 V c t) r j
      = ((Cert.Spec.logit I (Cert.Spec.rowB p) (Cert.Spec.rowT p) v : ℝ) : EReal) := by
  unfold pLogit Cert.Spec.logit
  rw [EReal.coe_add, Cert.Lib.OnlineSoftmax.coe_finset_sum]
  congr 1
  · refine Finset.sum_congr rfl fun k _ => ?_
    rw [b2_0_apply V c t r k p hp, b2_1_apply V c t k j v hv, hx, hw, EReal.coe_mul]
  · rw [b2_2_apply V c t j v hv, hb]

end Cert.KernelIdeal.Val

end
-- ==== Proof.KI.Val2Logits.lean ====
import proofs.«413320_j45251775431036_3_alg».proof.Proof.KI.Val2Step
import proofs.«413320_j45251775431036_3_alg».proof.Proof.KI.Val2Blocks
set_option maxRecDepth 16384

noncomputable section

open scoped BigOperators

namespace Cert.KernelIdeal.Val

open Cert.KernelIdeal Cert.KernelIdeal.Gen Cert.KernelIdeal.Hand Cert.Tiles
open Idealize.ShloMosaic Idealize.ShloMosaic.TcCoe Idealize.ShloMosaic.ValueIdx
open Idealize.SL.Sem
open Idealize.ShloMosaic.Pipeline (Dat Cfg Window)

def logitsArr (I : Cert.Spec.Inp) : S8192x32000.Idx → EReal :=
  fun i => ((Cert.Spec.logitsOut I (i 0 : Fin 8192) (i 1 : Fin 32000) : ℝ) : EReal)

variable (V : (c : Dev nD) → (b : Ref sig .tc) → Buf (Elt Ideal) ((c : Thread nD τ).loc b))

variable (c : Dev nD) (I : Cert.Spec.Inp)
  (hx : ∀ (r : Fin 8192) (d : Fin 256), (V c main_v13 : S8192x256.Idx → EReal) (ix2 r d)
    = ((Cert.Spec.ctx I (Cert.Spec.rowB r) (Cert.Spec.rowT r) d : ℝ) : EReal))
  (hw : ∀ (k : Fin 256) (v : Fin 32000), (V c main_v14 : S256x32000.Idx → EReal) (ix2 k v) = ((I.Wp k v : ℝ) : EReal))
  (hb : ∀ v : Fin 32000, (V c main_v15 : S1x32000.Idx → EReal) (ix2 (0 : Fin 1) v) = ((I.bp v : ℝ) : EReal))

include hx hw hb in

theorem tile3 (t : Fin cfg2.N) (r : Fin 2048) (j : Fin 640) (i : S8192x32000.Idx) (h0 : (i 0).val = 2048 * (t.val / 50) + r.val) (h1 : (i 1).val = 640 * (t.val % 50) + j.val) :
    (o2_3 V c t : S2048x640.Idx → EReal) (ix2 r j) = logitsArr I i := by
  unfold o2_3 logitsArr Cert.Spec.logitsOut
  exact (logits_tile _ _ _ r j).trans (pLogit_blocks V c I hx hw hb t r j (i 0 : Fin 8192) (i 1 : Fin 32000) h0 h1)

include hx hw hb in

theorem flushed3_eq (t : Fin cfg2.N) :
    (dat2 V c).flushed 3 t = ((cfg2.win 3).blk t).view.read (Elt Ideal) (logitsArr I) := by
  obtain ⟨-, -, -, -, -, -, e0, e1, -⟩ := idx2 t
  show o2_3 V c t = _
  funext y
  rw [View.read_apply]
  obtain ⟨r, j, rfl⟩ : ∃ (r : Fin 2048) (j : Fin 640), y = ix2 r j := ⟨y 0, y 1, eq_ix2 y⟩
  refine tile3 V c I hx hw hb t r j _ ?_ ?_
  · show win2_3.index t 0 * 2048 + 1 * r.val = _
    rw [e0]; omega
  · show win2_3.index t 1 * 640 + 1 * j.val = _
    rw [e1]; omega

theorem mem_blk3 (t : Fin cfg2.N) (i : S8192x32000.Idx) :
    i ∈ ((cfg2.win 3).blk t).view.set ↔ ∀ a : Fin 2, win2_3.index t a * S2048x640.size a ≤ (i a).val ∧ (i a).val < win2_3.index t a * S2048x640.size a + S2048x640.size a := by
  show i ∈ ((View.whole main_v16_0).slice (win2_3.rect t)).set ↔ _
  rw [View.set_slice_whole, Rect.mem_set_unit]
  exact Iff.rfl

theorem cover3 (i : S8192x32000.Idx) : ∃ t : Fin cfg2.N, (cfg2.win 3).flush t = true ∧ i ∈ ((cfg2.win 3).blk t).view.set := by
  have hi0 : (i 0).val < 8192 := (i 0).isLt
  have hi1 : (i 1).val < 32000 := (i 1).isLt
  have hN : cfg2.N = 200 := N_2
  obtain ⟨t, ht⟩ : ∃ t : Fin cfg2.N, t.val = 50 * ((i 0).val / 2048) + (i 1).val / 640 :=
    ⟨⟨50 * ((i 0).val / 2048) + (i 1).val / 640, by omega⟩, rfl⟩
  obtain ⟨-, -, -, -, -, -, e0, e1, -⟩ := idx2 t
  refine ⟨t, flush2_3 t, ?_⟩
  rw [mem_blk3]
  intro a
  match a with
  | ⟨0, _⟩ =>
    show win2_3.index t 0 * 2048 ≤ (i 0).val ∧ (i 0).val < win2_3.index t 0 * 2048 + 2048
    rw [e0, ht]; omega
  | ⟨1, _⟩ =>
    show win2_3.index t 1 * 640 ≤ (i 1).val ∧ (i 1).val < win2_3.index t 1 * 640 + 640
    rw [e1, ht]; omega

include hx hw hb in

theorem arr3 : (dat2 V c).arrAt 3 cfg2.N = logitsArr I :=
  (dat2 V c).arrAt_eq_of_cover 3 _ (fun t _ => flushed3_eq V c I hx hw hb t) cover3

include hx hw hb in

theorem logits_val : ∀ (p : Fin 8192) (q : Fin 32000),
    ((dat2 V c).arrAt 3 cfg2.N : S8192x32000.Idx → EReal) (ix2 p q) = ((Cert.Spec.logitsOut I p q : ℝ) : EReal) :=
  fun p q => congrFun (arr3 V c I hx hw hb) (ix2 p q)

end Cert.KernelIdeal.Val

end
-- ==== Proof.KI.Val2Lse.lean ====
import proofs.«413320_j45251775431036_3_alg».proof.Proof.Spec
import proofs.«413320_j45251775431036_3_alg».proof.Proof.LibOnlineSoftmax
import Mathlib.Data.Finset.Lattice.Fold
import Mathlib.Algebra.BigOperators.Group.Finset.Basic

noncomputable section

open scoped BigOperators

namespace Cert.KernelIdeal.Val.Lse

open Idealize.ShloMosaic Cert.Lib.OnlineSoftmax

section
variable (n : ℕ)

def colsBefore : Finset (Fin 32000) := Finset.univ.filter fun v => v.val < 640 * n

def col (hn : n < 50) : Fin 640 ↪ Fin 32000 :=
  ⟨fun j => ⟨640 * n + j.val, by have := j.isLt; omega⟩, fun a b h => by
    apply Fin.ext
    have h' : 640 * n + a.val = 640 * n + b.val := congrArg Fin.val h
    omega⟩

theorem col_val (hn : n < 50) (j : Fin 640) : (col n hn j).val = 640 * n + j.val := rfl

def colsOf (hn : n < 50) : Finset (Fin 32000) := Finset.univ.map (col n hn)

theorem mem_colsOf (hn : n < 50) (v : Fin 32000) : v ∈ colsOf n hn ↔ 640 * n ≤ v.val ∧ v.val < 640 * (n + 1) := by
  unfold colsOf
  rw [Finset.mem_map]
  constructor
  · rintro ⟨j, -, rfl⟩
    have := j.isLt
    rw [col_val]
    omega
  · rintro ⟨h1, h2⟩
    exact ⟨⟨v.val - 640 * n, by omega⟩, Finset.mem_univ _, Fin.ext (by rw [col_val]; show 640 * n + (v.val - 640 * n) = v.val; omega)⟩

theorem mem_colsBefore (v : Fin 32000) : v ∈ colsBefore n ↔ v.val < 640 * n := by
  unfold colsBefore
  rw [Finset.mem_filter]
  exact ⟨fun h => h.2, fun h => ⟨Finset.mem_univ _, h⟩⟩

theorem colsBefore_succ (hn : n < 50) : colsBefore (n + 1) = colsBefore n ∪ colsOf n hn := by
  ext v
  rw [Finset.mem_union, mem_colsBefore, mem_colsBefore, mem_colsOf]
  omega

theorem colsBefore_disjoint (hn : n < 50) : Disjoint (colsBefore n) (colsOf n hn) := by
  rw [Finset.disjoint_left]
  intro v h1 h2
  rw [mem_colsBefore] at h1
  rw [mem_colsOf] at h2
  omega

theorem colsOf_nonempty (hn : n < 50) : (colsOf n hn).Nonempty :=
  ⟨col n hn 0, Finset.mem_map_of_mem _ (Finset.mem_univ _)⟩

end

theorem colsBefore_zero : colsBefore 0 = ∅ := by
  ext v
  rw [mem_colsBefore]
  simp

theorem colsBefore_all : colsBefore 50 = Finset.univ := by
  ext v
  rw [mem_colsBefore]
  have := v.isLt
  simp only [Finset.mem_univ, iff_true]
  omega

theorem tile_step (x : Fin 32000 → EReal) (hx : ∀ v, IsReal (x v)) (n : ℕ) (hn : n < 50) (xt : Fin 640 → EReal) (hxt : ∀ j, xt j = x (col n hn j)) (M L : EReal) (hM : M = (colsBefore n).sup x) (hL : L = ∑ v ∈ colsBefore n, wt x (fun _ => 0) M v) :
    max M (Finset.univ.sup xt) = (colsBefore (n + 1)).sup x
    ∧ Ideal.exp (M - max M (Finset.univ.sup xt)) * L + ∑ j : Fin 640, Ideal.exp (xt j - max M (Finset.univ.sup xt))
        = ∑ v ∈ colsBefore (n + 1), wt x (fun _ => 0) ((colsBefore (n + 1)).sup x) v := by
  have hsup : Finset.univ.sup xt = (colsOf n hn).sup x := by
    rw [colsOf, Finset.sup_map]
    exact congrArg _ (funext hxt)
  have hmax : max M (Finset.univ.sup xt) = (colsBefore (n + 1)).sup x := by
    rw [hsup, hM, step_max, ← colsBefore_succ]
  refine ⟨hmax, ?_⟩
  rw [hmax, colsBefore_succ n hn, hL, hM,
    ← step_sum x (fun _ => 0) hx (fun _ => ⟨0, rfl⟩) _ _ (colsBefore_disjoint n hn) (colsOf_nonempty n hn)]
  congr 1
  rw [colsOf, Finset.sum_map]
  refine Finset.sum_congr rfl fun j _ => ?_
  rw [wt, hxt, add_zero]

theorem sup_coe (f : Fin 32000 → ℝ) :
    (Finset.univ.sup fun v => ((f v : ℝ) : EReal))
      = ((Finset.univ.sup' ⟨(0 : Fin 32000), Finset.mem_univ _⟩ f : ℝ) : EReal) := by
  rw [← Finset.sup'_eq_sup ⟨(0 : Fin 32000), Finset.mem_univ _⟩]
  exact (Finset.apply_sup'_eq_sup'_comp _ (fun r : ℝ => (r : EReal))
    (fun a b => Monotone.map_max EReal.coe_strictMono.monotone)).symm

open Cert.Spec in

theorem lse_final (I : Inp) (b : Fin 4) (t : Fin 2048) (M L : EReal) (hM : M = (colsBefore 50).sup fun v => ((logit I b t v : ℝ) : EReal)) (hL : L = ∑ v ∈ colsBefore 50, wt (fun v => ((logit I b t v : ℝ) : EReal)) (fun _ => 0) M v) :
    M + Ideal.log L = ((lmax I b t + Real.log (lsum I b t) : ℝ) : EReal) := by
  rw [colsBefore_all] at hM hL
  have hM' : M = ((lmax I b t : ℝ) : EReal) := hM.trans (sup_coe (logit I b t))
  have hL' : L = ((lsum I b t : ℝ) : EReal) := by
    rw [hL, hM']
    unfold lsum
    rw [coe_finset_sum]
    refine Finset.sum_congr rfl fun v _ => ?_
    rw [wt, add_zero, ← EReal.coe_sub, Ideal.exp_coe]
  rw [hM', hL', Ideal.log_coe, if_neg (not_le.2 (lsum_pos I b t)), ← EReal.coe_add]

end Cert.KernelIdeal.Val.Lse

end
-- ==== Proof.KI.Val2Cover4.lean ====
import proofs.«413320_j45251775431036_3_alg».proof.Proof.KI.Runs2
import Idealize.ShloMosaic.Lib.Pipeline.Value
import Idealize.ShloMosaic.Lib.ValueIdx
set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

theorem cover4_idx : ∀ t : Fin cfg2.N, win2_4.index t (0 : Fin 2) = t.val / 50 ∧ win2_4.index t (1 : Fin 2) = 0 :=
  (by decide +kernel : ∀ t : Fin grid2.N, _)

variable (V : (c : Dev nD) → (b : Ref sig .tc) → Buf (Elt Ideal) ((c : Thread nD τ).loc b)) (c : Dev nD)

theorem cover4_sc2_congr (n m : ℕ) (hn : n < cfg2.N) (hm : m < cfg2.N) (e : n = m) : sc2 V c n hn = sc2 V c m hm := by
  subst e; rfl

section
variable (G : Fin 8192 → EReal)

def cover4_G : S8192x1.Idx → EReal := fun k => G ⟨(k 0).val, (k 0).isLt⟩

theorem cover4_point (hG : ∀ (i : Fin 4) (r : Fin 2048) (p : Fin 8192) (h : 50 * i.val + 49 < cfg2.N), p.val = 2048 * i.val + r.val →
      fin2 (sc2 V c (50 * i.val + 49) h) (ix2 r (0 : Fin 1)) = G p) (t : Fin cfg2.N) (h49 : t.val % 50 = 49) (y : S2048x1.Idx) (k : S8192x1.Idx) (hk0 : (k 0).val = 2048 * (t.val / 50) + (y 0).val) :
    o2_4 V c t y = cover4_G G k := by
  have hN : t.val < 200 := lt_of_lt_of_eq t.isLt (show cfg2.N = 200 from N_2)
  have hi : t.val / 50 < 4 := by omega
  have hN2 : cfg2.N = 200 := N_2
  have ht' : 50 * (t.val / 50) + 49 < cfg2.N := by omega
  have hy1 : y 1 = (0 : Fin 1) := Fin.ext (by have h1 : (y 1).val < 1 := (y 1).isLt; show (y 1).val = 0; omega)
  have hy : y = ix2 (y 0) (0 : Fin 1) := (eq_ix2 y).trans (congrArg (ix2 (y 0)) hy1)
  have e := hG ⟨t.val / 50, hi⟩ (y 0) ⟨(k 0).val, (k 0).isLt⟩ ht' hk0
  have e1 : o2_4 V c t y = o2_4 V c t (ix2 (y 0) (0 : Fin 1)) := congrArg (o2_4 V c t) hy
  rw [e1]
  unfold o2_4 cover4_G
  rw [cover4_sc2_congr V c t.val (50 * (t.val / 50) + 49) t.isLt ht' (by omega)]
  exact e

theorem cover4_flushed (hG : ∀ (i : Fin 4) (r : Fin 2048) (p : Fin 8192) (h : 50 * i.val + 49 < cfg2.N), p.val = 2048 * i.val + r.val →
      fin2 (sc2 V c (50 * i.val + 49) h) (ix2 r (0 : Fin 1)) = G p) (t : Fin cfg2.N) (hf : (cfg2.win 4).flush t = true) :
    (dat2 V c).flushed 4 t = ((cfg2.win 4).blk t).view.read (Elt Ideal) (cover4_G G) := by
  have h49 : t.val % 50 = 49 := (flush2_4 t).mp hf
  obtain ⟨e0, e1⟩ := cover4_idx t
  show (cfg2.win 4).cut (grid2.coords t) ((dat2 V c).after 4 t) = _
  rw [after2_4]
  funext y
  rw [View.read_apply]
  show o2_4 V c t y = cover4_G G (((cfg2.win 4).blk t).view.emb y)
  refine cover4_point V c G hG t h49 y _ ?_
  show win2_4.index t (0 : Fin 2) * 2048 + 1 * (y 0).val = 2048 * (t.val / 50) + (y 0).val
  rw [e0]; omega

end

theorem cover4_cover (k : S8192x1.Idx) :
    ∃ t : Fin cfg2.N, (cfg2.win 4).flush t = true ∧ k ∈ ((cfg2.win 4).blk t).view.set := by
  have hk0 : (k 0).val < 8192 := (k 0).isLt
  have hk1 : (k 1).val < 1 := (k 1).isLt
  have hN2 : cfg2.N = 200 := N_2
  have ht : 50 * ((k 0).val / 2048) + 49 < cfg2.N := by omega
  obtain ⟨e0, e1⟩ := cover4_idx ⟨50 * ((k 0).val / 2048) + 49, ht⟩
  have e0' : win2_4.index ⟨50 * ((k 0).val / 2048) + 49, ht⟩ (0 : Fin 2) = (k 0).val / 2048 := by rw [e0]; dsimp only; omega
  refine ⟨⟨50 * ((k 0).val / 2048) + 49, ht⟩, (flush2_4 _).mpr (by dsimp only; omega), ?_⟩
  show k ∈ ((View.whole main_v16_1).slice (win2_4.rect ⟨50 * ((k 0).val / 2048) + 49, ht⟩)).set
  rw [View.set_slice_whole, Rect.mem_set_unit]
  intro a
  match a with
  | ⟨0, _⟩ =>
    show win2_4.index ⟨50 * ((k 0).val / 2048) + 49, ht⟩ (0 : Fin 2) * 2048 ≤ (k 0).val
      ∧ (k 0).val < win2_4.index ⟨50 * ((k 0).val / 2048) + 49, ht⟩ (0 : Fin 2) * 2048 + 2048
    rw [e0']; omega
  | ⟨1, _⟩ =>
    show win2_4.index ⟨50 * ((k 0).val / 2048) + 49, ht⟩ (1 : Fin 2) * 1 ≤ (k 1).val
      ∧ (k 1).val < win2_4.index ⟨50 * ((k 0).val / 2048) + 49, ht⟩ (1 : Fin 2) * 1 + 1
    rw [e1]; omega

theorem lse_arr_of (G : Fin 8192 → EReal) (hG : ∀ (i : Fin 4) (r : Fin 2048) (p : Fin 8192) (h : 50 * i.val + 49 < cfg2.N), p.val = 2048 * i.val + r.val →
      fin2 (sc2 V c (50 * i.val + 49) h) (ix2 r (0 : Fin 1)) = G p) :
    ∀ p : Fin 8192, ((dat2 V c).arrAt 4 cfg2.N : S8192x1.Idx → EReal) (ix2 p (0 : Fin 1)) = G p := by
  intro p
  have h := (dat2 V c).arrAt_eq_of_cover 4 (cover4_G G) (cover4_flushed V c G hG) cover4_cover
  exact (congrFun h (ix2 p (0 : Fin 1))).trans rfl

end Cert.KernelIdeal.Val

end
-- ==== Proof.KI.Val2.lean ====
import proofs.«413320_j45251775431036_3_alg».proof.Proof.KI.Base
import proofs.«413320_j45251775431036_3_alg».proof.Proof.KI.Tiles
import proofs.«413320_j45251775431036_3_alg».proof.Proof.KI.Runs2
import proofs.«413320_j45251775431036_3_alg».proof.Proof.KI.Val2Step
import proofs.«413320_j45251775431036_3_alg».proof.Proof.KI.Val2Lse
import proofs.«413320_j45251775431036_3_alg».proof.Proof.KI.Val2Blocks
import proofs.«413320_j45251775431036_3_alg».proof.Proof.KI.Val2Cover4
import proofs.«413320_j45251775431036_3_alg».proof.Proof.Spec
import proofs.«413320_j45251775431036_3_alg».proof.Proof.LibOnlineSoftmax
import Idealize.ShloMosaic.Lib.Pipeline.Value
set_option maxRecDepth 16384

noncomputable section

open scoped BigOperators

namespace Cert.KernelIdeal.Val

open Idealize.ShloMosaic Idealize.ShloMosaic.ValueIdx Idealize.ShloMosaic.TcCoe
open Idealize.ShloMosaic.Pipeline (Dat)
open Cert.KernelIdeal Cert.KernelIdeal.Gen Cert.KernelIdeal.Hand Cert.Tiles
open Cert.Lib.OnlineSoftmax Cert.KernelIdeal.Val.Lse

theorem init2_inv (r : Fin 2048) (xs : Fin 32000 → EReal) :
    (init2 (F := Ideal)).1 (ix2 r (0 : Fin 1)) = (colsBefore 0).sup xs
    ∧ (init2 (F := Ideal)).2 (ix2 r (0 : Fin 1))
        = ∑ v ∈ colsBefore 0, wt xs (fun _ => 0) ((init2 (F := Ideal)).1 (ix2 r (0 : Fin 1))) v := by
  rw [colsBefore_zero, init2_max, init2_sum, Finset.sup_empty, Finset.sum_empty]
  exact ⟨rfl, rfl⟩

theorem step2_inv (x : Vec Ideal S2048x256 .bf16) (w : Vec Ideal S256x640 .bf16) (bias : Vec Ideal S1x640 .f32) (s : St2 Ideal) (r : Fin 2048) (xs : Fin 32000 → EReal) (hxs : ∀ v, IsReal (xs v)) (n : ℕ) (hn : n < 50) (hlog : ∀ j : Fin 640, pLogit x w bias r j = xs (col n hn j)) (hs : s.1 (ix2 r (0 : Fin 1)) = (colsBefore n).sup xs
      ∧ s.2 (ix2 r (0 : Fin 1)) = ∑ v ∈ colsBefore n, wt xs (fun _ => 0) (s.1 (ix2 r (0 : Fin 1))) v) :
    (step2 x w bias s).1 (ix2 r (0 : Fin 1)) = (colsBefore (n + 1)).sup xs
    ∧ (step2 x w bias s).2 (ix2 r (0 : Fin 1))
        = ∑ v ∈ colsBefore (n + 1), wt xs (fun _ => 0) ((step2 x w bias s).1 (ix2 r (0 : Fin 1))) v := by
  have h := tile_step xs hxs n hn (fun j => pLogit x w bias r j) hlog _ _ hs.1 hs.2
  rw [step2_max, step2_sum]
  refine ⟨h.1, ?_⟩
  have e : pMax x w bias (s.1 (ix2 r (0 : Fin 1))) r = (colsBefore (n + 1)).sup xs := h.1
  rw [e]
  exact h.2

variable (V : (c : Dev nD) → (b : Ref sig .tc) → Buf (Elt Ideal) ((c : Thread nD τ).loc b)) (c : Dev nD) (I : Cert.Spec.Inp)

def rowLogits (p : Fin 8192) : Fin 32000 → EReal :=
  fun v => ((Cert.Spec.logit I (Cert.Spec.rowB p) (Cert.Spec.rowT p) v : ℝ) : EReal)

theorem rowLogits_real (p : Fin 8192) : ∀ v, IsReal (rowLogits I p v) := fun v => ⟨_, rfl⟩

theorem lt2 (i : Fin 4) (jt : ℕ) (hjt : jt < 50) : 50 * i.val + jt < cfg2.N := by
  have := i.isLt
  show 50 * i.val + jt < 200
  omega

theorem sc2_succ (n : ℕ) (hn : n + 1 < cfg2.N) (h : ¬(n + 1) % 50 = 0) :
    sc2 V c (n + 1) hn
      = step2 (b2_0 V c ⟨n + 1, hn⟩) (b2_1 V c ⟨n + 1, hn⟩) (b2_2 V c ⟨n + 1, hn⟩) (sc2 V c n (Nat.lt_of_succ_lt hn)) :=
  congrArg (step2At V c ⟨n + 1, hn⟩) (if_neg h)

section

variable (hPL : ∀ (t : Fin cfg2.N) (r : Fin 2048) (j : Fin 640) (p : Fin 8192) (v : Fin 32000),
    p.val = 2048 * (t.val / 50) + r.val → v.val = 640 * (t.val % 50) + j.val →
    pLogit (b2_0 V c t) (b2_1 V c t) (b2_2 V c t) r j = ((Cert.Spec.logit I (Cert.Spec.rowB p) (Cert.Spec.rowT p) v : ℝ) : EReal))

include hPL

theorem sc2_inv (i : Fin 4) (r : Fin 2048) (p : Fin 8192) (hp : p.val = 2048 * i.val + r.val) :
    ∀ (jt : ℕ) (hjt : jt < 50),
      (sc2 V c (50 * i.val + jt) (lt2 i jt hjt)).1 (ix2 r (0 : Fin 1)) = (colsBefore (jt + 1)).sup (rowLogits I p)
      ∧ (sc2 V c (50 * i.val + jt) (lt2 i jt hjt)).2 (ix2 r (0 : Fin 1))
          = ∑ v ∈ colsBefore (jt + 1), wt (rowLogits I p) (fun _ => 0)
              ((sc2 V c (50 * i.val + jt) (lt2 i jt hjt)).1 (ix2 r (0 : Fin 1))) v
  | 0, hjt => by
    have hi := i.isLt
    have e : sc2 V c (50 * i.val + 0) (lt2 i 0 hjt)
        = step2 (b2_0 V c ⟨50 * i.val + 0, lt2 i 0 hjt⟩) (b2_1 V c ⟨50 * i.val + 0, lt2 i 0 hjt⟩)
            (b2_2 V c ⟨50 * i.val + 0, lt2 i 0 hjt⟩) init2 :=
      sc2_first V c ⟨50 * i.val + 0, lt2 i 0 hjt⟩ (by show (50 * i.val + 0) % 50 = 0; omega)
    rw [e]
    refine step2_inv _ _ _ _ r (rowLogits I p) (rowLogits_real I p) 0 hjt (fun j => ?_) (init2_inv r _)
    refine hPL ⟨50 * i.val + 0, lt2 i 0 hjt⟩ r j p (col 0 hjt j) ?_ ?_
    · show p.val = 2048 * ((50 * i.val + 0) / 50) + r.val
      omega
    · show 640 * 0 + j.val = 640 * ((50 * i.val + 0) % 50) + j.val
      omega
  | jt + 1, hjt => by
    have hi := i.isLt
    have ih := sc2_inv i r p hp jt (by omega)
    have e : sc2 V c (50 * i.val + (jt + 1)) (lt2 i (jt + 1) hjt)
        = step2 (b2_0 V c ⟨50 * i.val + (jt + 1), lt2 i (jt + 1) hjt⟩) (b2_1 V c ⟨50 * i.val + (jt + 1), lt2 i (jt + 1) hjt⟩)
            (b2_2 V c ⟨50 * i.val + (jt + 1), lt2 i (jt + 1) hjt⟩) (sc2 V c (50 * i.val + jt) (lt2 i jt (by omega))) :=
      sc2_succ V c (50 * i.val + jt) (lt2 i (jt + 1) hjt) (by omega)
    rw [e]
    refine step2_inv _ _ _ _ r (rowLogits I p) (rowLogits_real I p) (jt + 1) hjt (fun j => ?_) ih
    refine hPL ⟨50 * i.val + (jt + 1), lt2 i (jt + 1) hjt⟩ r j p (col (jt + 1) hjt j) ?_ ?_
    · show p.val = 2048 * ((50 * i.val + (jt + 1)) / 50) + r.val
      omega
    · show 640 * (jt + 1) + j.val = 640 * ((50 * i.val + (jt + 1)) % 50) + j.val
      omega

theorem fin2_last (i : Fin 4) (r : Fin 2048) (p : Fin 8192) (h : 50 * i.val + 49 < cfg2.N) (hp : p.val = 2048 * i.val + r.val) :
    fin2 (sc2 V c (50 * i.val + 49) h) (ix2 r (0 : Fin 1))
      = ((Cert.Spec.lmax I (Cert.Spec.rowB p) (Cert.Spec.rowT p)
          + Real.log (Cert.Spec.lsum I (Cert.Spec.rowB p) (Cert.Spec.rowT p)) : ℝ) : EReal) := by
  have hs := sc2_inv V c I hPL i r p hp 49 (by omega)
  exact (fin2_val _ r).trans (lse_final I _ _ _ _ hs.1 hs.2)

end

variable
  (hx : ∀ (r : Fin 8192) (d : Fin 256), (V c main_v13 : S8192x256.Idx → EReal) (ix2 r d)
    = ((Cert.Spec.ctx I (Cert.Spec.rowB r) (Cert.Spec.rowT r) d : ℝ) : EReal))
  (hw : ∀ (k : Fin 256) (v : Fin 32000), (V c main_v14 : S256x32000.Idx → EReal) (ix2 k v) = ((I.Wp k v : ℝ) : EReal))
  (hb : ∀ v : Fin 32000, (V c main_v15 : S1x32000.Idx → EReal) (ix2 (0 : Fin 1) v) = ((I.bp v : ℝ) : EReal))

include hx hw hb in

theorem lse_val : ∀ p : Fin 8192, ((dat2 V c).arrAt 4 cfg2.N : S8192x1.Idx → EReal) (ix2 p (0 : Fin 1))
    = ((Cert.Spec.lmax I (Cert.Spec.rowB p) (Cert.Spec.rowT p)
        + Real.log (Cert.Spec.lsum I (Cert.Spec.rowB p) (Cert.Spec.rowT p)) : ℝ) : EReal) :=
  lse_arr_of V c
    (fun p => ((Cert.Spec.lmax I (Cert.Spec.rowB p) (Cert.Spec.rowT p)
        + Real.log (Cert.Spec.lsum I (Cert.Spec.rowB p) (Cert.Spec.rowT p)) : ℝ) : EReal))
    (fun i r p h hp => fin2_last V c I (pLogit_blocks V c I hx hw hb) i r p h hp)

end Cert.KernelIdeal.Val

end
-- ==== Proof.LibTakeAlong.lean ====
import Idealize.ShloMosaic.Lib.ValueIdx
import Idealize.ShloMosaic.PureOps.ShapeOps
import Idealize.ShloMosaic.PureOps.Dims

noncomputable section

namespace Cert.Lib

open Idealize.ShloMosaic Idealize.ShloMosaic.ValueIdx

theorem getElem_congr_both {β : Type} {l l' : List β} {k k' : Nat} (hl : l = l') (hk : k = k') (h : k < l.length) (h' : k' < l'.length) : l[k] = l'[k'] := by
  subst hl; subst hk; rfl

section
variable {N C : Nat} (d : GatherDims ⟨2, ![N, C]⟩ ⟨3, ![N, 1, 1]⟩ ⟨2, ![N, 1]⟩)

theorem along_batchDims (hoff : d.offsetDims = []) : d.batchDims = [0, 1] := by
  show Shape.kept _ d.offsetDims = _
  rw [hoff]
  rfl

theorem along_siKept (hivd : d.indexVectorDim = 2) : d.siKept = [0, 1] := by
  show (List.finRange 3).filter (fun b => decide (b.val ≠ d.indexVectorDim)) = _
  rw [hivd]
  rfl

theorem along_siCoord0 (hoff : d.offsetDims = []) (hivd : d.indexVectorDim = 2) (p : Fin N) (u : Fin 1) (hb : (0 : Fin 3) ∈ d.siKept) : (d.siCoord (ix2 p u) 0 hb).val = p.val := by
  unfold GatherDims.siCoord
  simp only [Fin.val_cast]
  have hk : d.siKept.idxOf (0 : Fin 3) = 0 := by rw [along_siKept d hivd]; rfl
  have e : ∀ h, d.batchDims[d.siKept.idxOf (0 : Fin 3)]'h = (0 : Fin 2) := fun h =>
    getElem_congr_both (l' := [0, 1]) (k' := 0) (along_batchDims d hoff) hk h (by simp)
  rw [e]

end

theorem gather_along_col {α : Type} {N C w : Nat} (d : GatherDims ⟨2, ![N, C]⟩ ⟨3, ![N, 1, 1]⟩ ⟨2, ![N, 1]⟩) (hoff : d.offsetDims = []) (hcoll : d.collapsedSliceDims = [1]) (hob : d.operandBatchingDims = [0]) (hsb : d.startIndicesBatchingDims = [0]) (hsim : d.startIndexMap = [1]) (hivd : d.indexVectorDim = 2) (x : (⟨2, ![N, C]⟩ : Shape).Idx → α) (idx : IVec ⟨3, ![N, 1, 1]⟩ w) (p : Fin N) (u : Fin 1) (hC : 0 < C) :
    Host.gather d x idx (ix2 p u)
      = x (ix2 p ⟨min (idx (ix3 p (0 : Fin 1) (0 : Fin 1))).toInt.toNat (C - 1), by omega⟩) := by
  unfold Host.gather
  congr 1
  funext a
  apply Fin.ext
  match a with
  | ⟨0, _⟩ =>

    have hb0 : (0 : Fin 2) ∈ d.operandBatchingDims := by rw [hob]; exact List.mem_singleton.mpr rfl
    have hk0 : (0 : Fin 2) ∉ d.sKept := by rw [GatherDims.mem_sKept]; exact fun h => h.2 hb0
    show (d.operandIdx (ix2 p u) idx 0).val = p.val
    simp only [GatherDims.operandIdx, GatherDims.start_batching _ _ _ _ hb0, GatherDims.offCoord_eq_zero _ _ _ hk0,
      Nat.add_zero, Nat.zero_add]
    unfold GatherDims.batchCoord
    rw [dif_pos hb0]

    have hsbAll : ∀ y ∈ d.startIndicesBatchingDims, y = 0 := by
      intro y hy; rw [hsb] at hy; exact List.mem_singleton.1 hy
    have key : ∀ (b : Fin 3) (hb : b ∈ d.siKept), b = 0 → (d.siCoord (ix2 p u) b hb).val = p.val := by
      rintro b hb rfl
      exact along_siCoord0 d hoff hivd p u hb
    exact key _ _ (hsbAll _ (List.getElem_mem _))
  | ⟨1, _⟩ =>

    have hb1 : (1 : Fin 2) ∉ d.operandBatchingDims := by rw [hob]; simp
    have hk1 : (1 : Fin 2) ∉ d.sKept := by
      rw [GatherDims.mem_sKept, hcoll]; exact fun h => h.1 (List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)

    have hsi : ∀ c, d.siIdx (ix2 p u) c = ix3 p (0 : Fin 1) (0 : Fin 1) := by
      intro c
      funext b
      match b with
      | ⟨0, _⟩ =>
        unfold GatherDims.siIdx
        rw [dif_neg (by rw [hivd]; simp)]
        apply Fin.ext
        exact along_siCoord0 d hoff hivd p u _
      | ⟨1, _⟩ => exact Subsingleton.elim (α := Fin 1) _ _
      | ⟨2, _⟩ => exact Subsingleton.elim (α := Fin 1) _ _
    show (d.operandIdx (ix2 p u) idx 1).val = _
    simp only [GatherDims.operandIdx, GatherDims.batchCoord_eq_zero _ _ _ hb1, GatherDims.offCoord_eq_zero _ _ _ hk1,
      Nat.add_zero, GatherDims.start, dif_pos hm]
    rw [hsi, hsl]
    rfl

end Cert.Lib

end
-- ==== Proof.KI.GlueC.lean ====
import proofs.«413320_j45251775431036_3_alg».proof.Proof.KI.Inputs
import proofs.«413320_j45251775431036_3_alg».proof.Proof.Gen.KernelIdeal.Regions
import proofs.«413320_j45251775431036_3_alg».proof.Proof.LibWrapTake
import proofs.«413320_j45251775431036_3_alg».proof.Proof.LibTakeAlong
import proofs.«413320_j45251775431036_3_alg».proof.Proof.LibOnlineSoftmax
import Idealize.ShloMosaic.Lib.StableHlo.Run
import Idealize.ShloMosaic.Lib.ValueIdx
import Idealize.ShloMosaic.Lib.ValueIdxRank1
import Idealize.ShloMosaic.Lib.Pipeline.Value
import Idealize.ShloMosaic.PureOps.Ideal.Laws
set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Cert.Spec (rowB rowT)

def wrapWord (w : BitVec 32) : BitVec 32 :=
  Scalar.select (IntOp.cmpi .slt w 0#32) (IntOp.addi w (BitVec.ofNat 32 32000)) w

theorem tcol_apply (tg : IVec S4x2048 32) (h : S4x2048.ShapeCasts S8192x1) (p : Fin 8192) :
    shapeCast S8192x1 tg h (ix2 p (0 : Fin 1)) = tg (ix2 (rowB p) (rowT p)) := by
  refine shapeCast_apply tg h _ _ ?_
  rw [Shape.rowMajor_val_two, Shape.rowMajor_val_two]
  show p.val / 2048 * 2048 + p.val % 2048 = p.val * 1 + 0
  omega

def wcolC (t : IVec S8192x1 32) : IVec S8192x1x1 32 :=
  shapeCast S8192x1x1
    (select (cmpi .slt t (broadcastInDim S8192x1 ![] bcast_S_S8192x1 (constantI S_ 32 0#32)))
      (addi t (broadcastInDim S8192x1 ![] bcast_S_S8192x1 (constantI S_ 32 32000#32))) t)
    shapeCasts_S8192x1_S8192x1x1

def wcol (tg : IVec S4x2048 32) : IVec S8192x1x1 32 := wcolC (shapeCast S8192x1 tg shapeCasts_S4x2048_S8192x1)

theorem idx3_eq (i : S8192x1x1.Idx) : ∃ p : Fin 8192, i = ix3 p (0 : Fin 1) (0 : Fin 1) := by
  refine ⟨i 0, ?_⟩
  funext b
  match b with
  | ⟨0, _⟩ => rfl
  | ⟨1, _⟩ => exact Subsingleton.elim (α := Fin 1) _ _
  | ⟨2, _⟩ => exact Subsingleton.elim (α := Fin 1) _ _

theorem wcol_apply (tg : IVec S4x2048 32) (p : Fin 8192) :
    wcol tg (ix3 p (0 : Fin 1) (0 : Fin 1)) = wrapWord (tg (ix2 (rowB p) (rowT p))) := by
  unfold wcol wcolC
  rw [shapeCast_apply _ shapeCasts_S8192x1_S8192x1x1 (ix3 p (0 : Fin 1) (0 : Fin 1)) (ix2 p (0 : Fin 1)) (by
    rw [Shape.rowMajor_val_two, Shape.rowMajor_val_three]
    show p.val * 1 + 0 = (p.val * 1 + 0) * 1 + 0
    omega)]
  show Scalar.select (IntOp.cmpi .slt (shapeCast S8192x1 tg shapeCasts_S4x2048_S8192x1 (ix2 p (0 : Fin 1))) 0#32)
      (IntOp.addi (shapeCast S8192x1 tg shapeCasts_S4x2048_S8192x1 (ix2 p (0 : Fin 1))) 32000#32)
      (shapeCast S8192x1 tg shapeCasts_S4x2048_S8192x1 (ix2 p (0 : Fin 1))) = _
  rw [tcol_apply]
  rfl

def wmask (v : IVec S8192x1x1 32) : IVec S8192x1 1 :=
  Host.reduce IntOp.andi
    (andi (cmpi .sge v (broadcastInDim S8192x1x1 ![] bcast_S_S8192x1x1 (constantI S_ 32 0#32)))
      (cmpi .sle v (broadcastInDim S8192x1x1 ![0, 1, 2] bcast_S1x1x1_S8192x1x1_0_1_2
        (broadcastInDim S1x1x1 ![2] bcast_S1_S1x1x1_2 (constantI S1 32 31999#32)))))
    (constantI S_ 1 1#1) reducesTo_S8192x1x1_S8192x1_d2 h_S_

theorem wmask_one (v : IVec S8192x1x1 32) (hv : ∀ i, 0 ≤ (v i).toInt ∧ (v i).toInt ≤ 31999) (j : S8192x1.Idx) :
    wmask v j = 1#1 := by
  unfold wmask
  refine Cert.LibWrapTake.reduce_andi_one_of_all _ _ _ _ (fun _ => rfl) (fun i => ?_) j
  refine IntOp.andi_eq_one.2 ⟨IntOp.cmpi_sge.2 ?_, IntOp.cmpi_sle.2 ?_⟩
  · show (0#32 : BitVec 32).toInt ≤ (v i).toInt
    have h0 : (0#32 : BitVec 32).toInt = 0 := by decide
    rw [h0]; exact (hv i).1
  · show (v i).toInt ≤ (31999#32 : BitVec 32).toInt
    have h1 : (31999#32 : BitVec 32).toInt = 31999 := by decide
    rw [h1]; exact (hv i).2

section
variable (lg : FVec Ideal S8192x32000 .f32)

def takenColC (t : IVec S8192x1 32) : FVec Ideal S8192x1 .f32 :=
  select (wmask (wcolC t))
    (Host.gather gather_S8192x32000_S8192x1x1_S8192x1_n_1_0_0_1_2_11 lg (wcolC t))
    (broadcastInDim S8192x1 ![] bcast_S_S8192x1 (constant (F := Ideal) S_ .f32 0x7FC00000#32))

def takenCol (tg : IVec S4x2048 32) : FVec Ideal S8192x1 .f32 :=
  takenColC lg (shapeCast S8192x1 tg shapeCasts_S4x2048_S8192x1)

theorem takenCol_apply (tg : IVec S4x2048 32) (hlo : ∀ i, -(32000 : Int) ≤ (tg i).toInt) (hhi : ∀ i, (tg i).toInt < 32000) (p : Fin 8192) :
    takenCol lg tg (ix2 p (0 : Fin 1))
      = lg (ix2 p (Cert.Spec.wrapIdx 32000 (by decide) (tg (ix2 (rowB p) (rowT p))))) := by
  have hr : ∀ i, 0 ≤ (wcol tg i).toInt ∧ (wcol tg i).toInt ≤ 31999 := by
    intro i
    obtain ⟨q, rfl⟩ := idx3_eq i
    rw [wcol_apply]
    have := Cert.LibWrapTake.wrap_range 32000 (by norm_num) (tg (ix2 (rowB q) (rowT q))) (hlo _) (hhi _)
    unfold wrapWord
    exact ⟨this.1, by have h2 := this.2; omega⟩
  show select (wmask (wcol tg)) (Host.gather gather_S8192x32000_S8192x1x1_S8192x1_n_1_0_0_1_2_11 lg (wcol tg))
    (broadcastInDim S8192x1 ![] bcast_S_S8192x1 (constant (F := Ideal) S_ .f32 0x7FC00000#32)) (ix2 p (0 : Fin 1)) = _
  rw [select_apply, wmask_one _ hr, select_one,
    Cert.Lib.gather_along_col gather_S8192x32000_S8192x1x1_S8192x1_n_1_0_0_1_2_11 rfl rfl rfl rfl rfl rfl lg (wcol tg) p
      (0 : Fin 1) (by decide)]
  refine congrArg lg (congrArg (ix2 p) (Fin.ext ?_))
  show min (wcol tg (ix3 p (0 : Fin 1) (0 : Fin 1))).toInt.toNat (32000 - 1) = _
  rw [wcol_apply]
  rfl

end

theorem ofBits_8192_f32 : Ideal.ofBits .f32 0x46000000#32 = ((8192 : ℝ) : EReal) := by
  simp [Ideal.ofBits, Ideal.ieee, -EReal.coe_mul]; norm_num

def lossT (lse tk : FVec Ideal S8192x1 .f32) : FVec Ideal S_ .f32 :=
  Host.divf
    (Host.reduceAdd (shapeCast S8192 (subf lse tk) shapeCasts_S8192x1_S8192)
      (constant (F := Ideal) S_ .f32 0x00000000#32) reducesTo_S8192_S_d0 h_S_)
    (constant (F := Ideal) S_ .f32 0x46000000#32)

theorem lossT_apply (lse tk : FVec Ideal S8192x1 .f32) (L z : Fin 8192 → ℝ) (hL : ∀ p : Fin 8192, lse (ix2 p (0 : Fin 1)) = ((L p : ℝ) : EReal)) (hz : ∀ p : Fin 8192, tk (ix2 p (0 : Fin 1)) = ((z p : ℝ) : EReal)) :
    lossT lse tk ix0 = (((∑ p : Fin 8192, (L p - z p)) / 8192 : ℝ) : EReal) := by
  unfold lossT
  show Ideal.div (Ideal.hostReduceAdd reducesTo_S8192_S_d0 (shapeCast S8192 (subf lse tk) shapeCasts_S8192x1_S8192)
      (Ideal.ofBits .f32 0x00000000#32) ix0) (Ideal.ofBits .f32 0x46000000#32) = _
  rw [Ideal.hostReduceAdd_total reducesTo_S8192_S_d0 (fun b => b.elim0), Ideal.ofBits_zero_f32, zero_add, ofBits_8192_f32,
    ← Equiv.sum_comp (idxEquiv1 (n := 8192)).symm]
  have hs : ∀ k : Fin 8192, shapeCast S8192 (subf lse tk) shapeCasts_S8192x1_S8192 (ix1 k)
      = ((L k - z k : ℝ) : EReal) := by
    intro k
    rw [shapeCast_apply (subf lse tk) shapeCasts_S8192x1_S8192 (ix1 k) (ix2 k (0 : Fin 1)) (by
      rw [Shape.rowMajor_val_two, Shape.rowMajor_val_one]
      show k.val * 1 + 0 = k.val
      omega)]
    rw [subf_apply, hL, hz, EReal.coe_sub]
  show Ideal.div (∑ k : Fin 8192, shapeCast S8192 (subf lse tk) shapeCasts_S8192x1_S8192 (ix1 k)) _ = _
  rw [Finset.sum_congr rfl (fun k _ => hs k), ← Cert.Lib.OnlineSoftmax.coe_finset_sum,
    Ideal.div_coe (by norm_num : (8192 : ℝ) ≠ 0), ← EReal.coe_mul]
  congr 1
  ring

section Stretches

variable (V : Valuation τ sig (Elt Ideal))

theorem stretch3 :
    (StableHlo.after hostOps3 V (Proc.devRef .tc main_v17) : IVec S8192x1 32)
      = shapeCast S8192x1 (V (Proc.devRef .tc main_arg1) : IVec S4x2048 32) shapeCasts_S4x2048_S8192x1 := by
  after_results
  rfl

set_option maxHeartbeats 4000000 in
theorem stretch3_1 :
    (StableHlo.after hostOps3_1 V (Proc.devRef .tc main_v18) : FVec Ideal S8192x1 .f32)
      = takenColC (V (Proc.devRef .tc main_v16_0) : FVec Ideal S8192x32000 .f32)
          (V (Proc.devRef .tc main_v17) : IVec S8192x1 32) := by
  after_results
  simp only [StableHlo.TRef.ofBuf, StableHlo.TRef.toBuf, cast_eq]
  rfl

set_option maxHeartbeats 4000000 in
theorem stretch3_2 :
    (StableHlo.after hostOps3_2 V (Proc.devRef .tc main_v22) : FVec Ideal S_ .f32)
      = lossT (V (Proc.devRef .tc main_v16_1) : FVec Ideal S8192x1 .f32)
          (V (Proc.devRef .tc main_v18) : FVec Ideal S8192x1 .f32) := by
  after_results
  rfl

end Stretches

variable (m : (ℓ : Loc nD τ sig) → Buf (Elt Ideal) ℓ) (c : Dev nD)

theorem W8_v16_0 : (W8 m c main_v16_0 : FVec Ideal S8192x32000 .f32) = (W7 m c main_v16_0 : FVec Ideal S8192x32000 .f32) :=
  StableHlo.after_of_writes_sub hostOps3 _ hostOps3_writes (by decide)

theorem W9_v16_1 : (W9 m c main_v16_1 : FVec Ideal S8192x1 .f32) = (W7 m c main_v16_1 : FVec Ideal S8192x1 .f32) :=
  (StableHlo.after_of_writes_sub hostOps3_1 _ hostOps3_1_writes (by decide)).trans
    (StableHlo.after_of_writes_sub hostOps3 _ hostOps3_writes (by decide))

theorem v22_eq :
    (W10 m c main_v22 : FVec Ideal S_ .f32)
      = lossT (W7 m c main_v16_1 : FVec Ideal S8192x1 .f32)
          (takenCol (W7 m c main_v16_0 : FVec Ideal S8192x32000 .f32) (W7 m c main_arg1 : IVec S4x2048 32)) :=
  calc (W10 m c main_v22 : FVec Ideal S_ .f32)
      = lossT (W9 m c main_v16_1 : FVec Ideal S8192x1 .f32) (W9 m c main_v18 : FVec Ideal S8192x1 .f32) :=
        stretch3_2 (W9 m c)
    _ = lossT (W7 m c main_v16_1 : FVec Ideal S8192x1 .f32)
          (takenColC (W8 m c main_v16_0 : FVec Ideal S8192x32000 .f32) (W8 m c main_v17 : IVec S8192x1 32)) :=
        congrArg₂ lossT (W9_v16_1 m c) (stretch3_1 (W8 m c))
    _ = lossT (W7 m c main_v16_1 : FVec Ideal S8192x1 .f32)
          (takenColC (W7 m c main_v16_0 : FVec Ideal S8192x32000 .f32)
            (shapeCast S8192x1 (W7 m c main_arg1 : IVec S4x2048 32) shapeCasts_S4x2048_S8192x1)) :=
        congrArg (lossT _) (congrArg₂ takenColC (W8_v16_0 m c) (stretch3 (W7 m c)))

theorem W7_arg1 : (W7 m c main_arg1 : IVec S4x2048 32) = m ((c.tc : Thread nD τ).loc main_arg1) := by
  have e7 := W7_of_ne m c main_arg1 (by decide)
  have e6 : W6 m c (Proc.devRef .tc main_arg1) = W5 m c (Proc.devRef .tc main_arg1) :=
    StableHlo.after_of_writes_sub hostOps2 _ hostOps2_writes (by decide)
  have e5 := W5_of_ne m c main_arg1 (by decide)
  have e4 : W4 m c (Proc.devRef .tc main_arg1) = W3 m c (Proc.devRef .tc main_arg1) :=
    StableHlo.after_of_writes_sub hostOps1 _ hostOps1_writes (by decide)
  have e3 := W3_of_ne m c main_arg1 (by decide)
  have e2 : W2 m c (Proc.devRef .tc main_arg1) = W1 m c (Proc.devRef .tc main_arg1) :=
    StableHlo.after_of_writes_sub hostOps0_1 _ hostOps0_1_writes (by decide)
  have e1 : W1 m c (Proc.devRef .tc main_arg1) = W0 m c (Proc.devRef .tc main_arg1) :=
    StableHlo.after_of_writes_sub hostOps0 _ hostOps0_writes (by decide)
  exact e7.trans (e6.trans (e5.trans (e4.trans (e3.trans (e2.trans e1)))))

theorem loss_val (hG : kGood m c) (hlog : ∀ (p : Fin 8192) (q : Fin 32000), (W7 m c main_v16_0 : S8192x32000.Idx → EReal) (ix2 p q)
      = ((Cert.Spec.logitsOut (kI m c) p q : ℝ) : EReal)) (hlse : ∀ p : Fin 8192, (W7 m c main_v16_1 : S8192x1.Idx → EReal) (ix2 p (0 : Fin 1))
      = ((Cert.Spec.lmax (kI m c) (Cert.Spec.rowB p) (Cert.Spec.rowT p)
          + Real.log (Cert.Spec.lsum (kI m c) (Cert.Spec.rowB p) (Cert.Spec.rowT p)) : ℝ) : EReal)) :
    (W10 m c main_v22 : S_.Idx → EReal) ValueIdx.ix0 = ((Cert.Spec.loss (kI m c) : ℝ) : EReal) := by
  have htk : ∀ p : Fin 8192,
      takenCol (W7 m c main_v16_0 : FVec Ideal S8192x32000 .f32) (W7 m c main_arg1 : IVec S4x2048 32) (ix2 p (0 : Fin 1))
        = ((Cert.Spec.logitsOut (kI m c) p ((kI m c).ti p) : ℝ) : EReal) := by
    intro p
    rw [W7_arg1, takenCol_apply _ _ hG.tg_lo hG.tg_hi, hlog]
    rfl
  refine (congrFun (v22_eq m c) ix0).trans ?_
  rw [lossT_apply _ _
    (fun p => Cert.Spec.lmax (kI m c) (rowB p) (rowT p) + Real.log (Cert.Spec.lsum (kI m c) (rowB p) (rowT p)))
    (fun p => Cert.Spec.logitsOut (kI m c) p ((kI m c).ti p)) hlse htk]
  congr 1
  unfold Cert.Spec.loss Cert.Spec.logp Cert.Spec.logitsOut
  rw [← neg_div, ← Finset.sum_neg_distrib]
  congr 1
  refine Finset.sum_congr rfl fun p _ => ?_
  ring

end Cert.KernelIdeal.Val

end
-- ==== Proof.KI.Value.lean ====
import proofs.«413320_j45251775431036_3_alg».proof.Proof.KI.Inputs
import proofs.«413320_j45251775431036_3_alg».proof.Proof.KI.Chain
import proofs.«413320_j45251775431036_3_alg».proof.Proof.KI.Args
import proofs.«413320_j45251775431036_3_alg».proof.Proof.KI.Val0
import proofs.«413320_j45251775431036_3_alg».proof.Proof.KI.GlueA
import proofs.«413320_j45251775431036_3_alg».proof.Proof.KI.GlueB
import proofs.«413320_j45251775431036_3_alg».proof.Proof.KI.Val1
import proofs.«413320_j45251775431036_3_alg».proof.Proof.KI.Val2Logits
import proofs.«413320_j45251775431036_3_alg».proof.Proof.KI.Val2
import proofs.«413320_j45251775431036_3_alg».proof.Proof.KI.GlueC
import Idealize.ShloMosaic.Lib.ValueIdx
set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

theorem q_arr (hG : kGood m c) (r : Fin 8192) (d : Fin 256) :
    (W3 m c main_v8_0 : S8192x256.Idx → EReal) (ix2 r d)
      = ((Cert.Spec.qv (kI m c) (Cert.Spec.rowB r) (Cert.Spec.rowT r) d : ℝ) : EReal) := by
  have e : (W3 m c main_v8_0 : S8192x256.Idx → EReal) = (dat0 (E2 m) c).arrAt 7 cfg0.N := W3_arr m c 7
  rw [e]
  exact q_val (E2 m) c (kI m c) (entry0_h m c hG) (entry0_Wq m c hG) (entry0_bq m c hG) r d

theorem k_arr (hG : kGood m c) (r : Fin 8192) (d : Fin 256) :
    (W3 m c main_v8_1 : S8192x256.Idx → EReal) (ix2 r d)
      = ((Cert.Spec.kv (kI m c) (Cert.Spec.rowB r) (Cert.Spec.rowT r) d : ℝ) : EReal) := by
  have e : (W3 m c main_v8_1 : S8192x256.Idx → EReal) = (dat0 (E2 m) c).arrAt 8 cfg0.N := W3_arr m c 8
  rw [e]
  exact k_val (E2 m) c (kI m c) (entry0_h m c hG) (entry0_Wk m c hG) (entry0_bk m c hG) r d

theorem v_arr (hG : kGood m c) (r : Fin 8192) (d : Fin 256) :
    (W3 m c main_v8_2 : S8192x256.Idx → EReal) (ix2 r d)
      = ((Cert.Spec.vv (kI m c) (Cert.Spec.rowB r) (Cert.Spec.rowT r) d : ℝ) : EReal) := by
  have e : (W3 m c main_v8_2 : S8192x256.Idx → EReal) = (dat0 (E2 m) c).arrAt 9 cfg0.N := W3_arr m c 9
  rw [e]
  exact v_val (E2 m) c (kI m c) (entry0_h m c hG) (entry0_Wv m c hG) (entry0_bv m c hG) r d

theorem q_in (hG : kGood m c) (b : Fin 4) (t : Fin 2048) (d : Fin 256) :
    (E4 m c main_v9 : S4x2048x256.Idx → EReal) (ix3 b t d) = ((Cert.Spec.qv (kI m c) b t d : ℝ) : EReal) := by
  refine (entry1_q m c b t d).trans ?_
  rw [q_arr m c hG, Cert.Spec.rowB_rowOf, Cert.Spec.rowT_rowOf]

theorem k_in (hG : kGood m c) (b : Fin 4) (t : Fin 2048) (d : Fin 256) :
    (E4 m c main_v10 : S4x2048x256.Idx → EReal) (ix3 b t d) = ((Cert.Spec.kv (kI m c) b t d : ℝ) : EReal) := by
  refine (entry1_k m c b t d).trans ?_
  rw [k_arr m c hG, Cert.Spec.rowB_rowOf, Cert.Spec.rowT_rowOf]

theorem v_in (hG : kGood m c) (b : Fin 4) (t : Fin 2048) (d : Fin 256) :
    (E4 m c main_v11 : S4x2048x256.Idx → EReal) (ix3 b t d) = ((Cert.Spec.vv (kI m c) b t d : ℝ) : EReal) := by
  refine (entry1_v m c b t d).trans ?_
  rw [v_arr m c hG, Cert.Spec.rowB_rowOf, Cert.Spec.rowT_rowOf]

abbrev CtxAt : Prop :=
  (∀ (b : Fin 4) (t : Fin 2048) (d : Fin 256), (E4 m c main_v9 : S4x2048x256.Idx → EReal) (ix3 b t d) = ((Cert.Spec.qv (kI m c) b t d : ℝ) : EReal)) →
  (∀ (b : Fin 4) (t : Fin 2048) (d : Fin 256), (E4 m c main_v10 : S4x2048x256.Idx → EReal) (ix3 b t d) = ((Cert.Spec.kv (kI m c) b t d : ℝ) : EReal)) →
  (∀ (b : Fin 4) (t : Fin 2048) (d : Fin 256), (E4 m c main_v11 : S4x2048x256.Idx → EReal) (ix3 b t d) = ((Cert.Spec.vv (kI m c) b t d : ℝ) : EReal)) →
  ∀ (b : Fin 4) (t : Fin 2048) (d : Fin 256),
    ((dat1 (E4 m) c).arrAt 3 cfg1.N : S4x2048x256.Idx → EReal) (ix3 b t d) = ((Cert.Spec.ctx (kI m c) b t d : ℝ) : EReal)

abbrev In2 : Prop :=
  (∀ (r : Fin 8192) (d : Fin 256), (E6 m c main_v13 : S8192x256.Idx → EReal) (ix2 r d)
      = ((Cert.Spec.ctx (kI m c) (Cert.Spec.rowB r) (Cert.Spec.rowT r) d : ℝ) : EReal))
  ∧ (∀ (k : Fin 256) (v : Fin 32000), (E6 m c main_v14 : S256x32000.Idx → EReal) (ix2 k v) = (((kI m c).Wp k v : ℝ) : EReal))
  ∧ (∀ v : Fin 32000, (E6 m c main_v15 : S1x32000.Idx → EReal) (ix2 (0 : Fin 1) v) = (((kI m c).bp v : ℝ) : EReal))

abbrev LogitsAt : Prop :=
  (∀ (r : Fin 8192) (d : Fin 256), (E6 m c main_v13 : S8192x256.Idx → EReal) (ix2 r d)
      = ((Cert.Spec.ctx (kI m c) (Cert.Spec.rowB r) (Cert.Spec.rowT r) d : ℝ) : EReal)) →
  (∀ (k : Fin 256) (v : Fin 32000), (E6 m c main_v14 : S256x32000.Idx → EReal) (ix2 k v) = (((kI m c).Wp k v : ℝ) : EReal)) →
  (∀ v : Fin 32000, (E6 m c main_v15 : S1x32000.Idx → EReal) (ix2 (0 : Fin 1) v) = (((kI m c).bp v : ℝ) : EReal)) →
  ∀ (p : Fin 8192) (q : Fin 32000),
    ((dat2 (E6 m) c).arrAt 3 cfg2.N : S8192x32000.Idx → EReal) (ix2 p q) = ((Cert.Spec.logitsOut (kI m c) p q : ℝ) : EReal)

abbrev LseAt : Prop :=
  (∀ (r : Fin 8192) (d : Fin 256), (E6 m c main_v13 : S8192x256.Idx → EReal) (ix2 r d)
      = ((Cert.Spec.ctx (kI m c) (Cert.Spec.rowB r) (Cert.Spec.rowT r) d : ℝ) : EReal)) →
  (∀ (k : Fin 256) (v : Fin 32000), (E6 m c main_v14 : S256x32000.Idx → EReal) (ix2 k v) = (((kI m c).Wp k v : ℝ) : EReal)) →
  (∀ v : Fin 32000, (E6 m c main_v15 : S1x32000.Idx → EReal) (ix2 (0 : Fin 1) v) = (((kI m c).bp v : ℝ) : EReal)) →
  ∀ p : Fin 8192,
    ((dat2 (E6 m) c).arrAt 4 cfg2.N : S8192x1.Idx → EReal) (ix2 p (0 : Fin 1))
      = ((Cert.Spec.lmax (kI m c) (Cert.Spec.rowB p) (Cert.Spec.rowT p)
          + Real.log (Cert.Spec.lsum (kI m c) (Cert.Spec.rowB p) (Cert.Spec.rowT p)) : ℝ) : EReal)

abbrev LossAt : Prop :=
  kGood m c →
  (∀ (p : Fin 8192) (q : Fin 32000), (W7 m c main_v16_0 : S8192x32000.Idx → EReal) (ix2 p q)
      = ((Cert.Spec.logitsOut (kI m c) p q : ℝ) : EReal)) →
  (∀ p : Fin 8192, (W7 m c main_v16_1 : S8192x1.Idx → EReal) (ix2 p (0 : Fin 1))
      = ((Cert.Spec.lmax (kI m c) (Cert.Spec.rowB p) (Cert.Spec.rowT p)
          + Real.log (Cert.Spec.lsum (kI m c) (Cert.Spec.rowB p) (Cert.Spec.rowT p)) : ℝ) : EReal)) →
  (W10 m c main_v22 : S_.Idx → EReal) ValueIdx.ix0 = ((Cert.Spec.loss (kI m c) : ℝ) : EReal)

theorem ctx_arr (Hctx : CtxAt m c) (hG : kGood m c) (b : Fin 4) (t : Fin 2048) (d : Fin 256) :
    (W5 m c main_v12 : S4x2048x256.Idx → EReal) (ix3 b t d) = ((Cert.Spec.ctx (kI m c) b t d : ℝ) : EReal) := by
  have e : (W5 m c main_v12 : S4x2048x256.Idx → EReal) = (dat1 (E4 m) c).arrAt 3 cfg1.N := W5_arr m c 3
  rw [e]
  exact Hctx (q_in m c hG) (k_in m c hG) (v_in m c hG) b t d

theorem in2 (Hctx : CtxAt m c) (hG : kGood m c) : In2 m c :=
  ⟨fun r d => (entry2_x m c r d).trans (ctx_arr m c Hctx hG _ _ d), entry2_w m c hG, entry2_b m c hG⟩

theorem logits_arr (Hctx : CtxAt m c) (Hlog : LogitsAt m c) (hG : kGood m c) (p : Fin 8192) (q : Fin 32000) :
    (W7 m c main_v16_0 : S8192x32000.Idx → EReal) (ix2 p q) = ((Cert.Spec.logitsOut (kI m c) p q : ℝ) : EReal) := by
  have e : (W7 m c main_v16_0 : S8192x32000.Idx → EReal) = (dat2 (E6 m) c).arrAt 3 cfg2.N := W7_arr m c 3
  obtain ⟨hx, hw, hb⟩ := in2 m c Hctx hG
  rw [e]
  exact Hlog hx hw hb p q

theorem lse_arr (Hctx : CtxAt m c) (Hlse : LseAt m c) (hG : kGood m c) (p : Fin 8192) :
    (W7 m c main_v16_1 : S8192x1.Idx → EReal) (ix2 p (0 : Fin 1))
      = ((Cert.Spec.lmax (kI m c) (Cert.Spec.rowB p) (Cert.Spec.rowT p)
          + Real.log (Cert.Spec.lsum (kI m c) (Cert.Spec.rowB p) (Cert.Spec.rowT p)) : ℝ) : EReal) := by
  have e : (W7 m c main_v16_1 : S8192x1.Idx → EReal) = (dat2 (E6 m) c).arrAt 4 cfg2.N := W7_arr m c 4
  obtain ⟨hx, hw, hb⟩ := in2 m c Hctx hG
  rw [e]
  exact Hlse hx hw hb p

theorem kernel_logits_of (Hctx : CtxAt m c) (Hlog : LogitsAt m c) (hG : kGood m c) (p : Fin 8192) (q : Fin 32000) :
    (W10 m c main_v16_0 : S8192x32000.Idx → EReal) (ix2 p q) = ((Cert.Spec.logitsOut (kI m c) p q : ℝ) : EReal) := by
  have e : (W10 m c main_v16_0 : S8192x32000.Idx → EReal) = W7 m c main_v16_0 := W10_logits m c
  rw [e]
  exact logits_arr m c Hctx Hlog hG p q

theorem kernel_loss_of (Hctx : CtxAt m c) (Hlog : LogitsAt m c) (Hlse : LseAt m c) (Hloss : LossAt m c) (hG : kGood m c) :
    (W10 m c main_v22 : S_.Idx → EReal) ValueIdx.ix0 = ((Cert.Spec.loss (kI m c) : ℝ) : EReal) :=
  Hloss hG (logits_arr m c Hctx Hlog hG) (lse_arr m c Hctx Hlse hG)

theorem ctxAt : CtxAt m c := fun hq hk hv => ctx_val (E4 m) c (kI m c) hq hk hv

theorem logitsAt : LogitsAt m c := fun hx hw hb => logits_val (E6 m) c (kI m c) hx hw hb

theorem lseAt : LseAt m c := fun hx hw hb => lse_val (E6 m) c (kI m c) hx hw hb

theorem kernel_logits (hG : kGood m c) : ∀ (p : Fin 8192) (q : Fin 32000),
    (W10 m c main_v16_0 : S8192x32000.Idx → EReal) (ix2 p q) = ((Cert.Spec.logitsOut (kI m c) p q : ℝ) : EReal) :=
  kernel_logits_of m c (ctxAt m c) (logitsAt m c) hG

theorem lossAt : LossAt m c := fun hG hlog hlse => loss_val m c hG hlog hlse

theorem kernel_loss (hG : kGood m c) :
    (W10 m c main_v22 : S_.Idx → EReal) ValueIdx.ix0 = ((Cert.Spec.loss (kI m c) : ℝ) : EReal) :=
  kernel_loss_of m c (ctxAt m c) (logitsAt m c) (lseAt m c) (lossAt m c) hG

end Cert.KernelIdeal.Val

end
-- ==== Proof.RefRunHand.lean ====
import proofs.«413320_j45251775431036_3_alg».proof.Proof.RefRead

namespace Cert.RefRunHand

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

theorem ofBuf_toBuf {Val : EltTy → Type} {T : BufTy} (x : TRef sig T) (v : T.Contents Val) : x.ofBuf (x.toBuf v) = v := by
  obtain ⟨r, h, h1, h2⟩ := x
  subst h
  rfl

section
variable {x0 x1 : (⟨S4x2048, .i32⟩ : BufTy).Contents (Elt F)} {x2 : (⟨S32000x256, .f32⟩ : BufTy).Contents (Elt F)} {x3 : (⟨S2048x256, .f32⟩ : BufTy).Contents (Elt F)} {x4 x6 x8 : (⟨S256x256, .f32⟩ : BufTy).Contents (Elt F)} {x5 x7 x9 : (⟨S256, .f32⟩ : BufTy).Contents (Elt F)} {x10 : (⟨S256x32000, .f32⟩ : BufTy).Contents (Elt F)} {x11 : (⟨S32000, .f32⟩ : BufTy).Contents (Elt F)} {VA : Valuation τ sig (Elt F)} (V : Valuation τ sig (Elt F))

-- The first 66 operations compute the flattened logits, and the flattened targets, from the arguments.
theorem head_v45 :
    after (ops.take 66) V main_v45 = val_main_v45 (V main_arg0) (V main_arg2) (V main_arg3) (V main_arg4) (V main_arg5) (V main_arg6) (V main_arg7) (V main_arg8) (V main_arg9) (V main_arg10) (V main_arg11) := by
  dsimp only [List.take]
  after_results_simp <;> rfl

-- The next 24 operations: the log-softmax of the logits, and the targets wrapped into the class range.
theorem logsoftmax_res (h45 : VA main_v45 = val_main_v45 x0 x2 x3 x4 x5 x6 x7 x8 x9 x10 x11) :
    (TRef.of (T := ⟨S8192x32000, .f32⟩) main_v47).ofBuf (after ((ops.drop 66).take 24) VA main_v47) = val_main_v47 x0 x2 x3 x4 x5 x6 x7 x8 x9 x10 x11 := by
  dsimp only [List.take, List.drop]
  after_results_simp
  simp only [ofBuf_toBuf]
  rw [h45]
  rfl

theorem index_res :
    after ((ops.drop 66).take 24) (after (ops.take 66) V) main_call3_v5 = val_main_call3_v5 (V main_arg1) := by
  dsimp only [List.take, List.drop]
  after_results_simp <;> rfl

-- The remaining operations take the log-softmax at the class indices, average over the rows and negate.
theorem loss_res (h5 : VA main_call3_v5 = val_main_call3_v5 x1) (h47 : VA main_v47 = val_main_v47 x0 x2 x3 x4 x5 x6 x7 x8 x9 x10 x11) :
    after ((ops.drop 66).drop 24) VA main_v52 = val_main_v52 x0 x1 x2 x3 x4 x5 x6 x7 x8 x9 x10 x11 := by
  dsimp only [List.drop]
  after_results_simp
  rw [h5, h47]
  rfl

theorem res_v45 :
    after ops V main_v45 = val_main_v45 (V main_arg0) (V main_arg2) (V main_arg3) (V main_arg4) (V main_arg5) (V main_arg6) (V main_arg7) (V main_arg8) (V main_arg9) (V main_arg10) (V main_arg11) := by
  rw [← List.take_append_drop 66 (ops (F := F)), after_append]
  dsimp only [List.drop]
  after_results_simp
  exact head_v45 V

theorem res_v52 :
    after ops V main_v52 = val_main_v52 (V main_arg0) (V main_arg1) (V main_arg2) (V main_arg3) (V main_arg4) (V main_arg5) (V main_arg6) (V main_arg7) (V main_arg8) (V main_arg9) (V main_arg10) (V main_arg11) := by
  rw [← List.take_append_drop 66 (ops (F := F)), after_append, ← List.take_append_drop 24 ((ops (F := F)).drop 66), after_append]
  exact loss_res (index_res V) (logsoftmax_res (head_v45 V))

end

set_option maxHeartbeats 1000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = val_main_v45 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c _).trans (res_v45 _), (h c _).trans (res_v52 _), by
      simp only [h c]
      after_results_simp <;> trivial⟩)
    (run_seq scopedRefs_eq scopedSems_eq defs main (fun _ => ops) main_eq (fun _ => ops_sub) m ρ)

end Cert.RefRunHand
-- ==== Proof.RefCtx.lean ====
import proofs.«413320_j45251775431036_3_alg».proof.Proof.RefRead
import proofs.«413320_j45251775431036_3_alg».proof.Proof.Spec
import proofs.«413320_j45251775431036_3_alg».proof.Proof.LibGatherRows3
import proofs.«413320_j45251775431036_3_alg».proof.Proof.LibOnlineSoftmax
import Idealize.ShloMosaic.Lib.StableHlo.Predicate
import Idealize.ShloMosaic.Lib.ValueIdx
import Idealize.ShloMosaic.PureOps.Reduce
import Idealize.ShloMosaic.PureOps.Ideal.Laws

noncomputable section

open scoped BigOperators

namespace Cert.RefCtx

open Idealize.ShloMosaic Idealize.ShloMosaic.ValueIdx

theorem ofBits_256 : Ideal.ofBits .f32 0x43800000#32 = ((256 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem sqrt_256 : Ideal.sqrt ((256 : ℝ) : EReal) = ((16 : ℝ) : EReal) := by
  rw [Ideal.sqrt_coe, if_neg (by norm_num)]
  congr 1
  rw [show (256 : ℝ) = 16 * 16 by norm_num]
  exact Real.sqrt_mul_self (by norm_num)

theorem div_16 (x : ℝ) : Ideal.div (x : EReal) ((16 : ℝ) : EReal) = ((x / 16 : ℝ) : EReal) := by
  rw [Ideal.div_coe (by norm_num : (16 : ℝ) ≠ 0), ← EReal.coe_mul]
  congr 1
  ring

theorem div_real (x y : ℝ) (hy : y ≠ 0) : Ideal.div (x : EReal) (y : EReal) = ((x / y : ℝ) : EReal) := by
  rw [Ideal.div_coe hy, ← EReal.coe_mul]
  congr 1
  ring

theorem zero_div_real (y : ℝ) (hy : y ≠ 0) : Ideal.div (0 : EReal) (y : EReal) = 0 := by
  rw [Ideal.div_coe hy, zero_mul]

theorem sum_coe_mul {n : ℕ} (f g : Fin n → ℝ) :
    ∑ k : Fin n, (f k : EReal) * (g k : EReal) = ((∑ k : Fin n, f k * g k : ℝ) : EReal) := by
  rw [Cert.Lib.OnlineSoftmax.coe_finset_sum]
  exact Finset.sum_congr rfl fun k _ => (EReal.coe_mul _ _).symm

theorem tril_bit (t u : Fin 2048) :
    Scalar.select (IntOp.cmpi .sge (IntOp.addi (BitVec.ofNat 32 t.val) 0#32) (BitVec.ofNat 32 u.val)) (1#1) (0#1)
      = if u.val ≤ t.val then (1#1 : BitVec 1) else 0#1 := by
  have h0 : IntOp.addi (BitVec.ofNat 32 t.val) 0#32 = BitVec.ofNat 32 t.val := by
    unfold IntOp.addi; exact BitVec.add_zero _
  have ht : (BitVec.ofNat 32 t.val).toNat = t.val := by
    rw [BitVec.toNat_ofNat]; exact Nat.mod_eq_of_lt (by have := t.isLt; omega)
  have hu : (BitVec.ofNat 32 u.val).toNat = u.val := by
    rw [BitVec.toNat_ofNat]; exact Nat.mod_eq_of_lt (by have := u.isLt; omega)
  have hiff := StableHlo.Predicate.sge_iff_toNat (a := BitVec.ofNat 32 t.val) (b := BitVec.ofNat 32 u.val)
    (by rw [ht]; have := t.isLt; omega) (by rw [hu]; have := u.isLt; omega)
  rw [ht, hu] at hiff
  rw [h0]
  by_cases h : u.val ≤ t.val
  · rw [if_pos h, hiff.2 h]; rfl
  · rw [if_neg h]
    exact if_neg (fun e => h (hiff.1 e))

theorem sup_masked (t : Fin 2048) (f : Fin 2048 → ℝ) :
    (Finset.univ : Finset (Fin 2048)).sup (fun u => if u.val ≤ t.val then ((f u : ℝ) : EReal) else ⊥)
      = (((Cert.Spec.vis t).sup' (Cert.Spec.vis_nonempty t) f : ℝ) : EReal) := by
  rw [Finset.sup_ite, Finset.sup_bot, sup_bot_eq]
  show (Cert.Spec.vis t).sup (fun u => ((f u : ℝ) : EReal)) = _
  rw [← Finset.sup'_eq_sup (Cert.Spec.vis_nonempty t)]
  exact (Finset.apply_sup'_eq_sup'_comp (Cert.Spec.vis_nonempty t) (fun x : ℝ => (x : EReal))
    (fun x y => EReal.coe_strictMono.monotone.map_max)).symm

theorem sum_masked (t : Fin 2048) (f : Fin 2048 → ℝ) :
    ∑ u : Fin 2048, (if u.val ≤ t.val then ((f u : ℝ) : EReal) else 0)
      = ((∑ u ∈ Cert.Spec.vis t, f u : ℝ) : EReal) := by
  rw [Cert.Lib.OnlineSoftmax.coe_finset_sum, Cert.Spec.vis, Finset.sum_filter]

open Cert.ReferenceIdeal Cert.ReferenceIdeal.Gen Cert.ReferenceIdeal.Read Idealize.ShloMosaic.StableHlo

theorem ref_start (x0 : (⟨S4x2048, .i32⟩ : BufTy).Contents (Elt Ideal)) (b : Fin 4) (t : Fin 2048) :
    val_main_v5 (F := Ideal) x0 (ix3 b t (0 : Fin 1))
      = Scalar.select (IntOp.cmpi .slt (x0 (ix2 b t)) 0#32) (IntOp.addi (x0 (ix2 b t)) (BitVec.ofNat 32 32000)) (x0 (ix2 b t)) := by
  have hi : idx_main_v5 (ix3 b t (0 : Fin 1)) = ix2 b t :=
    funext fun a => Fin.ext (by match a with | ⟨0, _⟩ => rfl | ⟨1, _⟩ => rfl)
  rw [val_main_v5_apply, hi, val_main_v4_apply, val_main_v1_apply, val_main_v3_apply, val_main_v0_apply, val_main_c_apply,
    val_main_v2_apply, val_main_c_0_apply]

theorem ref_tokrow (x0 : (⟨S4x2048, .i32⟩ : BufTy).Contents (Elt Ideal)) (x2 : (⟨S32000x256, .f32⟩ : BufTy).Contents (Elt Ideal)) (b : Fin 4) (t : Fin 2048) (c : Fin 256) :
    val_main_v6 (F := Ideal) x0 x2 (ix3 b t c) = x2 (ix2 (Cert.Spec.wrapIdx 32000 (by decide) (x0 (ix2 b t))) c) := by
  unfold val_main_v6
  rw [Cert.Lib.gather_rows3 (N := 32000) (C := 256) (a := 4) (b := 2048) gather_S32000x256_S4x2048x1_S4x2048x256_2_0_n_n_0_2_1256
    rfl rfl rfl rfl rfl x2 (val_main_v5 (F := Ideal) x0) b t c (by decide)]
  refine congrArg x2 (congrArg (fun r => ix2 r c) (Fin.ext ?_))
  show min (val_main_v5 (F := Ideal) x0 (ix3 b t (0 : Fin 1))).toInt.toNat (32000 - 1) = _
  rw [ref_start]
  rfl

theorem ref_scale (i : S4x2048x2048.Idx) : val_main_v24 (F := Ideal) i = ((16 : ℝ) : EReal) := by
  rw [val_main_v24_apply, val_main_v23_apply, val_main_cst_apply, Ideal.hostUnary_sqrt_def, Ideal.ofBits_def, ofBits_256, sqrt_256]

theorem ref_neg_inf (i : S4x2048x2048.Idx) : val_main_call1_v2 (F := Ideal) i = (⊥ : EReal) := by
  rw [val_main_call1_v2_apply, val_main_call1_v0_apply, val_main_cst_2_apply, Ideal.ofBits_def, ofBits_neg_inf]

theorem ref_mask (b : Fin 4) (t u : Fin 2048) :
    val_main_call1_v1 (F := Ideal) (ix3 b t u) = if u.val ≤ t.val then (1#1 : BitVec 1) else 0#1 := by
  have hi : idx_main_call1_v1 (ix3 b t u) = ix2 t u :=
    funext fun a => Fin.ext (by match a with | ⟨0, _⟩ => rfl | ⟨1, _⟩ => rfl)
  rw [val_main_call1_v1_apply, hi, val_main_v27_apply, val_main_call0_v4_apply, val_main_call0_v2_apply, val_main_call0_v0_apply,
    val_main_call0_v1_apply, val_main_call0_c_apply, val_main_call0_v3_apply, val_main_v26_apply, val_main_c_1_apply,
    val_main_call0_v5_apply, val_main_call0_c_0_apply]
  exact tril_bit t u

theorem affine_real (e : S4x2048x256.Idx → EReal) (W : S256x256.Idx → EReal) (bias : S256.Idx → EReal) (er : Fin 4 → Fin 2048 → Fin 256 → ℝ) (he : ∀ b t c, e (ix3 b t c) = ((er b t c : ℝ) : EReal)) (hW : ∀ i, W i = ((W i).toReal : EReal)) (hb : ∀ i, bias i = ((bias i).toReal : EReal)) (b : Fin 4) (t : Fin 2048) (d : Fin 256) :
    (∑ k : Fin 256, e (ix3 b t k) * W (ix2 k d)) + bias (ix1 d)
      = (((∑ k : Fin 256, er b t k * (W (ix2 k d)).toReal) + (bias (ix1 d)).toReal : ℝ) : EReal) := by
  have hs : ∀ k : Fin 256, e (ix3 b t k) * W (ix2 k d) = ((er b t k : ℝ) : EReal) * (((W (ix2 k d)).toReal : ℝ) : EReal) :=
    fun k => by rw [he b t k]; exact congrArg _ (hW (ix2 k d))
  rw [Finset.sum_congr rfl (fun k _ => hs k), sum_coe_mul, EReal.coe_add]
  exact congrArg _ (hb (ix1 d))

section Stages

variable {x0 x1 : (⟨S4x2048, .i32⟩ : BufTy).Contents (Elt Ideal)} {x2 : (⟨S32000x256, .f32⟩ : BufTy).Contents (Elt Ideal)}
  {x3 : (⟨S2048x256, .f32⟩ : BufTy).Contents (Elt Ideal)} {x4 : (⟨S256x256, .f32⟩ : BufTy).Contents (Elt Ideal)}
  {x5 : (⟨S256, .f32⟩ : BufTy).Contents (Elt Ideal)} {x6 : (⟨S256x256, .f32⟩ : BufTy).Contents (Elt Ideal)}
  {x7 : (⟨S256, .f32⟩ : BufTy).Contents (Elt Ideal)} {x8 : (⟨S256x256, .f32⟩ : BufTy).Contents (Elt Ideal)}
  {x9 : (⟨S256, .f32⟩ : BufTy).Contents (Elt Ideal)} {x10 : (⟨S256x32000, .f32⟩ : BufTy).Contents (Elt Ideal)}
  {x11 : (⟨S32000, .f32⟩ : BufTy).Contents (Elt Ideal)}
  (hG : Cert.Spec.Good x0 x1 x2 x3 x4 x5 x6 x7 x8 x9 x10 x11)

include hG

local notation "𝓘" => Cert.Spec.Inp.of x0 x1 x2 x3 x4 x5 x6 x7 x8 x9 x10 x11

theorem ref_emb (b : Fin 4) (t : Fin 2048) (c : Fin 256) :
    val_main_v9 (F := Ideal) x0 x2 x3 (ix3 b t c) = ((Cert.Spec.emb 𝓘 b t c : ℝ) : EReal) := by
  have hi : idx_main_v7 (idx_main_v8 (ix3 b t c)) = ix2 t c :=
    funext fun a => Fin.ext (by match a with | ⟨0, _⟩ => rfl | ⟨1, _⟩ => rfl)
  rw [val_main_v9_apply, ref_tokrow, val_main_v8_apply, val_main_v7_apply, hi, Ideal.addf_def,
    hG.tok_real (ix2 (Cert.Spec.wrapIdx 32000 (by decide) (x0 (ix2 b t))) c), hG.pos_real (ix2 t c), ← EReal.coe_add]
  rfl

theorem ref_q (b : Fin 4) (t : Fin 2048) (d : Fin 256) :
    val_main_v13 (F := Ideal) x0 x2 x3 x4 x5 (ix3 b t d) = ((Cert.Spec.qv 𝓘 b t d : ℝ) : EReal) := by
  have hl : ∀ k : Fin 256, lidx_main_v10 (ix3 b t d) k = ix3 b t k := fun k =>
    funext fun a => Fin.ext (by match a with | ⟨0, _⟩ => rfl | ⟨1, _⟩ => rfl | ⟨2, _⟩ => rfl)
  have hr : ∀ k : Fin 256, ridx_main_v10 (ix3 b t d) k = ix2 k d := fun k =>
    funext fun a => Fin.ext (by match a with | ⟨0, _⟩ => rfl | ⟨1, _⟩ => rfl)
  have hb : idx_main_v11 (idx_main_v12 (ix3 b t d)) = ix1 d :=
    funext fun a => Fin.ext (by match a with | ⟨0, _⟩ => rfl)
  rw [val_main_v13_apply, val_main_v10_apply, val_main_v12_apply, val_main_v11_apply, hb, Ideal.addf_def,
    Finset.sum_congr rfl (fun k _ => by rw [hl k, hr k])]
  exact affine_real _ x4 x5 (Cert.Spec.emb 𝓘) (ref_emb hG) hG.Wq_real hG.bq_real b t d

theorem ref_k (b : Fin 4) (t : Fin 2048) (d : Fin 256) :
    val_main_v17 (F := Ideal) x0 x2 x3 x6 x7 (ix3 b t d) = ((Cert.Spec.kv 𝓘 b t d : ℝ) : EReal) := by
  have hl : ∀ k : Fin 256, lidx_main_v14 (ix3 b t d) k = ix3 b t k := fun k =>
    funext fun a => Fin.ext (by match a with | ⟨0, _⟩ => rfl | ⟨1, _⟩ => rfl | ⟨2, _⟩ => rfl)
  have hr : ∀ k : Fin 256, ridx_main_v14 (ix3 b t d) k = ix2 k d := fun k =>
    funext fun a => Fin.ext (by match a with | ⟨0, _⟩ => rfl | ⟨1, _⟩ => rfl)
  have hb : idx_main_v15 (idx_main_v16 (ix3 b t d)) = ix1 d :=
    funext fun a => Fin.ext (by match a with | ⟨0, _⟩ => rfl)
  rw [val_main_v17_apply, val_main_v14_apply, val_main_v16_apply, val_main_v15_apply, hb, Ideal.addf_def,
    Finset.sum_congr rfl (fun k _ => by rw [hl k, hr k])]
  exact affine_real _ x6 x7 (Cert.Spec.emb 𝓘) (ref_emb hG) hG.Wk_real hG.bk_real b t d

theorem ref_v (b : Fin 4) (t : Fin 2048) (d : Fin 256) :
    val_main_v21 (F := Ideal) x0 x2 x3 x8 x9 (ix3 b t d) = ((Cert.Spec.vv 𝓘 b t d : ℝ) : EReal) := by
  have hl : ∀ k : Fin 256, lidx_main_v18 (ix3 b t d) k = ix3 b t k := fun k =>
    funext fun a => Fin.ext (by match a with | ⟨0, _⟩ => rfl | ⟨1, _⟩ => rfl | ⟨2, _⟩ => rfl)
  have hr : ∀ k : Fin 256, ridx_main_v18 (ix3 b t d) k = ix2 k d := fun k =>
    funext fun a => Fin.ext (by match a with | ⟨0, _⟩ => rfl | ⟨1, _⟩ => rfl)
  have hb : idx_main_v19 (idx_main_v20 (ix3 b t d)) = ix1 d :=
    funext fun a => Fin.ext (by match a with | ⟨0, _⟩ => rfl)
  rw [val_main_v21_apply, val_main_v18_apply, val_main_v20_apply, val_main_v19_apply, hb, Ideal.addf_def,
    Finset.sum_congr rfl (fun k _ => by rw [hl k, hr k])]
  exact affine_real _ x8 x9 (Cert.Spec.emb 𝓘) (ref_emb hG) hG.Wv_real hG.bv_real b t d

theorem ref_score (b : Fin 4) (t u : Fin 2048) :
    val_main_v25 (F := Ideal) x0 x2 x3 x4 x5 x6 x7 (ix3 b t u) = ((Cert.Spec.score 𝓘 b t u : ℝ) : EReal) := by
  have hs : ∀ k : Fin 256, val_main_v13 (F := Ideal) x0 x2 x3 x4 x5 (lidx_main_v22 (ix3 b t u) k)
        * val_main_v17 (F := Ideal) x0 x2 x3 x6 x7 (ridx_main_v22 (ix3 b t u) k)
      = ((Cert.Spec.qv 𝓘 b t k : ℝ) : EReal) * ((Cert.Spec.kv 𝓘 b u k : ℝ) : EReal) := fun k => by
    have hl : lidx_main_v22 (ix3 b t u) k = ix3 b t k :=
      funext fun a => Fin.ext (by match a with | ⟨0, _⟩ => rfl | ⟨1, _⟩ => rfl | ⟨2, _⟩ => rfl)
    have hr : ridx_main_v22 (ix3 b t u) k = ix3 b u k :=
      funext fun a => Fin.ext (by match a with | ⟨0, _⟩ => rfl | ⟨1, _⟩ => rfl | ⟨2, _⟩ => rfl)
    rw [hl, hr, ref_q hG, ref_k hG]
  rw [val_main_v25_apply, val_main_v22_apply, ref_scale, Ideal.hostDivf_def, Finset.sum_congr rfl (fun k _ => hs k),
    sum_coe_mul, div_16]
  rfl

theorem ref_masked (b : Fin 4) (t u : Fin 2048) :
    val_main_v28 (F := Ideal) x0 x2 x3 x4 x5 x6 x7 (ix3 b t u)
      = if u.val ≤ t.val then ((Cert.Spec.score 𝓘 b t u : ℝ) : EReal) else ⊥ := by
  rw [val_main_v28_apply, ref_mask, ref_neg_inf, ref_score hG]
  by_cases h : u.val ≤ t.val
  · rw [if_pos h, if_pos h]; exact ValueIdx.select_one _ _
  · rw [if_neg h, if_neg h]; exact ValueIdx.select_zero _ _

omit hG in

theorem ref_max_fold (b : Fin 4) (t : Fin 2048) :
    val_main_v29 (F := Ideal) x0 x2 x3 x4 x5 x6 x7 (ix2 b t)
      = (Finset.univ : Finset (Fin 2048)).fold max (⊥ : EReal)
          (fun k => val_main_v28 (F := Ideal) x0 x2 x3 x4 x5 x6 x7 (ix3 b t k)) := by
  unfold val_main_v29
  generalize val_main_v28 (F := Ideal) x0 x2 x3 x4 x5 x6 x7 = y0
  have hred : S4x2048x2048.Reduces [2] S4x2048 := by decide
  rw [Host.reduce_eq_fold_single (FloatOps.maximumf (F := Ideal) (φ := .f32)) y0 (val_main_cst_3 (F := Ideal))
    reducesTo_S4x2048x2048_S4x2048_d2 hred h_S_ (ix2 b t), val_main_cst_3_apply, Ideal.ofBits_def, ofBits_neg_inf]
  show (Finset.univ : Finset (Fin 2048)).fold max (⊥ : EReal) (fun k => y0 (hred.lift (ix2 b t) k)) = _
  refine congrArg (fun f => (Finset.univ : Finset (Fin 2048)).fold max (⊥ : EReal) f)
    (funext fun k => congrArg y0 (funext fun a => Fin.ext ?_))
  match a with
  | ⟨0, _⟩ => rfl
  | ⟨1, _⟩ => rfl
  | ⟨2, _⟩ => rfl

theorem ref_max (b : Fin 4) (t : Fin 2048) :
    val_main_v31 (F := Ideal) x0 x2 x3 x4 x5 x6 x7 (ix2 b t) = ((Cert.Spec.rowMax 𝓘 b t : ℝ) : EReal) := by
  rw [val_main_v31_apply, ref_max_fold, val_main_v30_apply, val_main_cst_4_apply, Ideal.ofBits_def, ofBits_neg_inf,
    Ideal.maximumf_def, max_bot_left, Cert.Lib.OnlineSoftmax.fold_max_bot_eq_sup,
    show (fun k : Fin 2048 => val_main_v28 (F := Ideal) x0 x2 x3 x4 x5 x6 x7 (ix3 b t k))
      = fun u => if u.val ≤ t.val then ((Cert.Spec.score 𝓘 b t u : ℝ) : EReal) else ⊥ from
      funext fun k => ref_masked hG b t k]
  exact sup_masked t (Cert.Spec.score 𝓘 b t)

theorem ref_exp (b : Fin 4) (t u : Fin 2048) :
    val_main_v35 (F := Ideal) x0 x2 x3 x4 x5 x6 x7 (ix3 b t u)
      = if u.val ≤ t.val then ((Cert.Spec.wgt 𝓘 b t u : ℝ) : EReal) else 0 := by
  have hi : idx_main_v32 (idx_main_v33 (ix3 b t u)) = ix2 b t :=
    funext fun a => Fin.ext (by match a with | ⟨0, _⟩ => rfl | ⟨1, _⟩ => rfl)
  rw [val_main_v35_apply, val_main_v34_apply, val_main_v33_apply, val_main_v32_apply, hi, ref_max hG, ref_masked hG,
    Ideal.hostUnary_exp_def, Ideal.subf_def]
  by_cases h : u.val ≤ t.val
  · rw [if_pos h, if_pos h, ← EReal.coe_sub, Ideal.exp_coe]; rfl
  · rw [if_neg h, if_neg h, EReal.bot_sub, Ideal.exp_bot]

theorem ref_den (b : Fin 4) (t : Fin 2048) :
    val_main_v36 (F := Ideal) x0 x2 x3 x4 x5 x6 x7 (ix2 b t) = ((Cert.Spec.den 𝓘 b t : ℝ) : EReal) := by
  have hs : ∀ k : Fin 2048, val_main_v35 (F := Ideal) x0 x2 x3 x4 x5 x6 x7 (idx_main_v36 (ix2 b t) k)
      = if k.val ≤ t.val then ((Cert.Spec.wgt 𝓘 b t k : ℝ) : EReal) else 0 := fun k => by
    have hi : idx_main_v36 (ix2 b t) k = ix3 b t k :=
      funext fun a => Fin.ext (by match a with | ⟨0, _⟩ => rfl | ⟨1, _⟩ => rfl | ⟨2, _⟩ => rfl)
    rw [hi, ref_exp hG]
  rw [val_main_v36_apply, val_main_cst_5_apply, Ideal.ofBits_def, Ideal.ofBits_zero_f32, zero_add,
    Finset.sum_congr rfl (fun k _ => hs k)]
  exact sum_masked t (Cert.Spec.wgt 𝓘 b t)

theorem ref_attn (b : Fin 4) (t u : Fin 2048) :
    val_main_v39 (F := Ideal) x0 x2 x3 x4 x5 x6 x7 (ix3 b t u)
      = if u.val ≤ t.val then ((Cert.Spec.wgt 𝓘 b t u / Cert.Spec.den 𝓘 b t : ℝ) : EReal) else 0 := by
  have hi : idx_main_v37 (idx_main_v38 (ix3 b t u)) = ix2 b t :=
    funext fun a => Fin.ext (by match a with | ⟨0, _⟩ => rfl | ⟨1, _⟩ => rfl)
  have hd : Cert.Spec.den 𝓘 b t ≠ 0 := (Cert.Spec.den_pos 𝓘 b t).ne'
  rw [val_main_v39_apply, val_main_v38_apply, val_main_v37_apply, hi, ref_den hG, ref_exp hG, Ideal.hostDivf_def]
  by_cases h : u.val ≤ t.val
  · rw [if_pos h, if_pos h, div_real _ _ hd]
  · rw [if_neg h, if_neg h, zero_div_real _ hd]

theorem ref_ctx (b : Fin 4) (t : Fin 2048) (d : Fin 256) :
    val_main_v40 (F := Ideal) x0 x2 x3 x4 x5 x6 x7 x8 x9 (ix3 b t d) = ((Cert.Spec.ctx 𝓘 b t d : ℝ) : EReal) := by
  have hs : ∀ k : Fin 2048, val_main_v39 (F := Ideal) x0 x2 x3 x4 x5 x6 x7 (lidx_main_v40 (ix3 b t d) k)
        * val_main_v21 (F := Ideal) x0 x2 x3 x8 x9 (ridx_main_v40 (ix3 b t d) k)
      = if k.val ≤ t.val then ((Cert.Spec.wgt 𝓘 b t k / Cert.Spec.den 𝓘 b t * Cert.Spec.vv 𝓘 b k d : ℝ) : EReal) else 0 :=
    fun k => by
    have hl : lidx_main_v40 (ix3 b t d) k = ix3 b t k :=
      funext fun a => Fin.ext (by match a with | ⟨0, _⟩ => rfl | ⟨1, _⟩ => rfl | ⟨2, _⟩ => rfl)
    have hr : ridx_main_v40 (ix3 b t d) k = ix3 b k d :=
      funext fun a => Fin.ext (by match a with | ⟨0, _⟩ => rfl | ⟨1, _⟩ => rfl | ⟨2, _⟩ => rfl)
    rw [hl, hr, ref_attn hG, ref_v hG]
    by_cases h : k.val ≤ t.val
    · rw [if_pos h, if_pos h, EReal.coe_mul]
    · rw [if_neg h, if_neg h, zero_mul]
  rw [val_main_v40_apply, Finset.sum_congr rfl (fun k _ => hs k)]
  exact sum_masked t (fun u => Cert.Spec.wgt 𝓘 b t u / Cert.Spec.den 𝓘 b t * Cert.Spec.vv 𝓘 b u d)

end Stages

end Cert.RefCtx

end
-- ==== Proof.RefOut.lean ====
import proofs.«413320_j45251775431036_3_alg».proof.Proof.RefRead
import proofs.«413320_j45251775431036_3_alg».proof.Proof.Spec
import proofs.«413320_j45251775431036_3_alg».proof.Proof.LibKeepdims
import proofs.«413320_j45251775431036_3_alg».proof.Proof.LibOnlineSoftmax
import proofs.«413320_j45251775431036_3_alg».proof.Proof.LibWrapTake
import proofs.«413320_j45251775431036_3_alg».proof.Proof.LibTakeAlong
import Idealize.ShloMosaic.Lib.IdealHost

noncomputable section

open scoped BigOperators

namespace Cert.RefOut

open Idealize.ShloMosaic Idealize.ShloMosaic.ValueIdx Cert.ReferenceIdeal Cert.ReferenceIdeal.Gen Cert.ReferenceIdeal.Read

variable (x0 x1 : (⟨S4x2048, .i32⟩ : BufTy).Contents (Elt Ideal)) (x2 : (⟨S32000x256, .f32⟩ : BufTy).Contents (Elt Ideal))
  (x3 : (⟨S2048x256, .f32⟩ : BufTy).Contents (Elt Ideal)) (x4 : (⟨S256x256, .f32⟩ : BufTy).Contents (Elt Ideal))
  (x5 : (⟨S256, .f32⟩ : BufTy).Contents (Elt Ideal)) (x6 : (⟨S256x256, .f32⟩ : BufTy).Contents (Elt Ideal))
  (x7 : (⟨S256, .f32⟩ : BufTy).Contents (Elt Ideal)) (x8 : (⟨S256x256, .f32⟩ : BufTy).Contents (Elt Ideal))
  (x9 : (⟨S256, .f32⟩ : BufTy).Contents (Elt Ideal)) (x10 : (⟨S256x32000, .f32⟩ : BufTy).Contents (Elt Ideal))
  (x11 : (⟨S32000, .f32⟩ : BufTy).Contents (Elt Ideal))

abbrev II : Cert.Spec.Inp := Cert.Spec.Inp.of x0 x1 x2 x3 x4 x5 x6 x7 x8 x9 x10 x11

theorem ofBits_neg_inf : Ideal.ofBits .f32 0xFF800000#32 = ⊥ := by simp [Ideal.ofBits, Ideal.ieee]

theorem ofBits_8192 : Ideal.ofBits .f32 0x46000000#32 = ((8192 : ℝ) : EReal) := by
  simp [Ideal.ofBits, Ideal.ieee, -EReal.coe_mul]; norm_num

theorem coe_sup' {ι : Type*} (s : Finset ι) (hs : s.Nonempty) (g : ι → ℝ) :
    ((s.sup' hs g : ℝ) : EReal) = s.sup (fun k => ((g k : ℝ) : EReal)) := by
  rw [← Finset.sup'_eq_sup hs]
  exact Finset.comp_sup'_eq_sup'_comp hs (fun r : ℝ => (r : EReal)) (fun a b => EReal.coe_strictMono.monotone.map_max)

theorem reduce_max_row {u : Shape} (y : (⟨2, ![8192, 32000]⟩ : Shape).Idx → EReal) (init : u.Idx → EReal) (hu : 0 < u.numel) (h' : (⟨2, ![8192, 32000]⟩ : Shape).ReducesTo [1] ⟨1, ![8192]⟩) (hinit : init (Shape.Idx.first hu) = ⊥) (g : Fin 32000 → ℝ) (p : Fin 8192) (hy : ∀ q, y (ix2 p q) = ((g q : ℝ) : EReal)) :
    Host.reduce (FloatOps.maximumf (F := Ideal) (φ := .f32)) y init h' hu (ix1 p)
      = ((Finset.univ.sup' ⟨(0 : Fin 32000), Finset.mem_univ _⟩ g : ℝ) : EReal) := by
  have hr : (⟨2, ![8192, 32000]⟩ : Shape).Reduces [1] ⟨1, ![8192]⟩ := by decide
  rw [Cert.Keepdims.hostReduce_max_rows y init h' hr hu p, hinit, Cert.Lib.OnlineSoftmax.fold_max_bot_eq_sup]
  refine Eq.trans ?_ (coe_sup' Finset.univ ⟨(0 : Fin 32000), Finset.mem_univ _⟩ g).symm
  exact congrArg (fun f => (Finset.univ : Finset (Fin 32000)).sup f) (funext hy)

abbrev wrapW (w : BitVec 32) : BitVec 32 :=
  Scalar.select (IntOp.cmpi .slt w 0#32) (IntOp.addi w (BitVec.ofNat 32 32000)) w

theorem v41_at (hG : Cert.Spec.Good x0 x1 x2 x3 x4 x5 x6 x7 x8 x9 x10 x11) (hctx : ∀ (b : Fin 4) (t : Fin 2048) (d : Fin 256),
      val_main_v40 (F := Ideal) x0 x2 x3 x4 x5 x6 x7 x8 x9 (ix3 b t d)
        = ((Cert.Spec.ctx (II x0 x1 x2 x3 x4 x5 x6 x7 x8 x9 x10 x11) b t d : ℝ) : EReal)) (b : Fin 4) (t : Fin 2048) (v : Fin 32000) :
    val_main_v41 (F := Ideal) x0 x2 x3 x4 x5 x6 x7 x8 x9 x10 (ix3 b t v)
      = ((∑ c : Fin 256, Cert.Spec.ctx (II x0 x1 x2 x3 x4 x5 x6 x7 x8 x9 x10 x11) b t c
            * (II x0 x1 x2 x3 x4 x5 x6 x7 x8 x9 x10 x11).Wp c v : ℝ) : EReal) := by
  rw [val_main_v41_apply, Cert.Lib.OnlineSoftmax.coe_finset_sum]
  refine Finset.sum_congr rfl fun c _ => ?_
  have el : lidx_main_v41 (ix3 b t v) c = ix3 b t c := funext fun a => match a with
    | ⟨0, _⟩ => rfl
    | ⟨1, _⟩ => rfl
    | ⟨2, _⟩ => rfl
  have er : ridx_main_v41 (ix3 b t v) c = ix2 c v := funext fun a => match a with
    | ⟨0, _⟩ => rfl
    | ⟨1, _⟩ => rfl
  rw [el, er, hctx, hG.Wp_real (ix2 c v), EReal.coe_mul]
  rfl

theorem v44_at (hG : Cert.Spec.Good x0 x1 x2 x3 x4 x5 x6 x7 x8 x9 x10 x11) (hctx : ∀ (b : Fin 4) (t : Fin 2048) (d : Fin 256),
      val_main_v40 (F := Ideal) x0 x2 x3 x4 x5 x6 x7 x8 x9 (ix3 b t d)
        = ((Cert.Spec.ctx (II x0 x1 x2 x3 x4 x5 x6 x7 x8 x9 x10 x11) b t d : ℝ) : EReal)) (b : Fin 4) (t : Fin 2048) (v : Fin 32000) :
    val_main_v44 (F := Ideal) x0 x2 x3 x4 x5 x6 x7 x8 x9 x10 x11 (ix3 b t v)
      = ((Cert.Spec.logit (II x0 x1 x2 x3 x4 x5 x6 x7 x8 x9 x10 x11) b t v : ℝ) : EReal) := by
  rw [val_main_v44_apply, v41_at x0 x1 x2 x3 x4 x5 x6 x7 x8 x9 x10 x11 hG hctx, val_main_v43_apply, val_main_v42_apply]
  have e : idx_main_v42 (idx_main_v43 (ix3 b t v)) = ix1 v := funext fun a => match a with
    | ⟨0, _⟩ => rfl
  rw [e, hG.bp_real (ix1 v)]
  show (_ : EReal) + _ = _
  rw [← EReal.coe_add]
  rfl

theorem idx_v45 (p : Fin 8192) (q : Fin 32000) :
    idx_main_v45 (ix2 p q) = ix3 (Cert.Spec.rowB p) (Cert.Spec.rowT p) q := by
  funext a
  apply Fin.ext
  have hp := p.isLt
  have hq := q.isLt
  match a with
  | ⟨0, _⟩ => show (p.val * 32000 + q.val) / 65536000 = p.val / 2048; omega
  | ⟨1, _⟩ => show (p.val * 32000 + q.val) / 32000 % 2048 = p.val % 2048; omega
  | ⟨2, _⟩ => show (p.val * 32000 + q.val) % 32000 = q.val; omega

theorem logits_at (hG : Cert.Spec.Good x0 x1 x2 x3 x4 x5 x6 x7 x8 x9 x10 x11) (hctx : ∀ (b : Fin 4) (t : Fin 2048) (d : Fin 256),
      val_main_v40 (F := Ideal) x0 x2 x3 x4 x5 x6 x7 x8 x9 (ix3 b t d)
        = ((Cert.Spec.ctx (II x0 x1 x2 x3 x4 x5 x6 x7 x8 x9 x10 x11) b t d : ℝ) : EReal)) (p : Fin 8192) (q : Fin 32000) :
    val_main_v45 (F := Ideal) x0 x2 x3 x4 x5 x6 x7 x8 x9 x10 x11 (ix2 p q)
      = ((Cert.Spec.logitsOut (II x0 x1 x2 x3 x4 x5 x6 x7 x8 x9 x10 x11) p q : ℝ) : EReal) := by
  rw [val_main_v45_apply, idx_v45, v44_at x0 x1 x2 x3 x4 x5 x6 x7 x8 x9 x10 x11 hG hctx]
  rfl

section LogSoftmax

variable (hlog : ∀ (p : Fin 8192) (q : Fin 32000), val_main_v45 (F := Ideal) x0 x2 x3 x4 x5 x6 x7 x8 x9 x10 x11 (ix2 p q)
  = ((Cert.Spec.logitsOut (II x0 x1 x2 x3 x4 x5 x6 x7 x8 x9 x10 x11) p q : ℝ) : EReal))

include hlog

theorem rowmax_at (p : Fin 8192) :
    val_main_call2_v0 (F := Ideal) x0 x2 x3 x4 x5 x6 x7 x8 x9 x10 x11 (ix1 p) = ((Cert.Spec.lmax (II x0 x1 x2 x3 x4 x5 x6 x7 x8 x9 x10 x11) (Cert.Spec.rowB p) (Cert.Spec.rowT p) : ℝ) : EReal) := by
  unfold val_main_call2_v0
  exact reduce_max_row _ _ h_S_ reducesTo_S8192x32000_S8192_d1 ofBits_neg_inf
    (Cert.Spec.logit (II x0 x1 x2 x3 x4 x5 x6 x7 x8 x9 x10 x11) (Cert.Spec.rowB p) (Cert.Spec.rowT p)) p (fun q => hlog p q)

theorem v2_at (p : Fin 8192) :
    val_main_call2_v2 (F := Ideal) x0 x2 x3 x4 x5 x6 x7 x8 x9 x10 x11 (ix1 p) = ((Cert.Spec.lmax (II x0 x1 x2 x3 x4 x5 x6 x7 x8 x9 x10 x11) (Cert.Spec.rowB p) (Cert.Spec.rowT p) : ℝ) : EReal) := by
  rw [val_main_call2_v2_apply, rowmax_at x0 x1 x2 x3 x4 x5 x6 x7 x8 x9 x10 x11 hlog p, val_main_call2_v1_apply, val_main_call2_cst_0_apply]
  show max (Ideal.ofBits .f32 0xFF800000#32) _ = _
  rw [ofBits_neg_inf]
  exact max_eq_right bot_le

theorem v4_at (p : Fin 8192) (q : Fin 32000) :
    val_main_call2_v4 (F := Ideal) x0 x2 x3 x4 x5 x6 x7 x8 x9 x10 x11 (ix2 p q) = ((Cert.Spec.lmax (II x0 x1 x2 x3 x4 x5 x6 x7 x8 x9 x10 x11) (Cert.Spec.rowB p) (Cert.Spec.rowT p) : ℝ) : EReal) := by
  rw [val_main_call2_v4_apply, val_main_call2_v3_apply]
  have e : idx_main_call2_v3 (idx_main_call2_v4 (ix2 p q)) = ix1 p := funext fun a => match a with
    | ⟨0, _⟩ => rfl
  rw [e, v2_at x0 x1 x2 x3 x4 x5 x6 x7 x8 x9 x10 x11 hlog p]

theorem v5_at (p : Fin 8192) (q : Fin 32000) :
    val_main_call2_v5 (F := Ideal) x0 x2 x3 x4 x5 x6 x7 x8 x9 x10 x11 (ix2 p q)
      = ((Cert.Spec.logit (II x0 x1 x2 x3 x4 x5 x6 x7 x8 x9 x10 x11) (Cert.Spec.rowB p) (Cert.Spec.rowT p) q - Cert.Spec.lmax (II x0 x1 x2 x3 x4 x5 x6 x7 x8 x9 x10 x11) (Cert.Spec.rowB p) (Cert.Spec.rowT p) : ℝ) : EReal) := by
  rw [val_main_call2_v5_apply, hlog p q, v4_at x0 x1 x2 x3 x4 x5 x6 x7 x8 x9 x10 x11 hlog p q]
  show (_ : EReal) - _ = _
  rw [← EReal.coe_sub]
  rfl

theorem v6_at (p : Fin 8192) (q : Fin 32000) :
    val_main_call2_v6 (F := Ideal) x0 x2 x3 x4 x5 x6 x7 x8 x9 x10 x11 (ix2 p q)
      = ((Real.exp (Cert.Spec.logit (II x0 x1 x2 x3 x4 x5 x6 x7 x8 x9 x10 x11) (Cert.Spec.rowB p) (Cert.Spec.rowT p) q - Cert.Spec.lmax (II x0 x1 x2 x3 x4 x5 x6 x7 x8 x9 x10 x11) (Cert.Spec.rowB p) (Cert.Spec.rowT p)) : ℝ) : EReal) := by
  rw [val_main_call2_v6_apply, v5_at x0 x1 x2 x3 x4 x5 x6 x7 x8 x9 x10 x11 hlog p q]
  rfl

theorem v7_at (p : Fin 8192) :
    val_main_call2_v7 (F := Ideal) x0 x2 x3 x4 x5 x6 x7 x8 x9 x10 x11 (ix1 p) = ((Cert.Spec.lsum (II x0 x1 x2 x3 x4 x5 x6 x7 x8 x9 x10 x11) (Cert.Spec.rowB p) (Cert.Spec.rowT p) : ℝ) : EReal) := by
  rw [val_main_call2_v7_apply]
  have h0 : (val_main_call2_cst_1 (F := Ideal)) (Shape.Idx.first h_S_) = 0 := Ideal.ofBits_zero_f32
  rw [h0, zero_add]
  unfold Cert.Spec.lsum
  rw [Cert.Lib.OnlineSoftmax.coe_finset_sum]
  refine Finset.sum_congr rfl fun k _ => ?_
  have e : idx_main_call2_v7 (ix1 p) k = ix2 p k := funext fun a => match a with
    | ⟨0, _⟩ => rfl
    | ⟨1, _⟩ => rfl
  rw [e, v6_at x0 x1 x2 x3 x4 x5 x6 x7 x8 x9 x10 x11 hlog p k]

theorem v9_at (p : Fin 8192) (u : Fin 1) :
    val_main_call2_v9 (F := Ideal) x0 x2 x3 x4 x5 x6 x7 x8 x9 x10 x11 (ix2 p u) = ((Real.log (Cert.Spec.lsum (II x0 x1 x2 x3 x4 x5 x6 x7 x8 x9 x10 x11) (Cert.Spec.rowB p) (Cert.Spec.rowT p)) : ℝ) : EReal) := by
  rw [val_main_call2_v9_apply, val_main_call2_v8_apply]
  have e : idx_main_call2_v8 (ix2 p u) = ix1 p := funext fun a => match a with
    | ⟨0, _⟩ => rfl
  rw [e, v7_at x0 x1 x2 x3 x4 x5 x6 x7 x8 x9 x10 x11 hlog p]
  show Ideal.log ((_ : ℝ) : EReal) = _
  rw [Ideal.log_coe, if_neg (not_le.2 (Cert.Spec.lsum_pos _ _ _))]

theorem v47_at (p : Fin 8192) (q : Fin 32000) :
    val_main_v47 (F := Ideal) x0 x2 x3 x4 x5 x6 x7 x8 x9 x10 x11 (ix2 p q) = ((Cert.Spec.logp (II x0 x1 x2 x3 x4 x5 x6 x7 x8 x9 x10 x11) (Cert.Spec.rowB p) (Cert.Spec.rowT p) q : ℝ) : EReal) := by
  rw [val_main_v47_apply, v5_at x0 x1 x2 x3 x4 x5 x6 x7 x8 x9 x10 x11 hlog p q, val_main_call2_v10_apply]
  have e : idx_main_call2_v10 (ix2 p q) = ix2 p (0 : Fin 1) := funext fun a => match a with
    | ⟨0, _⟩ => rfl
    | ⟨1, _⟩ => rfl
  rw [e, v9_at x0 x1 x2 x3 x4 x5 x6 x7 x8 x9 x10 x11 hlog p 0]
  show (_ : EReal) - _ = _
  rw [← EReal.coe_sub]
  rfl

end LogSoftmax

section Take

theorem v48_at (p : Fin 8192) (u : Fin 1) :
    val_main_v48 (F := Ideal) x1 (ix2 p u) = x1 (ix2 (Cert.Spec.rowB p) (Cert.Spec.rowT p)) := by
  rw [val_main_v48_apply, val_main_v46_apply]
  refine congrArg x1 (funext fun a => Fin.ext ?_)
  match a with
  | ⟨0, _⟩ => rfl
  | ⟨1, _⟩ => rfl

theorem c3v4_at (p : Fin 8192) (u : Fin 1) :
    val_main_call3_v4 (F := Ideal) x1 (ix2 p u) = wrapW (x1 (ix2 (Cert.Spec.rowB p) (Cert.Spec.rowT p))) := by
  rw [val_main_call3_v4_apply, val_main_call3_v1_apply, val_main_call3_v3_apply, v48_at, val_main_call3_v0_apply,
    val_main_call3_c_apply, val_main_call3_v2_apply, val_main_call3_c_0_apply]

theorem c3v5_at (p : Fin 8192) (u u' : Fin 1) :
    val_main_call3_v5 (F := Ideal) x1 (ix3 p u u') = wrapW (x1 (ix2 (Cert.Spec.rowB p) (Cert.Spec.rowT p))) := by
  rw [val_main_call3_v5_apply]
  have e : idx_main_call3_v5 (ix3 p u u') = ix2 p (0 : Fin 1) := by
    funext a
    apply Fin.ext
    match a with
    | ⟨0, _⟩ =>
      show ((p.val * 1 + u.val) * 1 + u'.val) / 1 = p.val
      have := u.isLt
      have := u'.isLt
      omega
    | ⟨1, _⟩ => rfl
  rw [e, c3v4_at]

variable (hlo : ∀ i, -(32000 : Int) ≤ (x1 i).toInt) (hhi : ∀ i, (x1 i).toInt < 32000)

include hlo hhi

theorem c3v11_at (i : S8192x1x1.Idx) : val_main_call3_v11 (F := Ideal) x1 i = 1#1 := by
  obtain ⟨p, u, u', rfl⟩ : ∃ (p : Fin 8192) (u u' : Fin 1), i = ix3 p u u' := ⟨_, _, _, eq_ix3 i⟩
  rw [val_main_call3_v11_apply, val_main_call3_v7_apply, val_main_call3_v10_apply, c3v5_at, val_main_call3_v6_apply,
    val_main_call3_c_2_apply, val_main_call3_v9_apply, val_main_call3_v8_apply, val_main_call3_c_1_apply]
  have hw := Cert.LibWrapTake.wrap_range 32000 (by norm_num) (x1 (ix2 (Cert.Spec.rowB p) (Cert.Spec.rowT p)))
    (by exact_mod_cast hlo _) (by exact_mod_cast hhi _)
  refine IntOp.andi_eq_one.2 ⟨IntOp.cmpi_sge.2 ?_, IntOp.cmpi_sle.2 ?_⟩
  · have h0 : (0#32 : BitVec 32).toInt = 0 := by decide
    rw [h0]
    exact hw.1
  · have h1 : (31999#32 : BitVec 32).toInt = 31999 := by decide
    rw [h1]
    have := hw.2
    push_cast at this
    omega

theorem c3v12_at (j : S8192x1.Idx) : val_main_call3_v12 (F := Ideal) x1 j = 1#1 := by
  unfold val_main_call3_v12
  exact Cert.LibWrapTake.reduce_andi_one_of_all _ _ _ _ (fun _ => rfl) (c3v11_at x1 hlo hhi) j

end Take

section Loss

variable (hlog : ∀ (p : Fin 8192) (q : Fin 32000), val_main_v45 (F := Ideal) x0 x2 x3 x4 x5 x6 x7 x8 x9 x10 x11 (ix2 p q)
  = ((Cert.Spec.logitsOut (II x0 x1 x2 x3 x4 x5 x6 x7 x8 x9 x10 x11) p q : ℝ) : EReal))
  (hlo : ∀ i, -(32000 : Int) ≤ (x1 i).toInt) (hhi : ∀ i, (x1 i).toInt < 32000)

include hlog

theorem c3v13_at (p : Fin 8192) (u : Fin 1) :
    val_main_call3_v13 (F := Ideal) x0 x1 x2 x3 x4 x5 x6 x7 x8 x9 x10 x11 (ix2 p u)
      = ((Cert.Spec.logp (II x0 x1 x2 x3 x4 x5 x6 x7 x8 x9 x10 x11) (Cert.Spec.rowB p) (Cert.Spec.rowT p) ((II x0 x1 x2 x3 x4 x5 x6 x7 x8 x9 x10 x11).ti p) : ℝ) : EReal) := by
  unfold val_main_call3_v13
  refine (Cert.Lib.gather_along_col gather_S8192x32000_S8192x1x1_S8192x1_n_1_0_0_1_2_11 rfl rfl rfl rfl rfl rfl
    (val_main_v47 (F := Ideal) x0 x2 x3 x4 x5 x6 x7 x8 x9 x10 x11) (val_main_call3_v5 (F := Ideal) x1) p u (by norm_num)).trans ?_
  refine (v47_at x0 x1 x2 x3 x4 x5 x6 x7 x8 x9 x10 x11 hlog p _).trans ?_
  refine congrArg (fun k => ((Cert.Spec.logp (II x0 x1 x2 x3 x4 x5 x6 x7 x8 x9 x10 x11) (Cert.Spec.rowB p) (Cert.Spec.rowT p) k : ℝ) : EReal)) (Fin.ext ?_)
  show min (val_main_call3_v5 (F := Ideal) x1 (ix3 p (0 : Fin 1) (0 : Fin 1))).toInt.toNat (32000 - 1)
    = min (wrapW (x1 (ix2 (Cert.Spec.rowB p) (Cert.Spec.rowT p)))).toInt.toNat (32000 - 1)
  rw [c3v5_at]

include hlo hhi

theorem v49_at (p : Fin 8192) (u : Fin 1) :
    val_main_v49 (F := Ideal) x0 x1 x2 x3 x4 x5 x6 x7 x8 x9 x10 x11 (ix2 p u)
      = ((Cert.Spec.logp (II x0 x1 x2 x3 x4 x5 x6 x7 x8 x9 x10 x11) (Cert.Spec.rowB p) (Cert.Spec.rowT p) ((II x0 x1 x2 x3 x4 x5 x6 x7 x8 x9 x10 x11).ti p) : ℝ) : EReal) := by
  rw [val_main_v49_apply, c3v12_at x1 hlo hhi, select_one, c3v13_at x0 x1 x2 x3 x4 x5 x6 x7 x8 x9 x10 x11 hlog p u]

theorem v52_at :
    val_main_v52 (F := Ideal) x0 x1 x2 x3 x4 x5 x6 x7 x8 x9 x10 x11 ix0 = ((Cert.Spec.loss (II x0 x1 x2 x3 x4 x5 x6 x7 x8 x9 x10 x11) : ℝ) : EReal) := by
  rw [val_main_v52_apply, val_main_v51_apply, val_main_v50_apply]
  have h0 : (val_main_cst_6 (F := Ideal)) (Shape.Idx.first h_S_) = 0 := Ideal.ofBits_zero_f32
  have h8 : val_main_cst_7 (F := Ideal) ix0 = ((8192 : ℝ) : EReal) := ofBits_8192
  have hs : ∀ p : Fin 8192, ∑ u : Fin 1, val_main_v49 (F := Ideal) x0 x1 x2 x3 x4 x5 x6 x7 x8 x9 x10 x11 (ix2 p u)
      = ((Cert.Spec.logp (II x0 x1 x2 x3 x4 x5 x6 x7 x8 x9 x10 x11) (Cert.Spec.rowB p) (Cert.Spec.rowT p) ((II x0 x1 x2 x3 x4 x5 x6 x7 x8 x9 x10 x11).ti p) : ℝ) : EReal) := fun p => by
    rw [Fin.sum_univ_one, v49_at x0 x1 x2 x3 x4 x5 x6 x7 x8 x9 x10 x11 hlog hlo hhi p 0]
  rw [h0, zero_add, h8, sum_idx2, Finset.sum_congr rfl (fun p _ => hs p), ← Cert.Lib.OnlineSoftmax.coe_finset_sum]
  show -(Ideal.div ((_ : ℝ) : EReal) ((8192 : ℝ) : EReal)) = _
  rw [Ideal.div_coe (by norm_num), ← EReal.coe_mul, ← EReal.coe_neg]
  unfold Cert.Spec.loss
  congr 1
  ring

end Loss

theorem ref_logits (hG : Cert.Spec.Good x0 x1 x2 x3 x4 x5 x6 x7 x8 x9 x10 x11) (hctx : ∀ (b : Fin 4) (t : Fin 2048) (d : Fin 256),
      val_main_v40 (F := Ideal) x0 x2 x3 x4 x5 x6 x7 x8 x9 (ix3 b t d)
        = ((Cert.Spec.ctx (Cert.Spec.Inp.of x0 x1 x2 x3 x4 x5 x6 x7 x8 x9 x10 x11) b t d : ℝ) : EReal)) (p : Fin 8192) (q : Fin 32000) :
    val_main_v45 (F := Ideal) x0 x2 x3 x4 x5 x6 x7 x8 x9 x10 x11 (ix2 p q) = ((Cert.Spec.logitsOut (Cert.Spec.Inp.of x0 x1 x2 x3 x4 x5 x6 x7 x8 x9 x10 x11) p q : ℝ) : EReal) :=
  logits_at x0 x1 x2 x3 x4 x5 x6 x7 x8 x9 x10 x11 hG hctx p q

theorem ref_loss (hG : Cert.Spec.Good x0 x1 x2 x3 x4 x5 x6 x7 x8 x9 x10 x11) (hctx : ∀ (b : Fin 4) (t : Fin 2048) (d : Fin 256),
      val_main_v40 (F := Ideal) x0 x2 x3 x4 x5 x6 x7 x8 x9 (ix3 b t d)
        = ((Cert.Spec.ctx (Cert.Spec.Inp.of x0 x1 x2 x3 x4 x5 x6 x7 x8 x9 x10 x11) b t d : ℝ) : EReal)) :
    val_main_v52 (F := Ideal) x0 x1 x2 x3 x4 x5 x6 x7 x8 x9 x10 x11 ix0 = ((Cert.Spec.loss (Cert.Spec.Inp.of x0 x1 x2 x3 x4 x5 x6 x7 x8 x9 x10 x11) : ℝ) : EReal) :=
  v52_at x0 x1 x2 x3 x4 x5 x6 x7 x8 x9 x10 x11 (logits_at x0 x1 x2 x3 x4 x5 x6 x7 x8 x9 x10 x11 hG hctx) hG.tg_lo hG.tg_hi

end Cert.RefOut

end
-- ==== Proof.PreGood.lean ====
import proofs.«413320_j45251775431036_3_alg».proof.Pre_finite_inputs
import proofs.«413320_j45251775431036_3_alg».proof.Proof.Gen.Pre_finite_inputs
import proofs.«413320_j45251775431036_3_alg».proof.Proof.Spec
import Idealize.ShloMosaic.Lib.ReduceAll
import Idealize.ShloMosaic.PureOps.Ideal
import Idealize.ShloMosaic.Lib.ValueIdx

noncomputable section

namespace Cert.PreGood

open Idealize.ShloMosaic Idealize.ShloMosaic.ValueIdx

instance subsingleton_scalar_idx : Subsingleton (⟨0, ![]⟩ : Shape).Idx := ⟨fun a b => funext fun d => d.elim0⟩

theorem real_of_abs_lt_top (a : EReal) (h : max a (-a) < ⊤) : a = ((a.toReal : ℝ) : EReal) := by
  induction a using EReal.rec with
  | bot => simp at h
  | coe r => simp
  | top => simp at h

theorem ofBool_eq_one (b : Bool) : BitVec.ofBool b = 1#1 ↔ b = true := by cases b <;> decide

theorem inf_bits : Ideal.ofBits .f32 0x7F800000#32 = (⊤ : EReal) := by simp [Ideal.ofBits, Ideal.ieee]

theorem andi_at {s : Shape} (a b : IVec s 1) (i : s.Idx) : andi a b i = 1#1 ↔ a i = 1#1 ∧ b i = 1#1 :=
  IntOp.andi_eq_one

theorem float_all {s : Shape} {axes : List (Fin s.rank)} (x : FVec Ideal s .f32) (bc : (⟨0, ![]⟩ : Shape).BroadcastsInDim s (![] : Fin 0 → Fin s.rank)) (hr : s.ReducesTo axes ⟨0, ![]⟩) (hu : 0 < (⟨0, ![]⟩ : Shape).numel) (e : Host.reduce IntOp.andi
          (cmpf .olt (Host.absf x) (broadcastInDim s ![] bc (constant (F := Ideal) ⟨0, ![]⟩ .f32 0x7F800000#32)))
          (constantI ⟨0, ![]⟩ 1 1#1) hr hu ix0 = 1#1) (i : s.Idx) :
    x i = (((x i).toReal : ℝ) : EReal) := by
  have h1 := Host.reduce_andi_all _ _ hr hu ix0 e i
  apply real_of_abs_lt_top
  have h2 : BitVec.ofBool (decide (max (x i) (-(x i)) < Ideal.ofBits .f32 0x7F800000#32)) = 1#1 := h1
  rw [ofBool_eq_one, decide_eq_true_eq, inf_bits] at h2
  exact h2

theorem lo_word : (4294935296#32 : BitVec 32).toInt = -32000 := by decide

theorem hi_word : (32000#32 : BitVec 32).toInt = 32000 := by decide

theorem int_all {s : Shape} {axes : List (Fin s.rank)} (x : IVec s 32) (bc : (⟨0, ![]⟩ : Shape).BroadcastsInDim s (![] : Fin 0 → Fin s.rank)) (hr : s.ReducesTo axes ⟨0, ![]⟩) (hu : 0 < (⟨0, ![]⟩ : Shape).numel) (e : Host.reduce IntOp.andi
          (andi (cmpi .sge x (broadcastInDim s ![] bc (constantI ⟨0, ![]⟩ 32 4294935296#32)))
                (cmpi .slt x (broadcastInDim s ![] bc (constantI ⟨0, ![]⟩ 32 32000#32))))
          (constantI ⟨0, ![]⟩ 1 1#1) hr hu ix0 = 1#1) (i : s.Idx) :
    -(32000 : Int) ≤ (x i).toInt ∧ (x i).toInt < 32000 := by
  have h1 := Host.reduce_andi_all _ _ hr hu ix0 e i
  rw [andi_at] at h1
  obtain ⟨hl, hh⟩ := h1
  have hl' : IntOp.cmpi .sge (x i) (4294935296#32) = 1#1 := hl
  have hh' : IntOp.cmpi .slt (x i) (32000#32) = 1#1 := hh
  rw [IntOp.cmpi_sge, lo_word] at hl'
  rw [IntOp.cmpi_slt, hi_word] at hh'
  exact ⟨hl', hh'⟩

open Cert.Pre_finite_inputs in

theorem good_of_pre [Cert.Pre_finite_inputs.Facts] (x0 x1 : IVec Cert.Pre_finite_inputs.S4x2048 32) (x2 : FVec Ideal Cert.Pre_finite_inputs.S32000x256 .f32) (x3 : FVec Ideal Cert.Pre_finite_inputs.S2048x256 .f32) (x4 : FVec Ideal Cert.Pre_finite_inputs.S256x256 .f32) (x5 : FVec Ideal Cert.Pre_finite_inputs.S256 .f32) (x6 : FVec Ideal Cert.Pre_finite_inputs.S256x256 .f32) (x7 : FVec Ideal Cert.Pre_finite_inputs.S256 .f32) (x8 : FVec Ideal Cert.Pre_finite_inputs.S256x256 .f32) (x9 : FVec Ideal Cert.Pre_finite_inputs.S256 .f32) (x10 : FVec Ideal Cert.Pre_finite_inputs.S256x32000 .f32) (x11 : FVec Ideal Cert.Pre_finite_inputs.S32000 .f32) (h : Cert.Pre_finite_inputs.fn (F := Ideal) x0 x1 x2 x3 x4 x5 x6 x7 x8 x9 x10 x11 = (fun _ => 1#1)) :
    Cert.Spec.Good x0 x1 x2 x3 x4 x5 x6 x7 x8 x9 x10 x11 := by
  have e := congrFun h ix0
  dsimp only [Cert.Pre_finite_inputs.fn, Cert.Pre_finite_inputs.fn_part1, Cert.Pre_finite_inputs.fn_part2,
    Cert.Pre_finite_inputs.fn_part3] at e
  simp only [andi_at] at e
  obtain ⟨⟨⟨⟨⟨⟨⟨⟨⟨⟨⟨e2, e3⟩, e4⟩, e5⟩, e6⟩, e7⟩, e8⟩, e9⟩, e10⟩, e11⟩, e0⟩, e1⟩ := e
  exact
    { x_lo := fun i => (int_all x0 _ _ _ e0 i).1
      x_hi := fun i => (int_all x0 _ _ _ e0 i).2
      tg_lo := fun i => (int_all x1 _ _ _ e1 i).1
      tg_hi := fun i => (int_all x1 _ _ _ e1 i).2
      tok_real := float_all x2 _ _ _ e2
      pos_real := float_all x3 _ _ _ e3
      Wq_real := float_all x4 _ _ _ e4
      bq_real := float_all x5 _ _ _ e5
      Wk_real := float_all x6 _ _ _ e6
      bk_real := float_all x7 _ _ _ e7
      Wv_real := float_all x8 _ _ _ e8
      bv_real := float_all x9 _ _ _ e9
      Wp_real := float_all x10 _ _ _ e10
      bp_real := float_all x11 _ _ _ e11 }

end Cert.PreGood

end
-- ==== Proof.lean ====
import proofs.«413320_j45251775431036_3_alg».proof.Defs
import proofs.«413320_j45251775431036_3_alg».proof.Proof.Gen.Kernel
import proofs.«413320_j45251775431036_3_alg».proof.Proof.Gen.KernelIdeal
import proofs.«413320_j45251775431036_3_alg».proof.Proof.Gen.ReferenceIdeal
import proofs.«413320_j45251775431036_3_alg».proof.Proof.Gen.Pre_finite_inputs
import proofs.«413320_j45251775431036_3_alg».proof.Proof.K.Frame
import proofs.«413320_j45251775431036_3_alg».proof.Proof.KI.Frame
import proofs.«413320_j45251775431036_3_alg».proof.Proof.KI.Value
import proofs.«413320_j45251775431036_3_alg».proof.Proof.RefRunHand
import proofs.«413320_j45251775431036_3_alg».proof.Proof.RefCtx
import proofs.«413320_j45251775431036_3_alg».proof.Proof.RefOut
import proofs.«413320_j45251775431036_3_alg».proof.Proof.PreGood
set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.RefRunHand.run (F := Ideal) m ρ)

theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

open Cert.KernelIdeal.Hand Cert.KernelIdeal.Val in

theorem algebraic : Cert.algebraic_KernelIdeal_ReferenceIdeal := by
  intro m ρ m' ρ' hpre hagree
  have hG : ∀ c, kGood m c := fun c => Cert.PreGood.good_of_pre _ _ _ _ _ _ _ _ _ _ _ _ (hpre c)
  refine ⟨fun c => W10 m c Cert.KernelIdeal.main_v16_0, fun c => W10 m c Cert.KernelIdeal.main_v22, ?_, ?_⟩
  · refine (θ_run Cert.KernelIdeal.defs _ _).mono (fun r h c => ?_) (run_all (F := Ideal) m ρ)
    exact ⟨h c _ (mem_uc Cert.KernelIdeal.main_v16_0 (by decide)), h c _ (mem_uc Cert.KernelIdeal.main_v22 (by decide)),
      (h c _ (mem_uc Cert.KernelIdeal.main_arg0 (by decide))).trans (W10_main_arg0 m c),
      (h c _ (mem_uc Cert.KernelIdeal.main_arg1 (by decide))).trans (W10_main_arg1 m c),
      (h c _ (mem_uc Cert.KernelIdeal.main_arg2 (by decide))).trans (W10_main_arg2 m c),
      (h c _ (mem_uc Cert.KernelIdeal.main_arg3 (by decide))).trans (W10_main_arg3 m c),
      (h c _ (mem_uc Cert.KernelIdeal.main_arg4 (by decide))).trans (W10_main_arg4 m c),
      (h c _ (mem_uc Cert.KernelIdeal.main_arg5 (by decide))).trans (W10_main_arg5 m c),
      (h c _ (mem_uc Cert.KernelIdeal.main_arg6 (by decide))).trans (W10_main_arg6 m c),
      (h c _ (mem_uc Cert.KernelIdeal.main_arg7 (by decide))).trans (W10_main_arg7 m c),
      (h c _ (mem_uc Cert.KernelIdeal.main_arg8 (by decide))).trans (W10_main_arg8 m c),
      (h c _ (mem_uc Cert.KernelIdeal.main_arg9 (by decide))).trans (W10_main_arg9 m c),
      (h c _ (mem_uc Cert.KernelIdeal.main_arg10 (by decide))).trans (W10_main_arg10 m c),
      (h c _ (mem_uc Cert.KernelIdeal.main_arg11 (by decide))).trans (W10_main_arg11 m c)⟩
  · refine (θ_run Cert.ReferenceIdeal.defs _ _).mono (fun r h c => ⟨(h c).1.trans ?_, (h c).2.1.trans ?_, (h c).2.2⟩)
      (Cert.RefRunHand.run (F := Ideal) m' ρ')
    · obtain ⟨e0, e1, e2, e3, e4, e5, e6, e7, e8, e9, e10, e11⟩ := hagree c
      rw [e0, e2, e3, e4, e5, e6, e7, e8, e9, e10, e11]
      funext i
      obtain ⟨p, q, rfl⟩ : ∃ (p : Fin 8192) (q : Fin 32000), i = ix2 p q := ⟨i 0, i 1, eq_ix2 i⟩
      exact (Cert.RefOut.ref_logits _ _ _ _ _ _ _ _ _ _ _ _ (hG c) (fun b t d => Cert.RefCtx.ref_ctx (hG c) b t d) p q).trans
        (kernel_logits m c (hG c) p q).symm
    · obtain ⟨e0, e1, e2, e3, e4, e5, e6, e7, e8, e9, e10, e11⟩ := hagree c
      rw [e0, e1, e2, e3, e4, e5, e6, e7, e8, e9, e10, e11]
      funext i
      obtain rfl : i = ix0 := Subsingleton.elim _ _
      exact (Cert.RefOut.ref_loss _ _ _ _ _ _ _ _ _ _ _ _ (hG c) (fun b t d => Cert.RefCtx.ref_ctx (hG c) b t d)).trans
        (kernel_loss m c (hG c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
